-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x64 : Shape := ⟨2, ![128, 64]⟩
abbrev S128x1 : Shape := ⟨2, ![128, 1]⟩
abbrev S64 : Shape := ⟨1, ![64]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128x1 : S_.BroadcastsInDim S128x1 (![] : Fin 0 → Fin S128x1.rank)
  reducesTo_S128x1_S_d0_1 : S128x1.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x1 .f32) (main_arg6 : FVec F S64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8192x128 .f32) (main_arg1 : FVec F S8192x128 .f32) (main_arg2 : IVec S8192x8192 32) (main_arg3 : FVec F S128x64 .f32) (main_arg4 : FVec F S128x64 .f32) (main_arg5 : FVec F S128x1 .f32) (main_arg6 : FVec F S64 .f32) (main_arg7 : FVec F S64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S8192x128 : Shape := ⟨2, ![8192, 128]⟩
abbrev S8192x8192 : Shape := ⟨2, ![8192, 8192]⟩
abbrev S128x64 : Shape := ⟨2, ![128, 64]⟩
abbrev S128x1 : Shape := ⟨2, ![128, 1]⟩
abbrev S64 : Shape := ⟨1, ![64]⟩
abbrev S64x1 : Shape := ⟨2, ![64, 1]⟩
abbrev S8192x64 : Shape := ⟨2, ![8192, 64]⟩
abbrev S8192x1 : Shape := ⟨2, ![8192, 1]⟩
abbrev S1x8192 : Shape := ⟨2, ![1, 8192]⟩
abbrev S1x64 : Shape := ⟨2, ![1, 64]⟩
abbrev S_ : Shape := ⟨0, ![]⟩
abbrev S8192x63 : Shape := ⟨2, ![8192, 63]⟩
abbrev S1024x1 : Shape := ⟨2, ![1024, 1]⟩
abbrev S1024x512 : Shape := ⟨2, ![1024, 512]⟩
abbrev S512x1024 : Shape := ⟨2, ![512, 1024]⟩
abbrev S1024x128 : Shape := ⟨2, ![1024, 128]⟩
abbrev S1x512 : Shape := ⟨2, ![1, 512]⟩
abbrev S512x128 : Shape := ⟨2, ![512, 128]⟩
abbrev S1024 : Shape := ⟨1, ![1024]⟩
abbrev S1024x64 : Shape := ⟨2, ![1024, 64]⟩

abbrev nBuf : Space → Nat
  | .hbm => 31
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .i32⟩
  | .hbm, ⟨3, _⟩ => ⟨S128x64, .f32⟩
  | .hbm, ⟨4, _⟩ => ⟨S128x64, .f32⟩
  | .hbm, ⟨5, _⟩ => ⟨S128x1, .f32⟩
  | .hbm, ⟨6, _⟩ => ⟨S64, .f32⟩
  | .hbm, ⟨7, _⟩ => ⟨S64, .f32⟩
  | .hbm, ⟨8, _⟩ => ⟨S64x1, .f32⟩
  | .hbm, ⟨9, _⟩ => ⟨S64x1, .f32⟩
  | .hbm, ⟨10, _⟩ => ⟨S8192x64, .f32⟩
  | .hbm, ⟨11, _⟩ => ⟨S8192x64, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S1x8192, .f32⟩
  | .hbm, ⟨17, _⟩ => ⟨S1x8192, .f32⟩
  | .hbm, ⟨18, _⟩ => ⟨S1x64, .f32⟩
  | .hbm, ⟨19, _⟩ => ⟨S1x64, .f32⟩
  | .hbm, ⟨20, _⟩ => ⟨S_, .bf16⟩
  | .hbm, ⟨21, _⟩ => ⟨S8192x1, .bf16⟩
  | .hbm, ⟨22, _⟩ => ⟨S_, .bf16⟩
  | .hbm, ⟨23, _⟩ => ⟨S8192x63, .bf16⟩
  | .hbm, ⟨24, _⟩ => ⟨S8192x64, .bf16⟩
  | .hbm, ⟨25, _⟩ => ⟨S8192x128, .bf16⟩
  | .hbm, ⟨26, _⟩ => ⟨S8192x64, .bf16⟩
  | .hbm, ⟨27, _⟩ => ⟨S8192x128, .bf16⟩
  | .hbm, ⟨28, _⟩ => ⟨S8192x128, .f32⟩
  | .hbm, ⟨29, _⟩ => ⟨S8192x64, .f32⟩
  | .hbm, ⟨30, _⟩ => ⟨S8192x64, .f32⟩
  | .local _ .vmem, ⟨0, _⟩ => ⟨S1024x1, .f32⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1x8192, .f32⟩
  | .local _ .vmem, ⟨5, _⟩ => ⟨S1x8192, .f32⟩
  | .local _ .vmem, ⟨6, _⟩ => ⟨S8192x128, .bf16⟩
  | .local _ .vmem, ⟨7, _⟩ => ⟨S8192x128, .bf16⟩
  | .local _ .vmem, ⟨8, _⟩ => ⟨S1024x512, .i32⟩
  | .local _ .vmem, ⟨9, _⟩ => ⟨S1024x512, .i32⟩
  | .local _ .vmem, ⟨10, _⟩ => ⟨S512x1024, .i32⟩
  | .local _ .vmem, ⟨11, _⟩ => ⟨S512x1024, .i32⟩
  | .local _ .vmem, ⟨12, _⟩ => ⟨S1x64, .f32⟩
  | .local _ .vmem, ⟨13, _⟩ => ⟨S1x64, .f32⟩
  | .local _ .vmem, ⟨14, _⟩ => ⟨S1024x128, .f32⟩
  | .local _ .vmem, ⟨15, _⟩ => ⟨S1024x128, .f32⟩
  | .local _ .vmem, ⟨16, _⟩ => ⟨S1024x1, .f32⟩
  | .local _ .vmem, ⟨17, _⟩ => ⟨S1024x128, .f32⟩
  | .local _ .vmem, ⟨18, _⟩ => ⟨S1024x1, .f32⟩
  | .local _ .vmem, ⟨19, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v7 : BitVec 32 := Scalar.muli arg1 c512_i32
  v7
def k0_off1 (i : grid0.Coords) : Fin 2 → Nat :=
  let c0_4 : Index := 0#32
  let arg1 : BitVec 32 := BitVec.ofNat 32 (i 1).val
  let c512_i32 : BitVec 32 := 512#32
  let v7 : BitVec 32 := Scalar.muli arg1 c512_i32
  let v8 : BitVec 32 := v7
  let v9 : Index := Scalar.indexCast v8
  ![0, v9.toNat]
def k0_off2 (i : grid0.Coords) : Fin 2 → Nat :=
  let arg1 : BitVec 32 := BitVec.ofNat 32 (i 1).val
  let c512_i32 : BitVec 32 := 512#32
  let v7 : BitVec 32 := Scalar.muli arg1 c512_i32
  let v8 : BitVec 32 := v7
  let v15 : Index := Scalar.indexCast v8
  let c0_6 : Index := 0#32
  ![v15.toNat, 0]
def k0_cond2 (i : grid0.Coords) : BitVec 1 :=
  let arg1 : BitVec 32 := BitVec.ofNat 32 (i 1).val
  let c15_i32 : BitVec 32 := 15#32
  let v88 : BitVec 1 := Scalar.cmpi .eq arg1 c15_i32
  let v89 : BitVec 32 := Scalar.extui v88
  let c0_i32_41 : BitVec 32 := 0#32
  let v90 : BitVec 1 := Scalar.cmpi .ne v89 c0_i32_41
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8192x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  slices_S128x1_S64x1_0_0 : S128x1.Slices ![0, 0] S64x1
  slices_S128x1_S64x1_64_0 : S128x1.Slices ![64, 0] S64x1
  shapeCasts_S8192x1_S1x8192 : S8192x1.ShapeCasts S1x8192
  shapeCasts_S64_S1x64 : S64.ShapeCasts S1x64
  bcast_S_S8192x1 : S_.BroadcastsInDim S8192x1 (![] : Fin 0 → Fin S8192x1.rank)
  bcast_S_S8192x63 : S_.BroadcastsInDim S8192x63 (![] : Fin 0 → Fin S8192x63.rank)
  bitsLt_bf16_f32 : FTy.bits .bf16 < FTy.bits .f32
  concatenates_S8192x64_S8192x1_S8192x63_S8192x128_d1 : Shape.Concatenates [S8192x64, S8192x1, S8192x63] S8192x128 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S1x512 : 0 < S1x512.numel
  shapeCasts_S1x512_S1x512 : S1x512.ShapeCasts S1x512
  h_S512x128 : 0 < S512x128.numel
  shapeCasts_S512x128_S512x128 : S512x128.ShapeCasts S512x128
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x128 : S1024x1.Broadcasts S1024x128
  slices_S1024x128_o0_64_S1024x1 : S1024x128.Slices ![0, 64] S1024x1
  slices_S1024x128_o0_0_S1024x64 : S1024x128.Slices ![0, 0] S1024x64
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x128_S1024x64_0_0 : ∀ a, (![0, 0] : Fin 2 → Nat) a + S1024x64.size a ≤ S1024x128.size a
  h_S1024x64 : 0 < S1024x64.numel
  inb_S1024x128_S1024x64_0_64 : ∀ a, (![0, 64] : Fin 2 → Nat) a + S1024x64.size a ≤ S1024x128.size a
  slices_S8192x128_S8192x64_0_0 : S8192x128.Slices ![0, 0] S8192x64
  slices_S8192x128_S8192x64_0_64 : S8192x128.Slices ![0, 64] S8192x64
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []
  dot_S1024x512_S512x128_S1024x128_1_0_0_1_n_n_wf : DotDims.WF S1024x512 S512x128 S1024x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x512.size a ≤ S1x8192.size a
  k0_off2_inb : ∀ i : grid0.Coords, ∀ a, (k0_off2 i) a + S512x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S8192x128.size a
  hwx0_4 : ∀ i : grid0.Coords, EltTy.bits .bf16 = 32 ∨ (Rect.block (s := S8192x128) S8192x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S8192x128.size a
  hwx0_5 : ∀ i : grid0.Coords, EltTy.bits .bf16 = 32 ∨ (Rect.block (s := S8192x128) S8192x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x8192.size a
  hwx0_6 : ∀ i : grid0.Coords, EltTy.bits .i32 = 32 ∨ (Rect.block (s := S8192x8192) S1024x512.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x8192.size a
  hwx0_7 : ∀ i : grid0.Coords, EltTy.bits .i32 = 32 ∨ (Rect.block (s := S8192x8192) S512x1024.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S8192x128.size a
  hwx0_10 : ∀ i : grid0.Coords, EltTy.bits .f32 = 32 ∨ (Rect.block (s := S8192x128) S1024x128.size (cc0_transform_10 i) (hinb0_10 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v4) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S8192x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S8192x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S1024x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S512x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1024x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x64 : Shape := ⟨2, ![128, 64]⟩
abbrev S128x1 : Shape := ⟨2, ![128, 1]⟩
abbrev S64 : Shape := ⟨1, ![64]⟩
abbrev S64x1 : Shape := ⟨2, ![64, 1]⟩
abbrev S8192x64 : Shape := ⟨2, ![8192, 64]⟩
abbrev S8192x1 : Shape := ⟨2, ![8192, 1]⟩
abbrev S1x8192 : Shape := ⟨2, ![1, 8192]⟩
abbrev S_ : Shape := ⟨0, ![]⟩
abbrev S8192 : Shape := ⟨1, ![8192]⟩
abbrev S1x64 : Shape := ⟨2, ![1, 64]⟩

abbrev nBuf : Space → Nat
  | .hbm => 116
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .i32⟩
  | .hbm, ⟨3, _⟩ => ⟨S128x64, .f32⟩
  | .hbm, ⟨4, _⟩ => ⟨S128x64, .f32⟩
  | .hbm, ⟨5, _⟩ => ⟨S128x1, .f32⟩
  | .hbm, ⟨6, _⟩ => ⟨S64, .f32⟩
  | .hbm, ⟨7, _⟩ => ⟨S64, .f32⟩
  | .hbm, ⟨8, _⟩ => ⟨S64x1, .f32⟩
  | .hbm, ⟨9, _⟩ => ⟨S64x1, .f32⟩
  | .hbm, ⟨10, _⟩ => ⟨S8192x64, .f32⟩
  | .hbm, ⟨11, _⟩ => ⟨S8192x64, .f32⟩
  | .hbm, ⟨12, _⟩ => ⟨S8192x1, .f32⟩
  | .hbm, ⟨13, _⟩ => ⟨S8192x1, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x1, .f32⟩
  | .hbm, ⟨26, _⟩ => ⟨S8192x1, .f32⟩
  | .hbm, ⟨27, _⟩ => ⟨S1x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .i1⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .i32⟩
  | .hbm, ⟨39, _⟩ => ⟨S8192x8192, .i32⟩
  | .hbm, ⟨40, _⟩ => ⟨S8192x8192, .i1⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x8192, .f32⟩
  | .hbm, ⟨58, _⟩ => ⟨S8192x8192, .f32⟩
  | .hbm, ⟨59, _⟩ => ⟨S8192x8192, .i1⟩
  | .hbm, ⟨60, _⟩ => ⟨S_, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x8192, .f32⟩
  | .hbm, ⟨77, _⟩ => ⟨S8192x8192, .f32⟩
  | .hbm, ⟨78, _⟩ => ⟨S8192x64, .f32⟩
  | .hbm, ⟨79, _⟩ => ⟨S1x64, .f32⟩
  | .hbm, ⟨80, _⟩ => ⟨S8192x64, .f32⟩
  | .hbm, ⟨81, _⟩ => ⟨S8192x64, .f32⟩
  | .hbm, ⟨82, _⟩ => ⟨S_, .f32⟩
  | .hbm, ⟨83, _⟩ => ⟨S8192x64, .f32⟩
  | .hbm, ⟨84, _⟩ => ⟨S8192x64, .i1⟩
  | .hbm, ⟨85, _⟩ => ⟨S_, .f32⟩
  | .hbm, ⟨86, _⟩ => ⟨S8192x64, .f32⟩
  | .hbm, ⟨87, _⟩ => ⟨S8192x64, .i1⟩
  | .hbm, ⟨88, _⟩ => ⟨S_, .f32⟩
  | .hbm, ⟨89, _⟩ => ⟨S_, .f32⟩
  | .hbm, ⟨90, _⟩ => ⟨S8192x64, .f32⟩
  | .hbm, ⟨91, _⟩ => ⟨S8192x64, .f32⟩
  | .hbm, ⟨92, _⟩ => ⟨S8192x64, .f32⟩
  | .hbm, ⟨93, _⟩ => ⟨S_, .f32⟩
  | .hbm, ⟨94, _⟩ => ⟨S8192x64, .f32⟩
  | .hbm, ⟨95, _⟩ => ⟨S8192x64, .f32⟩
  | .hbm, ⟨96, _⟩ => ⟨S8192x64, .f32⟩
  | .hbm, ⟨97, _⟩ => ⟨S8192x64, .f32⟩
  | .hbm, ⟨98, _⟩ => ⟨S1x64, .f32⟩
  | .hbm, ⟨99, _⟩ => ⟨S8192x64, .f32⟩
  | .hbm, ⟨100, _⟩ => ⟨S8192x64, .f32⟩
  | .hbm, ⟨101, _⟩ => ⟨S_, .f32⟩
  | .hbm, ⟨102, _⟩ => ⟨S8192x64, .f32⟩
  | .hbm, ⟨103, _⟩ => ⟨S8192x64, .i1⟩
  | .hbm, ⟨104, _⟩ => ⟨S_, .f32⟩
  | .hbm, ⟨105, _⟩ => ⟨S8192x64, .f32⟩
  | .hbm, ⟨106, _⟩ => ⟨S8192x64, .i1⟩
  | .hbm, ⟨107, _⟩ => ⟨S_, .f32⟩
  | .hbm, ⟨108, _⟩ => ⟨S_, .f32⟩
  | .hbm, ⟨109, _⟩ => ⟨S8192x64, .f32⟩
  | .hbm, ⟨110, _⟩ => ⟨S8192x64, .f32⟩
  | .hbm, ⟨111, _⟩ => ⟨S8192x64, .f32⟩
  | .hbm, ⟨112, _⟩ => ⟨S_, .f32⟩
  | .hbm, ⟨113, _⟩ => ⟨S8192x64, .f32⟩
  | .hbm, ⟨114, _⟩ => ⟨S8192x64, .f32⟩
  | .hbm, ⟨115, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_call2_v0 : Ref sig .tc := ⟨.hbm, 42, rfl⟩
abbrev main_call2_v1 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_call3_v0 : Ref sig .tc := ⟨.hbm, 61, rfl⟩
abbrev main_call3_v1 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call4_cst : Ref sig .tc := ⟨.hbm, 82, rfl⟩
abbrev main_call4_v0 : Ref sig .tc := ⟨.hbm, 83, rfl⟩
abbrev main_call4_v1 : Ref sig .tc := ⟨.hbm, 84, rfl⟩
abbrev main_call4_cst_0 : Ref sig .tc := ⟨.hbm, 85, rfl⟩
abbrev main_call4_v2 : Ref sig .tc := ⟨.hbm, 86, rfl⟩
abbrev main_call4_v3 : Ref sig .tc := ⟨.hbm, 87, rfl⟩
abbrev main_call4_cst_1 : Ref sig .tc := ⟨.hbm, 88, rfl⟩
abbrev main_call4_call0_v0 : Ref sig .tc := ⟨.hbm, 89, rfl⟩
abbrev main_call4_call0_v1 : Ref sig .tc := ⟨.hbm, 90, rfl⟩
abbrev main_call4_v4 : Ref sig .tc := ⟨.hbm, 91, rfl⟩
abbrev main_call4_v5 : Ref sig .tc := ⟨.hbm, 92, rfl⟩
abbrev main_call4_cst_2 : Ref sig .tc := ⟨.hbm, 93, rfl⟩
abbrev main_call4_v6 : Ref sig .tc := ⟨.hbm, 94, rfl⟩
abbrev main_call4_v7 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_call5_cst : Ref sig .tc := ⟨.hbm, 101, rfl⟩
abbrev main_call5_v0 : Ref sig .tc := ⟨.hbm, 102, rfl⟩
abbrev main_call5_v1 : Ref sig .tc := ⟨.hbm, 103, rfl⟩
abbrev main_call5_cst_0 : Ref sig .tc := ⟨.hbm, 104, rfl⟩
abbrev main_call5_v2 : Ref sig .tc := ⟨.hbm, 105, rfl⟩
abbrev main_call5_v3 : Ref sig .tc := ⟨.hbm, 106, rfl⟩
abbrev main_call5_cst_1 : Ref sig .tc := ⟨.hbm, 107, rfl⟩
abbrev main_call5_call0_v0 : Ref sig .tc := ⟨.hbm, 108, rfl⟩
abbrev main_call5_call0_v1 : Ref sig .tc := ⟨.hbm, 109, rfl⟩
abbrev main_call5_v4 : Ref sig .tc := ⟨.hbm, 110, rfl⟩
abbrev main_call5_v5 : Ref sig .tc := ⟨.hbm, 111, rfl⟩
abbrev main_call5_cst_2 : Ref sig .tc := ⟨.hbm, 112, rfl⟩
abbrev main_call5_v6 : Ref sig .tc := ⟨.hbm, 113, rfl⟩
abbrev main_call5_v7 : Ref sig .tc := ⟨.hbm, 114, rfl⟩
abbrev main_v62 : Ref sig .tc := ⟨.hbm, 115, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  transposes_S8192x8192_S8192x8192_1_0 : S8192x8192.Transposes [1, 0] S8192x8192
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.BShared.lean ====
import proofs.«416335_j89953795048031_3_alg».proof.Proof.Gen.Kernel.Launch
import proofs.«416335_j89953795048031_3_alg».proof.Proof.Gen.Kernel.Skeleton
import proofs.«416335_j89953795048031_3_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev V₀ (c : Dev nD) : Valuation τ sig (Elt F) := fun b => m (c, b)

abbrev Vv (c : Dev nD) : Valuation τ sig (Elt F) := StableHlo.after hostOps0 (V₀ m c)
abbrev V (c : Dev nD) (b : Ref sig .tc) : Buf (Elt F) ((c : Thread nD τ).loc b) := Vv m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

theorem liveAt_in : ∀ (w : Fin 11), w.val < 10 → ∀ t : Fin cfg0.N, cfg0.idle w (grid0.coords t) = false := by decide +kernel
theorem idleAt_out : ∀ t : Fin cfg0.N, ¬condLast (grid0.coords t) → cfg0.idle 10 (grid0.coords t) = true := by decide +kernel
theorem noFlush_out : ∀ t : Fin cfg0.N, ¬condLast (grid0.coords t) → (cfg0.win 10).flush t = false := by decide +kernel
theorem liveAt_out : ∀ t : Fin cfg0.N, condLast (grid0.coords t) → cfg0.idle 10 (grid0.coords t) = false := by decide +kernel
abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8192x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S8192x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .i32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1024 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x128 .f32 := win0_10.stage (cfg0.slots t 10)
abbrev hs10 (t : Fin cfg0.N) : (ms10 t).IsWhole := hstage0_10 ((cfg0.slots t 10).cast nbuf0_10)
abbrev scM0 : Memref sig .tc .vmem S1024x1 .f32 := Memref.whole cc0_scratch0
abbrev scM1 : Memref sig .tc .vmem S1024x128 .f32 := Memref.whole cc0_scratch1
abbrev scM2 : Memref sig .tc .vmem S1024x1 .f32 := Memref.whole cc0_scratch2
abbrev scM3 : Memref sig .tc .vmem S1024x128 .f32 := Memref.whole cc0_scratch3
abbrev VO : View sig .tc .vmem S1024x128 .f32 := (Memref.whole cc0_stg10_0 : Memref sig .tc .vmem S1024x128 .f32).view
abbrev VS0 : View sig .tc .vmem S1024x1 .f32 := scM0.view
abbrev VS1 : View sig .tc .vmem S1024x128 .f32 := scM1.view
abbrev VS2 : View sig .tc .vmem S1024x1 .f32 := scM2.view
abbrev VS3 : View sig .tc .vmem S1024x128 .f32 := scM3.view

theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

end Cert.Kernel.Hand

end
-- ==== Proof.BLaunch.lean ====
import proofs.«416335_j89953795048031_3_alg».proof.Proof.BShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def qW : Fin cfg0.W → PosShare TreeShare := fun w => if w = 6 then fullShare.left else if w = 7 then fullShare.right else fullShare

def Wout (dats : (p : Fin 1) → (c : Dev nD) → Dat τ (Elt F) Unit ℕ (UR sig nD τ) ℕ (cfgs p) c) (c : Dev nD) : Valuation τ sig (Elt F) :=
  Function.update (Vv m c) (Proc.devRef .tc main_v18) ((dats 0 c).arrAt 10 cfg0.N)

abbrev adm : (p : Fin 1) → (pcfgs (F := F) p).Adm := fun p => (cfgs p).toPCfg_adm

abbrev 𝒱₀ : Variants := Variants.none

abbrev L : GSem nD τ sig → Finset Unit := fun _ => ∅
abbrev lv : GSem nD τ sig → Unit → ℕ := fun _ _ => 0

section Data

variable (dats : (p : Fin 1) → (c : Dev nD) → Dat τ (Elt F) Unit ℕ (UR sig nD τ) ℕ (cfgs p) c)

theorem share_eq (hq : ∀ c w, (dats 0 c).q w = qW w) (c : Dev nD) (w : Fin cfg0.W) : (dats 0 c).share w = qW w := by
  unfold Dat.share; rw [hq]
  revert w; decide

theorem arrBufs0_eq (c : Dev nD) (G : (b : Ref sig .tc) → Buf (Elt F) ((c : Thread nD τ).loc b)) :
    (Pipeline.arrBufs spec0 c G : sProp 𝕄)
      = iprop((((c : Thread nD τ).loc main_v4) ↦{fullShare} G main_v4) ∗ (((c : Thread nD τ).loc main_v6) ↦{fullShare} G main_v6)
          ∗ (((c : Thread nD τ).loc main_v8) ↦{fullShare} G main_v8) ∗ (((c : Thread nD τ).loc main_v9) ↦{fullShare} G main_v9)
          ∗ (((c : Thread nD τ).loc main_v15) ↦{fullShare} G main_v15) ∗ (((c : Thread nD τ).loc main_v17) ↦{fullShare} G main_v17)
          ∗ (((c : Thread nD τ).loc main_arg2) ↦{fullShare} G main_arg2) ∗ (((c : Thread nD τ).loc main_v10) ↦{fullShare} G main_v10)
          ∗ (((c : Thread nD τ).loc main_v11) ↦{fullShare} G main_v11) ∗ (((c : Thread nD τ).loc main_v18) ↦{fullShare} G main_v18)) := by
  unfold Pipeline.arrBufs
  exact bigSep_eq_bigSepL_of_eq [main_v4, main_v6, main_v8, main_v9, main_v15, main_v17, main_arg2, main_v10, main_v11, main_v18] (by decide) (by decide) _

theorem arrays0_eq (hq : ∀ c w, (dats 0 c).q w = qW w) (c : Dev nD) (G : (b : Ref sig .tc) → Buf (Elt F) ((c : Thread nD τ).loc b)) :
    ((dats 0 c).arrays (fun w => G (Pipeline.arrRef spec0 w)) : sProp 𝕄)
      = iprop((((c : Thread nD τ).loc main_v4) ↦{fullShare} G main_v4) ∗ (((c : Thread nD τ).loc main_v6) ↦{fullShare} G main_v6)
          ∗ (((c : Thread nD τ).loc main_v8) ↦{fullShare} G main_v8) ∗ (((c : Thread nD τ).loc main_v9) ↦{fullShare} G main_v9)
          ∗ (((c : Thread nD τ).loc main_v15) ↦{fullShare} G main_v15) ∗ (((c : Thread nD τ).loc main_v17) ↦{fullShare} G main_v17)
          ∗ (((c : Thread nD τ).loc main_arg2) ↦{fullShare.left} G main_arg2) ∗ (((c : Thread nD τ).loc main_arg2) ↦{fullShare.right} G main_arg2)
          ∗ (((c : Thread nD τ).loc main_v10) ↦{fullShare} G main_v10)
          ∗ (((c : Thread nD τ).loc main_v11) ↦{fullShare} G main_v11) ∗ (((c : Thread nD τ).loc main_v18) ↦{fullShare} G main_v18)) := by
  unfold Dat.arrays
  rw [bigSep_congr (fun w _ => by rw [(arr_whole0 w).set_eq_univ, share_eq dats hq c w]), bigSep_W0]
  rfl

theorem arrays_iff (hq : ∀ c w, (dats 0 c).q w = qW w) (c : Dev nD) (G : (b : Ref sig .tc) → Buf (Elt F) ((c : Thread nD τ).loc b)) :
    ((dats 0 c).arrays (fun w => G (Pipeline.arrRef spec0 w)) : sProp 𝕄) ⊣⊢ Pipeline.arrBufs spec0 c G := by
  rw [arrays0_eq dats hq c G, arrBufs0_eq c G]
  constructor
  · iintro ⟨H4, H6, H8, H9, H15, H17, H2l, H2r, H10, H11, H18⟩
    ihave H2 := (pointsTo_share (PosShare.mem_left_op_right fullShare)).2 $$ [H2l H2r]
    · isplitl [H2l] <;> iassumption
    iframe
  · iintro ⟨H4, H6, H8, H9, H15, H17, H2, H10, H11, H18⟩
    ihave H2' := (pointsTo_share (PosShare.mem_left_op_right fullShare)).1 $$ H2
    icases H2' with ⟨H2l, H2r⟩
    iframe

theorem unscopedRest_Wout (c : Dev nD) :
    (Pipeline.unscopedRest spec0 c (fun b => Wout m dats c (Proc.devRef .tc b)) : sProp 𝕄) = Pipeline.unscopedRest spec0 c (V m c) := by
  unfold Pipeline.unscopedRest
  refine bigSep_congr fun b hb => ?_
  have hne : b ≠ main_v18 := fun h => (Finset.mem_sdiff.mp hb).2 (Finset.mem_image.mpr ⟨10, Finset.mem_univ _, h.symm⟩)
  beta_reduce
  rw [show Wout m dats c (Proc.devRef .tc b) = V m c b from Function.update_of_ne (StableHlo.devRef_ne_of_ne hne) _ _]

theorem in_windows : ∀ w : Fin cfg0.W, w ≠ 10 → (cfg0.win w).isOut = false ∧ Pipeline.arrRef spec0 w ≠ main_v18 := by decide

theorem arrAt_last (hA : ∀ c w, (dats 0 c).A w = V m c (Pipeline.arrRef spec0 w)) (c : Dev nD) (w : Fin cfg0.W) :
    (dats 0 c).arrAt w cfg0.N = Wout m dats c (Proc.devRef .tc (Pipeline.arrRef spec0 w)) := by
  by_cases h : w = 10
  · subst h; unfold Wout
    exact (Function.update_self (Proc.devRef .tc main_v18) ((dats 0 c).arrAt 10 cfg0.N) (Vv m c)).symm
  · obtain ⟨hin, hne⟩ := in_windows w h
    rw [(dats 0 c).arrAt_in w hin, hA]
    exact (Function.update_of_ne (StableHlo.devRef_ne_of_ne hne) _ _).symm

abbrev R₀ (c : Dev nD) : sProp 𝕄 :=
  iprop(owes (c : Thread nD τ) (0 : CellTallies nD τ sig Unit) ∅ ∗ ∃ r, prngReg c r)

abbrev R₁ (c : Dev nD) : sProp 𝕄 :=
  iprop((∃ W, owes (c : Thread nD τ) (0 : CellTallies nD τ sig Unit) W) ∗ ∃ r, prngReg c r)

theorem entry_of (hA : ∀ c w, (dats 0 c).A w = V m c (Pipeline.arrRef spec0 w)) (hq : ∀ c w, (dats 0 c).q w = qW w)
    (howed : ∀ c t, (dats 0 c).owed t = 0) (c : Dev nD) :
    iprop(iprop(StableHlo.held (c : Thread nD τ) (Pipeline.ucRefs τ sig) (StableHlo.after hostOps0 (V₀ m c)) ∗ R₀ c)
        ∗ Pipeline.ownSems0 (fun k : PEmpty => k.elim) c ∗ levAts L lv)
      ⊢ |={Set.univ}=> iprop((dats 0 c).arrays ((dats 0 c).arrAt · 0) ∗ Pipeline.prefHeld (pcfgs (F := F) 0).pre c (fun _ => fullShare) (adm 0).1
          ∗ (dats 0 c).owesAt () 0 ∗ (∃ r, prngReg c r) ∗ Pipeline.unscopedRest spec0 c (V m c)) := by
  rw [show StableHlo.held (c : Thread nD τ) (Pipeline.ucRefs τ sig) (StableHlo.after hostOps0 (V₀ m c)) = unscopedBufs c (V m c)
      from (Pipeline.unscopedBufs_held c _).symm,
    Pipeline.unscopedBufs_split₀ cfgs 0 winFacts₀0.arr_unscoped c (V m c),
    show (fun w => (dats 0 c).arrAt w 0) = fun w => V m c (Pipeline.arrRef spec0 w) from funext (hA c)]
  unfold Pipeline.Dat.owesAt Pipeline.owesWithin; rw [howed c 0]
  iintro ⟨⟨⟨Ha, Hrest⟩, HO, Hp⟩, -, -⟩
  ihave Ha' := (arrays_iff dats hq c (V m c)).2 $$ Ha
  imodintro
  isplitl [Ha']; · iexact Ha'
  isplitr; · unfold Pipeline.prefHeld; rw [show (Finset.univ : Finset (Fin 0)) = ∅ from rfl, BI.bigSep_empty]; iempintro
  isplitl [HO]
  · iexists ∅; isplitr; · ipureintro; intro x hx; simp at hx
    iexact HO
  isplitl [Hp]; · iexact Hp
  iexact Hrest

theorem in_of (hin : ∀ c, Pipeline.ΦA spec0 c ⊢ (dats 0 c).Φ 0) (c : Dev nD) :
    iprop((∃ r, prngReg c r) ∗ Pipeline.prefHeld (pcfgs (F := F) 0).pre c (fun _ => fullShare) (adm 0).1
        ∗ Pipeline.scopedRest (Ix := Unit) (Name := ℕ) (U := UR sig nD τ) (Lvl := ℕ) (Val := Elt F) spec0 c) ⊢ (dats 0 c).Φ 0 := by
  have h : iprop((∃ r, prngReg c r) ∗ Pipeline.prefHeld (pcfgs (F := F) 0).pre c (fun _ => fullShare) (adm 0).1
        ∗ Pipeline.scopedRest (Ix := Unit) (Name := ℕ) (U := UR sig nD τ) (Lvl := ℕ) (Val := Elt F) spec0 c) ⊢ (Pipeline.ΦA spec0 c : sProp 𝕄) := by
    unfold Pipeline.ΦA
    iintro ⟨Hp, -, Hr⟩
    isplitl [Hr] <;> iassumption
  exact h.trans (hin c)

theorem out_of (hout : ∀ c, (dats 0 c).Φ (Fin.last cfg0.N) ⊢ Pipeline.ΦA spec0 c) (c : Dev nD) :
    (dats 0 c).Φ (Fin.last cfg0.N) ⊢ iprop((∃ r, prngReg c r) ∗ Pipeline.ownSems0 (fun k : PEmpty => k.elim) c
        ∗ Pipeline.scopedRest (Ix := Unit) (Name := ℕ) (U := UR sig nD τ) (Lvl := ℕ) (Val := Elt F) spec0 c) := by
  refine (hout c).trans ?_
  rw [Pipeline.ownSems0_none]; unfold Pipeline.ΦA
  iintro ⟨Hr, Hp⟩
  isplitl [Hp]; · iexact Hp
  isplitr; · iempintro
  iexact Hr

theorem exit_of (hA : ∀ c w, (dats 0 c).A w = V m c (Pipeline.arrRef spec0 w)) (hq : ∀ c w, (dats 0 c).q w = qW w)
    (howed : ∀ c t, (dats 0 c).owed t = 0) (c : Dev nD) :
    iprop((dats 0 c).arrays ((dats 0 c).arrAt · cfg0.N) ∗ (dats 0 c).owesAt () (Fin.last cfg0.N) ∗ (∃ r, prngReg c r)
        ∗ Pipeline.unscopedRest spec0 c (V m c))
      ⊢ |={Set.univ}=> iprop(StableHlo.held (c : Thread nD τ) (Pipeline.ucRefs τ sig) (Wout m dats c) ∗ R₁ c) := by
  rw [show StableHlo.held (c : Thread nD τ) (Pipeline.ucRefs τ sig) (Wout m dats c) = unscopedBufs c (fun b => Wout m dats c (Proc.devRef .tc b))
      from (Pipeline.unscopedBufs_held c _).symm,
    Pipeline.unscopedBufs_split₀ cfgs 0 winFacts₀0.arr_unscoped c (fun b => Wout m dats c (Proc.devRef .tc b)),
    unscopedRest_Wout m dats c,
    show (fun w => (dats 0 c).arrAt w cfg0.N) = fun w => Wout m dats c (Proc.devRef .tc (Pipeline.arrRef spec0 w)) from funext (arrAt_last m dats hA c)]
  unfold Pipeline.Dat.owesAt Pipeline.owesWithin; rw [howed c (Fin.last cfg0.N)]
  iintro ⟨Ha, ⟨%W, -, HO⟩, Hp, Hrest⟩
  ihave Ha' := (arrays_iff dats hq c (fun b => Wout m dats c (Proc.devRef .tc b))).1 $$ Ha
  imodintro
  isplitl [Ha' Hrest]
  · isplitl [Ha'] <;> iassumption
  isplitl [HO]; · iexists W; iexact HO
  iexact Hp

def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R₀

def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Wout m dats) R₁

set_option backward.isDefEq.respectTransparency.types false in
def reg0 (hA : ∀ c w, (dats 0 c).A w = V m c (Pipeline.arrRef spec0 w))
    (hq : ∀ c w, (dats 0 c).q w = qW w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none spec0
  hbody := hbody
  hwaits := Pipeline.hwaits_of_owed_zero _ _ _ _ L lv 0 fun c t => howed c t
  pre c := iprop(StableHlo.held (c : Thread nD τ) (Pipeline.ucRefs τ sig) (StableHlo.after hostOps0 (V₀ m c)) ∗ R₀ c)
  post c := iprop(StableHlo.held (c : Thread nD τ) (Pipeline.ucRefs τ sig) (Wout m dats c) ∗ R₁ c)
  X c := iprop(∃ r, prngReg c r)
  Y c := iprop(∃ r, prngReg c r)
  Z c := Pipeline.unscopedRest spec0 c (V m c)
  hentry c := entry_of m dats hA hq howed c
  hin c := in_of dats hin c
  hout c := out_of dats hout c
  hexit c := exit_of m dats hA hq howed c

theorem fin_of (c : Dev nD) (s' : Phys nD τ sig (Elt F)) :
    iprop(iprop(StableHlo.held (c : Thread nD τ) (Pipeline.ucRefs τ sig) (StableHlo.after hostOps1 (Wout m dats c)) ∗ ∃ r, prngReg c r) ∗ SI s')
      ⊢ |={Set.univ}=> iprop(⌜∀ b ∈ Pipeline.ucRefs τ sig, s'.mem.mem (c, b) = StableHlo.after hostOps1 (Wout m dats c) b⌝ ∗ (SI s' : sProp 𝕄)) := by
  unfold StableHlo.held
  iintro ⟨⟨Hh, -⟩, HSI⟩
  imodintro
  iapply (pointsTo_read_all (Pipeline.ucRefs τ sig) (fun b => ((c : Thread nD τ).1, b)) (StableHlo.after hostOps1 (Wout m dats c)) s')
  isplitl [Hh] <;> iassumption

end Data

set_option backward.isDefEq.respectTransparency.types false in
theorem run_of (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qW w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) ⟨m, fun _ => 0, ρ⟩ (fun r => ∀ c : Dev nD, ∀ b : DevRef τ sig,
      b ∈ Pipeline.ucRefs τ sig → r.2.mem (c, b) = StableHlo.after hostOps1 (Wout m dats c) b) :=
  Pipeline.θ_run_regions_kit (pcfgs (F := F)) adm dats () cellOf_inj emb₁ defs₀ 𝒱₀ L lv m ρ main
    [.host (seg0 m), .region (reg0 m dats hA hq howed hbody hin hout), .host (seg1 m dats)]
    (fun c Q => by rw [main_segs adm dats () 𝒱₀ L lv (seg0 m) (seg1 m dats) (reg0 m dats hA hq howed hbody hin hout) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R₀ c))
    (Tₙ := fun c => iprop(StableHlo.held (c : Thread nD τ) (Pipeline.ucRefs τ sig) (StableHlo.after hostOps1 (Wout m dats c)) ∗ ∃ r, prngReg c r))
    (hch := ⟨fun _ => .rfl, fun _ => .rfl, fun _ => .rfl, fun c => by
      show iprop(StableHlo.held (c : Thread nD τ) (Pipeline.ucRefs τ sig) (StableHlo.after hostOps1 (Wout m dats c)) ∗ R₁ c) ⊢ _
      iintro ⟨Hh, HO, Hp⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [HO]; · iexact HO
      iexists _; iexact Hp)
    (QY := fun c s => ∀ b ∈ Pipeline.ucRefs τ sig, s.mem (c, b) = StableHlo.after hostOps1 (Wout m dats c) b)
    (hfin := fun c s' => fin_of m dats c s')
    (hQ := fun _ h c b hb => h c b hb)

end Cert.Kernel.Hand

end
-- ==== Proof.BRunA.lean ====
import proofs.«416335_j89953795048031_3_alg».proof.Proof.BShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S1024x512 .i32) (harg8 : arg8.IsWhole) (arg9 : Memref sig .tc .vmem S512x1024 .i32) (harg9 : arg9.IsWhole) (arg10 : Memref sig .tc .vmem S1x64 .f32) (harg10 : arg10.IsWhole) (arg11 : Memref sig .tc .vmem S1x64 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x1 .f32) (harg15 : arg15.IsWhole) (arg16 : Memref sig .tc .vmem S1024x128 .f32) (harg16 : arg16.IsWhole) (hc0 : condFirst i) (hc1 : ¬condLast i)
    (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32) :
    Σ' (LS0 : List (View.Piece (Elt F) S1024x1 .f32)) (LS1 : List (View.Piece (Elt F) S1024x128 .f32)) (LS2 : List (View.Piece (Elt F) S1024x1 .f32)), { LS3 : List (View.Piece (Elt F) S1024x128 .f32) //
      ∀ (xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)
                ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun xi10 E K => ?run⟩
  case run =>
    simp only [cc0__gat_kernel_eq_skeleton]; unfold cc0__gat_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    iexists _; iexact HS3

end Cert.Kernel.Hand

end
-- ==== Proof.BRunB.lean ====
import proofs.«416335_j89953795048031_3_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S1024x512 .i32) (harg8 : arg8.IsWhole) (arg9 : Memref sig .tc .vmem S512x1024 .i32) (harg9 : arg9.IsWhole) (arg10 : Memref sig .tc .vmem S1x64 .f32) (harg10 : arg10.IsWhole) (arg11 : Memref sig .tc .vmem S1x64 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x1 .f32) (harg15 : arg15.IsWhole) (arg16 : Memref sig .tc .vmem S1024x128 .f32) (harg16 : arg16.IsWhole) (hc0 : ¬condFirst i) (hc1 : ¬condLast i)
    (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32)
    (xs0 : Vec F S1024x1 .f32) (xs1 : Vec F S1024x128 .f32) (xs2 : Vec F S1024x1 .f32) (xs3 : Vec F S1024x128 .f32) :
    Σ' (LS0 : List (View.Piece (Elt F) S1024x1 .f32)) (LS1 : List (View.Piece (Elt F) S1024x128 .f32)) (LS2 : List (View.Piece (Elt F) S1024x1 .f32)), { LS3 : List (View.Piece (Elt F) S1024x128 .f32) //
      ∀ (xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xi10 ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)
                ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun xi10 E K => ?run⟩
  case run =>
    simp only [cc0__gat_kernel_eq_skeleton]; unfold cc0__gat_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg12.eq_unread hf10; obtain rfl := harg13.eq_unread hfs0
    obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    iexists _; iexact HS3

end Cert.Kernel.Hand

end
-- ==== Proof.BRunC.lean ====
import proofs.«416335_j89953795048031_3_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S1024x512 .i32) (harg8 : arg8.IsWhole) (arg9 : Memref sig .tc .vmem S512x1024 .i32) (harg9 : arg9.IsWhole) (arg10 : Memref sig .tc .vmem S1x64 .f32) (harg10 : arg10.IsWhole) (arg11 : Memref sig .tc .vmem S1x64 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x1 .f32) (harg15 : arg15.IsWhole) (arg16 : Memref sig .tc .vmem S1024x128 .f32) (harg16 : arg16.IsWhole) (hc0 : ¬condFirst i) (hc1 : condLast i)
    (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32)
    (xs0 : Vec F S1024x1 .f32) (xs1 : Vec F S1024x128 .f32) (xs2 : Vec F S1024x1 .f32) (xs3 : Vec F S1024x128 .f32) :
    Σ' (L10 : List (View.Piece (Elt F) S1024x128 .f32)) (LS0 : List (View.Piece (Elt F) S1024x1 .f32)) (LS1 : List (View.Piece (Elt F) S1024x128 .f32)) (LS2 : List (View.Piece (Elt F) S1024x1 .f32)), { LS3 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)
                ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__gat_kernel_eq_skeleton]; unfold cc0__gat_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg13.eq_unread hfs0; obtain rfl := harg14.eq_unread hfs1
    obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    isplitl [HS2]; · iexists _; iexact HS2
    iexists _; iexact HS3

end Cert.Kernel.Hand

end
-- ==== Proof.BCases.lean ====
import proofs.«416335_j89953795048031_3_alg».proof.Proof.BRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev St (F : FTy → Type) [FloatOps F] : Type := Vec F S1024x1 .f32 × Vec F S1024x128 .f32 × Vec F S1024x1 .f32 × Vec F S1024x128 .f32

/-- The body's arguments at a grid point: the point's coordinates and fifteen memory references, each addressed whole. -/
structure Bufs where
  i : grid0.Coords
  a2 : Memref sig .tc .vmem S1024x1 .f32
  h2 : a2.IsWhole
  a3 : Memref sig .tc .vmem S1024x1 .f32
  h3 : a3.IsWhole
  a4 : Memref sig .tc .vmem S1x8192 .f32
  h4 : a4.IsWhole
  a5 : Memref sig .tc .vmem S1x8192 .f32
  h5 : a5.IsWhole
  a6 : Memref sig .tc .vmem S8192x128 .bf16
  h6 : a6.IsWhole
  a7 : Memref sig .tc .vmem S8192x128 .bf16
  h7 : a7.IsWhole
  a8 : Memref sig .tc .vmem S1024x512 .i32
  h8 : a8.IsWhole
  a9 : Memref sig .tc .vmem S512x1024 .i32
  h9 : a9.IsWhole
  a10 : Memref sig .tc .vmem S1x64 .f32
  h10 : a10.IsWhole
  a11 : Memref sig .tc .vmem S1x64 .f32
  h11 : a11.IsWhole
  a12 : Memref sig .tc .vmem S1024x128 .f32
  h12 : a12.IsWhole
  a13 : Memref sig .tc .vmem S1024x1 .f32
  h13 : a13.IsWhole
  a14 : Memref sig .tc .vmem S1024x128 .f32
  h14 : a14.IsWhole
  a15 : Memref sig .tc .vmem S1024x1 .f32
  h15 : a15.IsWhole
  a16 : Memref sig .tc .vmem S1024x128 .f32
  h16 : a16.IsWhole

variable (c : Dev nD) (b : Bufs)

section

variable (hc0 : condFirst b.i) (hc1 : ¬condLast b.i) (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32)

abbrev runA := kernelRun_A (F := F) c b.i b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 hc0 hc1 x0 x1 x2 x3 x4 x5 x6 x7 x8 x9

theorem scoverA0 :
    ∀ y : S1024x1.Idx, ∃ pc ∈ (runA c b hc0 hc1 x0 x1 x2 x3 x4 x5 x6 x7 x8 x9).1, y ∈ pc.1.set :=
  View.cover_of_tiledL _ S1024x1.size (by sl_kernel_rfl)

theorem scoverA1 :
    ∀ y : S1024x128.Idx, ∃ pc ∈ (runA c b hc0 hc1 x0 x1 x2 x3 x4 x5 x6 x7 x8 x9).2.1, y ∈ pc.1.set :=
  View.cover_of_tiledL _ S1024x128.size (by sl_kernel_rfl)

theorem scoverA2 :
    ∀ y : S1024x1.Idx, ∃ pc ∈ (runA c b hc0 hc1 x0 x1 x2 x3 x4 x5 x6 x7 x8 x9).2.2.1, y ∈ pc.1.set :=
  View.cover_of_tiledL _ S1024x1.size (by sl_kernel_rfl)

theorem scoverA3 :
    ∀ y : S1024x128.Idx, ∃ pc ∈ (runA c b hc0 hc1 x0 x1 x2 x3 x4 x5 x6 x7 x8 x9).2.2.2.1, y ∈ pc.1.set :=
  View.cover_of_tiledL _ S1024x128.size (by sl_kernel_rfl)

def soutA : St F :=
  (VS0.read (Elt F) (VS0.writes (Elt F) VS0.junk (runA c b hc0 hc1 x0 x1 x2 x3 x4 x5 x6 x7 x8 x9).1),
   VS1.read (Elt F) (VS1.writes (Elt F) VS1.junk (runA c b hc0 hc1 x0 x1 x2 x3 x4 x5 x6 x7 x8 x9).2.1),
   VS2.read (Elt F) (VS2.writes (Elt F) VS2.junk (runA c b hc0 hc1 x0 x1 x2 x3 x4 x5 x6 x7 x8 x9).2.2.1),
   VS3.read (Elt F) (VS3.writes (Elt F) VS3.junk (runA c b hc0 hc1 x0 x1 x2 x3 x4 x5 x6 x7 x8 x9).2.2.2.1))

end

section

variable (hc0 : ¬condFirst b.i) (hc1 : ¬condLast b.i) (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32) (xs0 : Vec F S1024x1 .f32) (xs1 : Vec F S1024x128 .f32) (xs2 : Vec F S1024x1 .f32) (xs3 : Vec F S1024x128 .f32)

abbrev runB := kernelRun_B (F := F) c b.i b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 hc0 hc1 x0 x1 x2 x3 x4 x5 x6 x7 x8 x9 xs0 xs1 xs2 xs3

theorem scoverB0 :
    ∀ y : S1024x1.Idx, ∃ pc ∈ (runB c b hc0 hc1 x0 x1 x2 x3 x4 x5 x6 x7 x8 x9 xs0 xs1 xs2 xs3).1, y ∈ pc.1.set :=
  View.cover_of_tiledL _ S1024x1.size (by sl_kernel_rfl)

theorem scoverB1 :
    ∀ y : S1024x128.Idx, ∃ pc ∈ (runB c b hc0 hc1 x0 x1 x2 x3 x4 x5 x6 x7 x8 x9 xs0 xs1 xs2 xs3).2.1, y ∈ pc.1.set :=
  View.cover_of_tiledL _ S1024x128.size (by sl_kernel_rfl)

theorem scoverB2 :
    ∀ y : S1024x1.Idx, ∃ pc ∈ (runB c b hc0 hc1 x0 x1 x2 x3 x4 x5 x6 x7 x8 x9 xs0 xs1 xs2 xs3).2.2.1, y ∈ pc.1.set :=
  View.cover_of_tiledL _ S1024x1.size (by sl_kernel_rfl)

theorem scoverB3 :
    ∀ y : S1024x128.Idx, ∃ pc ∈ (runB c b hc0 hc1 x0 x1 x2 x3 x4 x5 x6 x7 x8 x9 xs0 xs1 xs2 xs3).2.2.2.1, y ∈ pc.1.set :=
  View.cover_of_tiledL _ S1024x128.size (by sl_kernel_rfl)

def soutB : St F :=
  (VS0.read (Elt F) (VS0.writes (Elt F) VS0.junk (runB c b hc0 hc1 x0 x1 x2 x3 x4 x5 x6 x7 x8 x9 xs0 xs1 xs2 xs3).1),
   VS1.read (Elt F) (VS1.writes (Elt F) VS1.junk (runB c b hc0 hc1 x0 x1 x2 x3 x4 x5 x6 x7 x8 x9 xs0 xs1 xs2 xs3).2.1),
   VS2.read (Elt F) (VS2.writes (Elt F) VS2.junk (runB c b hc0 hc1 x0 x1 x2 x3 x4 x5 x6 x7 x8 x9 xs0 xs1 xs2 xs3).2.2.1),
   VS3.read (Elt F) (VS3.writes (Elt F) VS3.junk (runB c b hc0 hc1 x0 x1 x2 x3 x4 x5 x6 x7 x8 x9 xs0 xs1 xs2 xs3).2.2.2.1))

end

section

variable (hc0 : ¬condFirst b.i) (hc1 : condLast b.i) (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32) (xs0 : Vec F S1024x1 .f32) (xs1 : Vec F S1024x128 .f32) (xs2 : Vec F S1024x1 .f32) (xs3 : Vec F S1024x128 .f32)

abbrev runC := kernelRun_C (F := F) c b.i b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 hc0 hc1 x0 x1 x2 x3 x4 x5 x6 x7 x8 x9 xs0 xs1 xs2 xs3

theorem scoverC0 :
    ∀ y : S1024x1.Idx, ∃ pc ∈ (runC c b hc0 hc1 x0 x1 x2 x3 x4 x5 x6 x7 x8 x9 xs0 xs1 xs2 xs3).2.1, y ∈ pc.1.set :=
  View.cover_of_tiledL _ S1024x1.size (by sl_kernel_rfl)

theorem scoverC1 :
    ∀ y : S1024x128.Idx, ∃ pc ∈ (runC c b hc0 hc1 x0 x1 x2 x3 x4 x5 x6 x7 x8 x9 xs0 xs1 xs2 xs3).2.2.1, y ∈ pc.1.set :=
  View.cover_of_tiledL _ S1024x128.size (by sl_kernel_rfl)

theorem scoverC2 :
    ∀ y : S1024x1.Idx, ∃ pc ∈ (runC c b hc0 hc1 x0 x1 x2 x3 x4 x5 x6 x7 x8 x9 xs0 xs1 xs2 xs3).2.2.2.1, y ∈ pc.1.set :=
  View.cover_of_tiledL _ S1024x1.size (by sl_kernel_rfl)

theorem scoverC3 :
    ∀ y : S1024x128.Idx, ∃ pc ∈ (runC c b hc0 hc1 x0 x1 x2 x3 x4 x5 x6 x7 x8 x9 xs0 xs1 xs2 xs3).2.2.2.2.1, y ∈ pc.1.set :=
  View.cover_of_tiledL _ S1024x128.size (by sl_kernel_rfl)

def soutC : St F :=
  (VS0.read (Elt F) (VS0.writes (Elt F) VS0.junk (runC c b hc0 hc1 x0 x1 x2 x3 x4 x5 x6 x7 x8 x9 xs0 xs1 xs2 xs3).2.1),
   VS1.read (Elt F) (VS1.writes (Elt F) VS1.junk (runC c b hc0 hc1 x0 x1 x2 x3 x4 x5 x6 x7 x8 x9 xs0 xs1 xs2 xs3).2.2.1),
   VS2.read (Elt F) (VS2.writes (Elt F) VS2.junk (runC c b hc0 hc1 x0 x1 x2 x3 x4 x5 x6 x7 x8 x9 xs0 xs1 xs2 xs3).2.2.2.1),
   VS3.read (Elt F) (VS3.writes (Elt F) VS3.junk (runC c b hc0 hc1 x0 x1 x2 x3 x4 x5 x6 x7 x8 x9 xs0 xs1 xs2 xs3).2.2.2.2.1))

theorem coverC :
    ∀ y : S1024x128.Idx, ∃ pc ∈ (runC c b hc0 hc1 x0 x1 x2 x3 x4 x5 x6 x7 x8 x9 xs0 xs1 xs2 xs3).1, y ∈ pc.1.set :=
  View.cover_of_tiledL (runC c b hc0 hc1 x0 x1 x2 x3 x4 x5 x6 x7 x8 x9 xs0 xs1 xs2 xs3).1 S1024x64.size (by sl_kernel_rfl)

def outC : Vec F S1024x128 .f32 :=
  VO.read (Elt F) (VO.writes (Elt F) VO.junk (runC c b hc0 hc1 x0 x1 x2 x3 x4 x5 x6 x7 x8 x9 xs0 xs1 xs2 xs3).1)

end

end Cert.Kernel.Hand

end
-- ==== Proof.BData.lean ====
import proofs.«416335_j89953795048031_3_alg».proof.Proof.BCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The body's arguments at point `t`. -/
abbrev bufsAt (t : Fin cfg0.N) : Bufs :=
  ⟨grid0.coords t, ms0 t, hs0 t, ms1 t, hs1 t, ms2 t, hs2 t, ms3 t, hs3 t, ms4 t, hs4 t, ms5 t, hs5 t, ms6 t, hs6 t, ms7 t, hs7 t, ms8 t, hs8 t, ms9 t, hs9 t, ms10 t, hs10 t,
    scM0, Memref.isWhole_whole _, scM1, Memref.isWhole_whole _, scM2, Memref.isWhole_whole _, scM3, Memref.isWhole_whole _⟩

def stAt (c : Dev nD) : (n : ℕ) → n < cfg0.N → St F
  | 0, hn => soutA c (bufsAt ⟨0, hn⟩) ((hcondFirst ⟨0, hn⟩).mpr (Nat.zero_mod 16)) (fun h => (by decide : ¬ (0 % 16 = 15)) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn =>
    if h0 : (n + 1) % 16 = 0 then
      if h1 : (n + 1) % 16 = 15 then False.elim (by omega)
      else soutA c (bufsAt ⟨n + 1, hn⟩) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
    else
      if h1 : (n + 1) % 16 = 15 then
        soutC c (bufsAt ⟨n + 1, hn⟩) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (stAt c n (Nat.lt_of_succ_lt hn)).1 (stAt c n (Nat.lt_of_succ_lt hn)).2.1 (stAt c n (Nat.lt_of_succ_lt hn)).2.2.1 (stAt c n (Nat.lt_of_succ_lt hn)).2.2.2
      else
        soutB c (bufsAt ⟨n + 1, hn⟩) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (stAt c n (Nat.lt_of_succ_lt hn)).1 (stAt c n (Nat.lt_of_succ_lt hn)).2.1 (stAt c n (Nat.lt_of_succ_lt hn)).2.2.1 (stAt c n (Nat.lt_of_succ_lt hn)).2.2.2

def outAt (c : Dev nD) : (n : ℕ) → n < cfg0.N → Vec F S1024x128 .f32
  | 0, _ => VO.read (Elt F) VO.junk
  | n + 1, hn =>
    if h1 : (n + 1) % 16 = 15 then
      if h0 : (n + 1) % 16 = 0 then False.elim (by omega)
      else outC c (bufsAt ⟨n + 1, hn⟩) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (stAt m c n (Nat.lt_of_succ_lt hn)).1 (stAt m c n (Nat.lt_of_succ_lt hn)).2.1 (stAt m c n (Nat.lt_of_succ_lt hn)).2.2.1 (stAt m c n (Nat.lt_of_succ_lt hn)).2.2.2
    else VO.read (Elt F) VO.junk

theorem stAt_A (c : Dev nD) (t : Fin cfg0.N) (h0 : t.val % 16 = 0) (h1 : ¬t.val % 16 = 15) :
    stAt m c t.val t.isLt = soutA c (bufsAt t) ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t) := by
  obtain ⟨n, hn⟩ := t
  cases n with
  | zero => exact rfl
  | succ n => exact (dif_pos h0).trans ((dif_neg h1).trans rfl)

theorem stAt_B (c : Dev nD) (t : Fin cfg0.N) (h0 : ¬t.val % 16 = 0) (h1 : ¬t.val % 16 = 15) :
    stAt m c t.val t.isLt = soutB c (bufsAt t) (fun h => h0 ((hcondFirst t).mp h)) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t) (stAt m c (t.val - 1) (Nat.lt_of_le_of_lt (Nat.sub_le _ _) t.isLt)).1 (stAt m c (t.val - 1) (Nat.lt_of_le_of_lt (Nat.sub_le _ _) t.isLt)).2.1 (stAt m c (t.val - 1) (Nat.lt_of_le_of_lt (Nat.sub_le _ _) t.isLt)).2.2.1 (stAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem stAt_C (c : Dev nD) (t : Fin cfg0.N) (h0 : ¬t.val % 16 = 0) (h1 : t.val % 16 = 15) :
    stAt m c t.val t.isLt = soutC c (bufsAt t) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (iblk m c 8 t) (iblk m c 9 t) (stAt m c (t.val - 1) (Nat.lt_of_le_of_lt (Nat.sub_le _ _) t.isLt)).1 (stAt m c (t.val - 1) (Nat.lt_of_le_of_lt (Nat.sub_le _ _) t.isLt)).2.1 (stAt m c (t.val - 1) (Nat.lt_of_le_of_lt (Nat.sub_le _ _) t.isLt)).2.2.1 (stAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

theorem outAt_C (c : Dev nD) (t : Fin cfg0.N) (h0 : ¬t.val % 16 = 0) (h1 : t.val % 16 = 15) :
    outAt m c t.val t.isLt = outC c (bufsAt t) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (iblk m c 8 t) (iblk m c 9 t) (stAt m c (t.val - 1) (Nat.lt_of_le_of_lt (Nat.sub_le _ _) t.isLt)).1 (stAt m c (t.val - 1) (Nat.lt_of_le_of_lt (Nat.sub_le _ _) t.isLt)).2.1 (stAt m c (t.val - 1) (Nat.lt_of_le_of_lt (Nat.sub_le _ _) t.isLt)).2.2.1 (stAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_pos h1).trans ((dif_neg h0).trans rfl)

def PhiS (c : Dev nD) : (n : ℕ) → n ≤ cfg0.N → sProp 𝕄
  | 0, _ => Pipeline.ΦA spec0 c
  | n + 1, hn => iprop(iprop(owns (c : Thread nD τ) scM0 fullShare (stAt m c n hn).1 ∗ owns (c : Thread nD τ) scM1 fullShare (stAt m c n hn).2.1
      ∗ owns (c : Thread nD τ) scM2 fullShare (stAt m c n hn).2.2.1 ∗ owns (c : Thread nD τ) scM3 fullShare (stAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (stAt m c n hn).1 ∗ owns (c : Thread nD τ) scM1 fullShare (stAt m c n hn).2.1
      ∗ owns (c : Thread nD τ) scM2 fullShare (stAt m c n hn).2.2.1 ∗ owns (c : Thread nD τ) scM3 fullShare (stAt m c n hn).2.2.2) ∗ (∃ r, prngReg c r)) := rfl

theorem PhiS_pos (c : Dev nD) (n : ℕ) (h : n ≤ cfg0.N) (hz : n ≠ 0) :
    PhiS m c n h = iprop(iprop(owns (c : Thread nD τ) scM0 fullShare (stAt m c (n - 1) (by omega)).1 ∗ owns (c : Thread nD τ) scM1 fullShare (stAt m c (n - 1) (by omega)).2.1
      ∗ owns (c : Thread nD τ) scM2 fullShare (stAt m c (n - 1) (by omega)).2.2.1 ∗ owns (c : Thread nD τ) scM3 fullShare (stAt m c (n - 1) (by omega)).2.2.2) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t.val t.isLt
  Φ t := PhiS m c t.val (Nat.le_of_lt_succ t.isLt)
  q w := if w = 6 then fullShare.left else if w = 7 then fullShare.right else fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t.val t.isLt := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (bufsAt t).a2 fullShare ((dats m 0 c).before 0 t d))
    ∗ (∃ d, owns (c : Thread nD τ) (bufsAt t).a3 fullShare ((dats m 0 c).before 1 t d))
    ∗ (∃ d, owns (c : Thread nD τ) (bufsAt t).a4 fullShare ((dats m 0 c).before 2 t d))
    ∗ (∃ d, owns (c : Thread nD τ) (bufsAt t).a5 fullShare ((dats m 0 c).before 3 t d))
    ∗ (∃ d, owns (c : Thread nD τ) (bufsAt t).a6 fullShare ((dats m 0 c).before 4 t d))
    ∗ (∃ d, owns (c : Thread nD τ) (bufsAt t).a7 fullShare ((dats m 0 c).before 5 t d))
    ∗ (∃ d, owns (c : Thread nD τ) (bufsAt t).a8 fullShare ((dats m 0 c).before 6 t d))
    ∗ (∃ d, owns (c : Thread nD τ) (bufsAt t).a9 fullShare ((dats m 0 c).before 7 t d))
    ∗ (∃ d, owns (c : Thread nD τ) (bufsAt t).a10 fullShare ((dats m 0 c).before 8 t d))
    ∗ (∃ d, owns (c : Thread nD τ) (bufsAt t).a11 fullShare ((dats m 0 c).before 9 t d))
    ∗ (∃ d, owns (c : Thread nD τ) (bufsAt t).a12 fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- Before the first point the invariant is the scratch at anything; after it `Phi_out` forgets the names. -/
theorem Phi_any (c : Dev nD) (t : Fin (cfg0.N + 1)) :
    (dats m 0 c).Φ t ⊢ iprop(iprop((∃ d, owns (c : Thread nD τ) scM0 fullShare d) ∗ (∃ d, owns (c : Thread nD τ) scM1 fullShare d)
      ∗ (∃ d, owns (c : Thread nD τ) scM2 fullShare d) ∗ (∃ d, owns (c : Thread nD τ) scM3 fullShare d)) ∗ (∃ r, prngReg c r)) := by
  have h : (dats m 0 c).Φ t ⊢ Pipeline.ΦA spec0 c := by
    by_cases ht : t.val = 0
    · rw [show (dats m 0 c).Φ t = PhiS m c t.val (Nat.le_of_lt_succ t.isLt) from rfl, PhiS_zero m c _ _ ht]
    · exact Phi_out m c t ht
  rw [PhiA_eq] at h
  exact h

/-- Stores that cover a buffer decide what it reads back, whatever it held before. -/
theorem owns_written (c : Dev nD) {S : Shape} {e : EltTy} (M : Memref sig .tc .vmem S e) (f : M.view.ty.Contents (Elt F))
    (v' : View sig .tc .vmem S e) (L : List (View.Piece (Elt F) S e)) (h : ∀ y, ∃ p ∈ L, y ∈ p.1.set) :
    (M.view.loc (c : Thread nD τ) ↦[M.view.set]{fullShare} M.view.writes (Elt F) f L : sProp 𝕄)
      ⊢ owns (c : Thread nD τ) M fullShare (v'.read (Elt F) (v'.writes (Elt F) v'.junk L)) := by
  unfold owns
  iintro H
  iexists _; isplitr
  swap; · iexact H
  ipureintro; exact View.read_writes_of_cover _ _ _ _ _ h

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (bufsAt t).a2 fullShare ((dats m 0 c).after 0 t) from by
    unfold Dat.leavesExact; rw [liveAt_in 0 (by decide) t], after_0]
  rw [show (dats m 0 c).leavesExact 1 t = owns (c : Thread nD τ) (bufsAt t).a3 fullShare ((dats m 0 c).after 1 t) from by
    unfold Dat.leavesExact; rw [liveAt_in 1 (by decide) t], after_1]
  rw [show (dats m 0 c).leavesExact 2 t = owns (c : Thread nD τ) (bufsAt t).a4 fullShare ((dats m 0 c).after 2 t) from by
    unfold Dat.leavesExact; rw [liveAt_in 2 (by decide) t], after_2]
  rw [show (dats m 0 c).leavesExact 3 t = owns (c : Thread nD τ) (bufsAt t).a5 fullShare ((dats m 0 c).after 3 t) from by
    unfold Dat.leavesExact; rw [liveAt_in 3 (by decide) t], after_3]
  rw [show (dats m 0 c).leavesExact 4 t = owns (c : Thread nD τ) (bufsAt t).a6 fullShare ((dats m 0 c).after 4 t) from by
    unfold Dat.leavesExact; rw [liveAt_in 4 (by decide) t], after_4]
  rw [show (dats m 0 c).leavesExact 5 t = owns (c : Thread nD τ) (bufsAt t).a7 fullShare ((dats m 0 c).after 5 t) from by
    unfold Dat.leavesExact; rw [liveAt_in 5 (by decide) t], after_5]
  rw [show (dats m 0 c).leavesExact 6 t = owns (c : Thread nD τ) (bufsAt t).a8 fullShare ((dats m 0 c).after 6 t) from by
    unfold Dat.leavesExact; rw [liveAt_in 6 (by decide) t], after_6]
  rw [show (dats m 0 c).leavesExact 7 t = owns (c : Thread nD τ) (bufsAt t).a9 fullShare ((dats m 0 c).after 7 t) from by
    unfold Dat.leavesExact; rw [liveAt_in 7 (by decide) t], after_7]
  rw [show (dats m 0 c).leavesExact 8 t = owns (c : Thread nD τ) (bufsAt t).a10 fullShare ((dats m 0 c).after 8 t) from by
    unfold Dat.leavesExact; rw [liveAt_in 8 (by decide) t], after_8]
  rw [show (dats m 0 c).leavesExact 9 t = owns (c : Thread nD τ) (bufsAt t).a11 fullShare ((dats m 0 c).after 9 t) from by
    unfold Dat.leavesExact; rw [liveAt_in 9 (by decide) t], after_9]
  by_cases h0 : t.val % 16 = 0
  · have h1 : ¬t.val % 16 = 15 := by omega
    rw [Dat.leavesExact_idle (dats m 0 c) 10 t (idleAt_out t (fun h => h1 ((hcondLast t).mp h))) (noFlush_out t (fun h => h1 ((hcondLast t).mp h)))]
    rw [stAt_A m c t h0 h1]
    unfold soutA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HΦ' := (Phi_any m c t.castSucc) $$ HΦ
    icases HΦ' with ⟨⟨HS0, HS1, HS2, HS3⟩, Hg⟩
    iapply ((runA (F := F) c (bufsAt t) ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]; · iapply (owns_written c _ _ _ _ (scoverA0 c _ _ _ _ _ _ _ _ _ _ _ _ _)); iexact HS0
        isplitl [HS1]; · iapply (owns_written c _ _ _ _ (scoverA1 c _ _ _ _ _ _ _ _ _ _ _ _ _)); iexact HS1
        isplitl [HS2]; · iapply (owns_written c _ _ _ _ (scoverA2 c _ _ _ _ _ _ _ _ _ _ _ _ _)); iexact HS2
        iapply (owns_written c _ _ _ _ (scoverA3 c _ _ _ _ _ _ _ _ _ _ _ _ _)); iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hz : t.val ≠ 0 := fun e => h0 (by rw [e])
    rw [PhiS_castSucc m c t, PhiS_pos m c _ _ hz]
    by_cases h1 : t.val % 16 = 15
    · rw [show (dats m 0 c).leavesExact 10 t = owns (c : Thread nD τ) (bufsAt t).a12 fullShare ((dats m 0 c).after 10 t) from by
        unfold Dat.leavesExact; rw [liveAt_out t ((hcondLast t).mpr h1)], after_10]
      rw [outAt_C m c t h0 h1, stAt_C m c t h0 h1]
      unfold outC soutC; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC (F := F) c (bufsAt t) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (iblk m c 8 t) (iblk m c 9 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]; · iapply (owns_written c _ _ _ _ (scoverC0 c _ _ _ _ _ _ _ _ _ _ _ _ _ _ _ _ _)); iexact HS0
          isplitl [HS1]; · iapply (owns_written c _ _ _ _ (scoverC1 c _ _ _ _ _ _ _ _ _ _ _ _ _ _ _ _ _)); iexact HS1
          isplitl [HS2]; · iapply (owns_written c _ _ _ _ (scoverC2 c _ _ _ _ _ _ _ _ _ _ _ _ _ _ _ _ _)); iexact HS2
          iapply (owns_written c _ _ _ _ (scoverC3 c _ _ _ _ _ _ _ _ _ _ _ _ _ _ _ _ _)); iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iapply (owns_written c _ _ _ _ (coverC c _ _ _ _ _ _ _ _ _ _ _ _ _ _ _ _ _)); iexact H10
    · rw [Dat.leavesExact_idle (dats m 0 c) 10 t (idleAt_out t (fun h => h1 ((hcondLast t).mp h))) (noFlush_out t (fun h => h1 ((hcondLast t).mp h)))]
      rw [stAt_B m c t h0 h1]
      unfold soutB; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB (F := F) c (bufsAt t) (fun h => h0 ((hcondFirst t).mp h)) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t) _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]; · iapply (owns_written c _ _ _ _ (scoverB0 c _ _ _ _ _ _ _ _ _ _ _ _ _ _ _ _ _)); iexact HS0
          isplitl [HS1]; · iapply (owns_written c _ _ _ _ (scoverB1 c _ _ _ _ _ _ _ _ _ _ _ _ _ _ _ _ _)); iexact HS1
          isplitl [HS2]; · iapply (owns_written c _ _ _ _ (scoverB2 c _ _ _ _ _ _ _ _ _ _ _ _ _ _ _ _ _)); iexact HS2
          iapply (owns_written c _ _ _ _ (scoverB3 c _ _ _ _ _ _ _ _ _ _ _ _ _ _ _ _ _)); iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.BFrame.lean ====
import proofs.«416335_j89953795048031_3_alg».proof.Proof.BLaunch
import proofs.«416335_j89953795048031_3_alg».proof.Proof.BData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

theorem dats_q (c : Dev nD) (w : Fin cfg0.W) : (dats m 0 c).q w = qW w := by
  dsimp only [dats, qW]

theorem run_main : θ_run (defs (F := F)) (onTc (τ := τ) (main (F := F))) ⟨m, fun _ => 0, ρ⟩ (fun r => ∀ c : Dev nD, ∀ b : DevRef τ sig,
    b ∈ Pipeline.ucRefs τ sig → r.2.mem (c, b) = StableHlo.after hostOps1 (Wout m (dats m) c) b) :=
  run_of m ρ (dats m) (A_eq m) (dats_q m) (fun _ _ => rfl) (fun c => (body_obligation m c).loose) (hin m) (hout m)

theorem not_written0 (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11 ∧ b ≠ main_cst ∧ b ≠ main_v12 ∧ b ≠ main_cst_0 ∧ b ≠ main_v13 ∧ b ≠ main_v14 ∧ b ≠ main_v15 ∧ b ≠ main_v16 ∧ b ≠ main_v17) :
    ∀ op ∈ (hostOps0 (F := F)), Proc.devRef .tc b ∉ op.writes := by
  obtain ⟨h0, h1, h2, h3, h4, h5, h6, h7, h8, h9, h10, h11, h12, h13, h14, h15, h16, h17, h18, h19⟩ := hb
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, StableHlo.nary_writes, Finset.mem_singleton] <;>
    exact StableHlo.devRef_ne_of_ne ‹_›

theorem not_written1 (b : Ref sig .tc) (hb : b ≠ main_v19 ∧ b ≠ main_v20) :
    ∀ op ∈ (hostOps1 (F := F)), Proc.devRef .tc b ∉ op.writes := by
  obtain ⟨h0, h1⟩ := hb
  intro op hop
  simp only [List.mem_cons, List.mem_nil_iff, or_false] at hop
  rcases hop with rfl | rfl <;>
    simp only [StableHlo.unary_writes, Finset.mem_singleton] <;>
    exact StableHlo.devRef_ne_of_ne ‹_›

theorem final_of_untouched (c : Dev nD) (b : Ref sig .tc) (h1 : b ≠ main_v19 ∧ b ≠ main_v20) (h18 : b ≠ main_v18)
    (h0 : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11 ∧ b ≠ main_cst ∧ b ≠ main_v12 ∧ b ≠ main_cst_0 ∧ b ≠ main_v13 ∧ b ≠ main_v14 ∧ b ≠ main_v15 ∧ b ≠ main_v16 ∧ b ≠ main_v17) :
    StableHlo.after hostOps1 (Wout m (dats m) c) (Proc.devRef .tc b) = m ((c : Thread nD τ).loc b) := by
  rw [StableHlo.after_of_forall_not_mem (b := Proc.devRef .tc b) hostOps1 (Wout m (dats m) c) (not_written1 b h1)]
  unfold Wout
  rw [Function.update_of_ne (StableHlo.devRef_ne_of_ne h18)]
  exact StableHlo.after_of_forall_not_mem (b := Proc.devRef .tc b) hostOps0 (V₀ m c) (not_written0 b h0)

theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono (fun r h c =>
    ⟨(h c (Proc.devRef .tc main_arg0) (by decide)).trans (final_of_untouched m c main_arg0 (by decide) (by decide) (by decide)),
     (h c (Proc.devRef .tc main_arg1) (by decide)).trans (final_of_untouched m c main_arg1 (by decide) (by decide) (by decide)),
     (h c (Proc.devRef .tc main_arg2) (by decide)).trans (final_of_untouched m c main_arg2 (by decide) (by decide) (by decide)),
     (h c (Proc.devRef .tc main_arg3) (by decide)).trans (final_of_untouched m c main_arg3 (by decide) (by decide) (by decide)),
     (h c (Proc.devRef .tc main_arg4) (by decide)).trans (final_of_untouched m c main_arg4 (by decide) (by decide) (by decide)),
     (h c (Proc.devRef .tc main_arg5) (by decide)).trans (final_of_untouched m c main_arg5 (by decide) (by decide) (by decide)),
     (h c (Proc.devRef .tc main_arg6) (by decide)).trans (final_of_untouched m c main_arg6 (by decide) (by decide) (by decide)),
     (h c (Proc.devRef .tc main_arg7) (by decide)).trans (final_of_untouched m c main_arg7 (by decide) (by decide) (by decide))⟩) (run_main m ρ)

theorem final_v19 (c : Dev nD) :
    (StableHlo.after hostOps1 (Wout m (dats m) c) (Proc.devRef .tc main_v19) : S8192x64.Idx → Elt F .f32)
      = extractStridedSlice S8192x64 ![0, 0] ((dats m 0 c).arrAt 10 cfg0.N) slices_S8192x128_S8192x64_0_0 := by
  dsimp only [hostOps1]
  after_results
  unfold Wout
  rw [Function.update_self]

theorem final_v20 (c : Dev nD) :
    (StableHlo.after hostOps1 (Wout m (dats m) c) (Proc.devRef .tc main_v20) : S8192x64.Idx → Elt F .f32)
      = extractStridedSlice S8192x64 ![0, 64] ((dats m 0 c).arrAt 10 cfg0.N) slices_S8192x128_S8192x64_0_64 := by
  dsimp only [hostOps1]
  after_results
  unfold Wout
  rw [Function.update_self]

end Cert.Kernel.Hand

end
-- ==== Proof.KShared.lean ====
import proofs.«416335_j89953795048031_3_alg».proof.Proof.Gen.KernelIdeal.Launch
import proofs.«416335_j89953795048031_3_alg».proof.Proof.Gen.KernelIdeal.Skeleton
import proofs.«416335_j89953795048031_3_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev V₀ (c : Dev nD) : Valuation τ sig (Elt F) := fun b => m (c, b)

abbrev Vv (c : Dev nD) : Valuation τ sig (Elt F) := StableHlo.after hostOps0 (V₀ m c)
abbrev V (c : Dev nD) (b : Ref sig .tc) : Buf (Elt F) ((c : Thread nD τ).loc b) := Vv m c (Proc.devRef .tc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

theorem liveAt_in : ∀ (w : Fin 11), w.val < 10 → ∀ t : Fin cfg0.N, cfg0.idle w (grid0.coords t) = false := by decide +kernel
theorem idleAt_out : ∀ t : Fin cfg0.N, ¬condLast (grid0.coords t) → cfg0.idle 10 (grid0.coords t) = true := by decide +kernel
theorem noFlush_out : ∀ t : Fin cfg0.N, ¬condLast (grid0.coords t) → (cfg0.win 10).flush t = false := by decide +kernel
theorem liveAt_out : ∀ t : Fin cfg0.N, condLast (grid0.coords t) → cfg0.idle 10 (grid0.coords t) = false := by decide +kernel
abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8192x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S8192x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .i32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1024 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x128 .f32 := win0_10.stage (cfg0.slots t 10)
abbrev hs10 (t : Fin cfg0.N) : (ms10 t).IsWhole := hstage0_10 ((cfg0.slots t 10).cast nbuf0_10)
abbrev scM0 : Memref sig .tc .vmem S1024x1 .f32 := Memref.whole cc0_scratch0
abbrev scM1 : Memref sig .tc .vmem S1024x128 .f32 := Memref.whole cc0_scratch1
abbrev scM2 : Memref sig .tc .vmem S1024x1 .f32 := Memref.whole cc0_scratch2
abbrev scM3 : Memref sig .tc .vmem S1024x128 .f32 := Memref.whole cc0_scratch3
abbrev VO : View sig .tc .vmem S1024x128 .f32 := (Memref.whole cc0_stg10_0 : Memref sig .tc .vmem S1024x128 .f32).view
abbrev VS0 : View sig .tc .vmem S1024x1 .f32 := scM0.view
abbrev VS1 : View sig .tc .vmem S1024x128 .f32 := scM1.view
abbrev VS2 : View sig .tc .vmem S1024x1 .f32 := scM2.view
abbrev VS3 : View sig .tc .vmem S1024x128 .f32 := scM3.view

theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

end Cert.KernelIdeal.Hand

end
-- ==== Proof.KLaunch.lean ====
import proofs.«416335_j89953795048031_3_alg».proof.Proof.KShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def qW : Fin cfg0.W → PosShare TreeShare := fun w => if w = 6 then fullShare.left else if w = 7 then fullShare.right else fullShare

def Wout (dats : (p : Fin 1) → (c : Dev nD) → Dat τ (Elt F) Unit ℕ (UR sig nD τ) ℕ (cfgs p) c) (c : Dev nD) : Valuation τ sig (Elt F) :=
  Function.update (Vv m c) (Proc.devRef .tc main_v18) ((dats 0 c).arrAt 10 cfg0.N)

abbrev adm : (p : Fin 1) → (pcfgs (F := F) p).Adm := fun p => (cfgs p).toPCfg_adm

abbrev 𝒱₀ : Variants := Variants.none

abbrev L : GSem nD τ sig → Finset Unit := fun _ => ∅
abbrev lv : GSem nD τ sig → Unit → ℕ := fun _ _ => 0

section Data

variable (dats : (p : Fin 1) → (c : Dev nD) → Dat τ (Elt F) Unit ℕ (UR sig nD τ) ℕ (cfgs p) c)

theorem share_eq (hq : ∀ c w, (dats 0 c).q w = qW w) (c : Dev nD) (w : Fin cfg0.W) : (dats 0 c).share w = qW w := by
  unfold Dat.share; rw [hq]
  revert w; decide

theorem arrBufs0_eq (c : Dev nD) (G : (b : Ref sig .tc) → Buf (Elt F) ((c : Thread nD τ).loc b)) :
    (Pipeline.arrBufs spec0 c G : sProp 𝕄)
      = iprop((((c : Thread nD τ).loc main_v4) ↦{fullShare} G main_v4) ∗ (((c : Thread nD τ).loc main_v6) ↦{fullShare} G main_v6)
          ∗ (((c : Thread nD τ).loc main_v8) ↦{fullShare} G main_v8) ∗ (((c : Thread nD τ).loc main_v9) ↦{fullShare} G main_v9)
          ∗ (((c : Thread nD τ).loc main_v15) ↦{fullShare} G main_v15) ∗ (((c : Thread nD τ).loc main_v17) ↦{fullShare} G main_v17)
          ∗ (((c : Thread nD τ).loc main_arg2) ↦{fullShare} G main_arg2) ∗ (((c : Thread nD τ).loc main_v10) ↦{fullShare} G main_v10)
          ∗ (((c : Thread nD τ).loc main_v11) ↦{fullShare} G main_v11) ∗ (((c : Thread nD τ).loc main_v18) ↦{fullShare} G main_v18)) := by
  unfold Pipeline.arrBufs
  exact bigSep_eq_bigSepL_of_eq [main_v4, main_v6, main_v8, main_v9, main_v15, main_v17, main_arg2, main_v10, main_v11, main_v18] (by decide) (by decide) _

theorem arrays0_eq (hq : ∀ c w, (dats 0 c).q w = qW w) (c : Dev nD) (G : (b : Ref sig .tc) → Buf (Elt F) ((c : Thread nD τ).loc b)) :
    ((dats 0 c).arrays (fun w => G (Pipeline.arrRef spec0 w)) : sProp 𝕄)
      = iprop((((c : Thread nD τ).loc main_v4) ↦{fullShare} G main_v4) ∗ (((c : Thread nD τ).loc main_v6) ↦{fullShare} G main_v6)
          ∗ (((c : Thread nD τ).loc main_v8) ↦{fullShare} G main_v8) ∗ (((c : Thread nD τ).loc main_v9) ↦{fullShare} G main_v9)
          ∗ (((c : Thread nD τ).loc main_v15) ↦{fullShare} G main_v15) ∗ (((c : Thread nD τ).loc main_v17) ↦{fullShare} G main_v17)
          ∗ (((c : Thread nD τ).loc main_arg2) ↦{fullShare.left} G main_arg2) ∗ (((c : Thread nD τ).loc main_arg2) ↦{fullShare.right} G main_arg2)
          ∗ (((c : Thread nD τ).loc main_v10) ↦{fullShare} G main_v10)
          ∗ (((c : Thread nD τ).loc main_v11) ↦{fullShare} G main_v11) ∗ (((c : Thread nD τ).loc main_v18) ↦{fullShare} G main_v18)) := by
  unfold Dat.arrays
  rw [bigSep_congr (fun w _ => by rw [(arr_whole0 w).set_eq_univ, share_eq dats hq c w]), bigSep_W0]
  rfl

theorem arrays_iff (hq : ∀ c w, (dats 0 c).q w = qW w) (c : Dev nD) (G : (b : Ref sig .tc) → Buf (Elt F) ((c : Thread nD τ).loc b)) :
    ((dats 0 c).arrays (fun w => G (Pipeline.arrRef spec0 w)) : sProp 𝕄) ⊣⊢ Pipeline.arrBufs spec0 c G := by
  rw [arrays0_eq dats hq c G, arrBufs0_eq c G]
  constructor
  · iintro ⟨H4, H6, H8, H9, H15, H17, H2l, H2r, H10, H11, H18⟩
    ihave H2 := (pointsTo_share (PosShare.mem_left_op_right fullShare)).2 $$ [H2l H2r]
    · isplitl [H2l] <;> iassumption
    iframe
  · iintro ⟨H4, H6, H8, H9, H15, H17, H2, H10, H11, H18⟩
    ihave H2' := (pointsTo_share (PosShare.mem_left_op_right fullShare)).1 $$ H2
    icases H2' with ⟨H2l, H2r⟩
    iframe

theorem unscopedRest_Wout (c : Dev nD) :
    (Pipeline.unscopedRest spec0 c (fun b => Wout m dats c (Proc.devRef .tc b)) : sProp 𝕄) = Pipeline.unscopedRest spec0 c (V m c) := by
  unfold Pipeline.unscopedRest
  refine bigSep_congr fun b hb => ?_
  have hne : b ≠ main_v18 := fun h => (Finset.mem_sdiff.mp hb).2 (Finset.mem_image.mpr ⟨10, Finset.mem_univ _, h.symm⟩)
  beta_reduce
  rw [show Wout m dats c (Proc.devRef .tc b) = V m c b from Function.update_of_ne (StableHlo.devRef_ne_of_ne hne) _ _]

theorem in_windows : ∀ w : Fin cfg0.W, w ≠ 10 → (cfg0.win w).isOut = false ∧ Pipeline.arrRef spec0 w ≠ main_v18 := by decide

theorem arrAt_last (hA : ∀ c w, (dats 0 c).A w = V m c (Pipeline.arrRef spec0 w)) (c : Dev nD) (w : Fin cfg0.W) :
    (dats 0 c).arrAt w cfg0.N = Wout m dats c (Proc.devRef .tc (Pipeline.arrRef spec0 w)) := by
  by_cases h : w = 10
  · subst h; unfold Wout
    exact (Function.update_self (Proc.devRef .tc main_v18) ((dats 0 c).arrAt 10 cfg0.N) (Vv m c)).symm
  · obtain ⟨hin, hne⟩ := in_windows w h
    rw [(dats 0 c).arrAt_in w hin, hA]
    exact (Function.update_of_ne (StableHlo.devRef_ne_of_ne hne) _ _).symm

abbrev R₀ (c : Dev nD) : sProp 𝕄 :=
  iprop(owes (c : Thread nD τ) (0 : CellTallies nD τ sig Unit) ∅ ∗ ∃ r, prngReg c r)

abbrev R₁ (c : Dev nD) : sProp 𝕄 :=
  iprop((∃ W, owes (c : Thread nD τ) (0 : CellTallies nD τ sig Unit) W) ∗ ∃ r, prngReg c r)

theorem entry_of (hA : ∀ c w, (dats 0 c).A w = V m c (Pipeline.arrRef spec0 w)) (hq : ∀ c w, (dats 0 c).q w = qW w)
    (howed : ∀ c t, (dats 0 c).owed t = 0) (c : Dev nD) :
    iprop(iprop(StableHlo.held (c : Thread nD τ) (Pipeline.ucRefs τ sig) (StableHlo.after hostOps0 (V₀ m c)) ∗ R₀ c)
        ∗ Pipeline.ownSems0 (fun k : PEmpty => k.elim) c ∗ levAts L lv)
      ⊢ |={Set.univ}=> iprop((dats 0 c).arrays ((dats 0 c).arrAt · 0) ∗ Pipeline.prefHeld (pcfgs (F := F) 0).pre c (fun _ => fullShare) (adm 0).1
          ∗ (dats 0 c).owesAt () 0 ∗ (∃ r, prngReg c r) ∗ Pipeline.unscopedRest spec0 c (V m c)) := by
  rw [show StableHlo.held (c : Thread nD τ) (Pipeline.ucRefs τ sig) (StableHlo.after hostOps0 (V₀ m c)) = unscopedBufs c (V m c)
      from (Pipeline.unscopedBufs_held c _).symm,
    Pipeline.unscopedBufs_split₀ cfgs 0 winFacts₀0.arr_unscoped c (V m c),
    show (fun w => (dats 0 c).arrAt w 0) = fun w => V m c (Pipeline.arrRef spec0 w) from funext (hA c)]
  unfold Pipeline.Dat.owesAt Pipeline.owesWithin; rw [howed c 0]
  iintro ⟨⟨⟨Ha, Hrest⟩, HO, Hp⟩, -, -⟩
  ihave Ha' := (arrays_iff dats hq c (V m c)).2 $$ Ha
  imodintro
  isplitl [Ha']; · iexact Ha'
  isplitr; · unfold Pipeline.prefHeld; rw [show (Finset.univ : Finset (Fin 0)) = ∅ from rfl, BI.bigSep_empty]; iempintro
  isplitl [HO]
  · iexists ∅; isplitr; · ipureintro; intro x hx; simp at hx
    iexact HO
  isplitl [Hp]; · iexact Hp
  iexact Hrest

theorem in_of (hin : ∀ c, Pipeline.ΦA spec0 c ⊢ (dats 0 c).Φ 0) (c : Dev nD) :
    iprop((∃ r, prngReg c r) ∗ Pipeline.prefHeld (pcfgs (F := F) 0).pre c (fun _ => fullShare) (adm 0).1
        ∗ Pipeline.scopedRest (Ix := Unit) (Name := ℕ) (U := UR sig nD τ) (Lvl := ℕ) (Val := Elt F) spec0 c) ⊢ (dats 0 c).Φ 0 := by
  have h : iprop((∃ r, prngReg c r) ∗ Pipeline.prefHeld (pcfgs (F := F) 0).pre c (fun _ => fullShare) (adm 0).1
        ∗ Pipeline.scopedRest (Ix := Unit) (Name := ℕ) (U := UR sig nD τ) (Lvl := ℕ) (Val := Elt F) spec0 c) ⊢ (Pipeline.ΦA spec0 c : sProp 𝕄) := by
    unfold Pipeline.ΦA
    iintro ⟨Hp, -, Hr⟩
    isplitl [Hr] <;> iassumption
  exact h.trans (hin c)

theorem out_of (hout : ∀ c, (dats 0 c).Φ (Fin.last cfg0.N) ⊢ Pipeline.ΦA spec0 c) (c : Dev nD) :
    (dats 0 c).Φ (Fin.last cfg0.N) ⊢ iprop((∃ r, prngReg c r) ∗ Pipeline.ownSems0 (fun k : PEmpty => k.elim) c
        ∗ Pipeline.scopedRest (Ix := Unit) (Name := ℕ) (U := UR sig nD τ) (Lvl := ℕ) (Val := Elt F) spec0 c) := by
  refine (hout c).trans ?_
  rw [Pipeline.ownSems0_none]; unfold Pipeline.ΦA
  iintro ⟨Hr, Hp⟩
  isplitl [Hp]; · iexact Hp
  isplitr; · iempintro
  iexact Hr

theorem exit_of (hA : ∀ c w, (dats 0 c).A w = V m c (Pipeline.arrRef spec0 w)) (hq : ∀ c w, (dats 0 c).q w = qW w)
    (howed : ∀ c t, (dats 0 c).owed t = 0) (c : Dev nD) :
    iprop((dats 0 c).arrays ((dats 0 c).arrAt · cfg0.N) ∗ (dats 0 c).owesAt () (Fin.last cfg0.N) ∗ (∃ r, prngReg c r)
        ∗ Pipeline.unscopedRest spec0 c (V m c))
      ⊢ |={Set.univ}=> iprop(StableHlo.held (c : Thread nD τ) (Pipeline.ucRefs τ sig) (Wout m dats c) ∗ R₁ c) := by
  rw [show StableHlo.held (c : Thread nD τ) (Pipeline.ucRefs τ sig) (Wout m dats c) = unscopedBufs c (fun b => Wout m dats c (Proc.devRef .tc b))
      from (Pipeline.unscopedBufs_held c _).symm,
    Pipeline.unscopedBufs_split₀ cfgs 0 winFacts₀0.arr_unscoped c (fun b => Wout m dats c (Proc.devRef .tc b)),
    unscopedRest_Wout m dats c,
    show (fun w => (dats 0 c).arrAt w cfg0.N) = fun w => Wout m dats c (Proc.devRef .tc (Pipeline.arrRef spec0 w)) from funext (arrAt_last m dats hA c)]
  unfold Pipeline.Dat.owesAt Pipeline.owesWithin; rw [howed c (Fin.last cfg0.N)]
  iintro ⟨Ha, ⟨%W, -, HO⟩, Hp, Hrest⟩
  ihave Ha' := (arrays_iff dats hq c (fun b => Wout m dats c (Proc.devRef .tc b))).1 $$ Ha
  imodintro
  isplitl [Ha' Hrest]
  · isplitl [Ha'] <;> iassumption
  isplitl [HO]; · iexists W; iexact HO
  iexact Hp

def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R₀

def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Wout m dats) R₁

set_option backward.isDefEq.respectTransparency.types false in
def reg0 (hA : ∀ c w, (dats 0 c).A w = V m c (Pipeline.arrRef spec0 w))
    (hq : ∀ c w, (dats 0 c).q w = qW w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none spec0
  hbody := hbody
  hwaits := Pipeline.hwaits_of_owed_zero _ _ _ _ L lv 0 fun c t => howed c t
  pre c := iprop(StableHlo.held (c : Thread nD τ) (Pipeline.ucRefs τ sig) (StableHlo.after hostOps0 (V₀ m c)) ∗ R₀ c)
  post c := iprop(StableHlo.held (c : Thread nD τ) (Pipeline.ucRefs τ sig) (Wout m dats c) ∗ R₁ c)
  X c := iprop(∃ r, prngReg c r)
  Y c := iprop(∃ r, prngReg c r)
  Z c := Pipeline.unscopedRest spec0 c (V m c)
  hentry c := entry_of m dats hA hq howed c
  hin c := in_of dats hin c
  hout c := out_of dats hout c
  hexit c := exit_of m dats hA hq howed c

theorem fin_of (c : Dev nD) (s' : Phys nD τ sig (Elt F)) :
    iprop(iprop(StableHlo.held (c : Thread nD τ) (Pipeline.ucRefs τ sig) (StableHlo.after hostOps1 (Wout m dats c)) ∗ ∃ r, prngReg c r) ∗ SI s')
      ⊢ |={Set.univ}=> iprop(⌜∀ b ∈ Pipeline.ucRefs τ sig, s'.mem.mem (c, b) = StableHlo.after hostOps1 (Wout m dats c) b⌝ ∗ (SI s' : sProp 𝕄)) := by
  unfold StableHlo.held
  iintro ⟨⟨Hh, -⟩, HSI⟩
  imodintro
  iapply (pointsTo_read_all (Pipeline.ucRefs τ sig) (fun b => ((c : Thread nD τ).1, b)) (StableHlo.after hostOps1 (Wout m dats c)) s')
  isplitl [Hh] <;> iassumption

end Data

set_option backward.isDefEq.respectTransparency.types false in
theorem run_of (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qW w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) ⟨m, fun _ => 0, ρ⟩ (fun r => ∀ c : Dev nD, ∀ b : DevRef τ sig,
      b ∈ Pipeline.ucRefs τ sig → r.2.mem (c, b) = StableHlo.after hostOps1 (Wout m dats c) b) :=
  Pipeline.θ_run_regions_kit (pcfgs (F := F)) adm dats () cellOf_inj emb₁ defs₀ 𝒱₀ L lv m ρ main
    [.host (seg0 m), .region (reg0 m dats hA hq howed hbody hin hout), .host (seg1 m dats)]
    (fun c Q => by rw [main_segs adm dats () 𝒱₀ L lv (seg0 m) (seg1 m dats) (reg0 m dats hA hq howed hbody hin hout) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R₀ c))
    (Tₙ := fun c => iprop(StableHlo.held (c : Thread nD τ) (Pipeline.ucRefs τ sig) (StableHlo.after hostOps1 (Wout m dats c)) ∗ ∃ r, prngReg c r))
    (hch := ⟨fun _ => .rfl, fun _ => .rfl, fun _ => .rfl, fun c => by
      show iprop(StableHlo.held (c : Thread nD τ) (Pipeline.ucRefs τ sig) (StableHlo.after hostOps1 (Wout m dats c)) ∗ R₁ c) ⊢ _
      iintro ⟨Hh, HO, Hp⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [HO]; · iexact HO
      iexists _; iexact Hp)
    (QY := fun c s => ∀ b ∈ Pipeline.ucRefs τ sig, s.mem (c, b) = StableHlo.after hostOps1 (Wout m dats c) b)
    (hfin := fun c s' => fin_of m dats c s')
    (hQ := fun _ h c b hb => h c b hb)

end Cert.KernelIdeal.Hand

end
-- ==== Proof.KRunA.lean ====
import proofs.«416335_j89953795048031_3_alg».proof.Proof.KShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S1024x512 .i32) (harg8 : arg8.IsWhole) (arg9 : Memref sig .tc .vmem S512x1024 .i32) (harg9 : arg9.IsWhole) (arg10 : Memref sig .tc .vmem S1x64 .f32) (harg10 : arg10.IsWhole) (arg11 : Memref sig .tc .vmem S1x64 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x1 .f32) (harg15 : arg15.IsWhole) (arg16 : Memref sig .tc .vmem S1024x128 .f32) (harg16 : arg16.IsWhole) (hc0 : condFirst i) (hc1 : ¬condLast i)
    (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32) :
    Σ' (LS0 : List (View.Piece (Elt F) S1024x1 .f32)) (LS1 : List (View.Piece (Elt F) S1024x128 .f32)) (LS2 : List (View.Piece (Elt F) S1024x1 .f32)), { LS3 : List (View.Piece (Elt F) S1024x128 .f32) //
      ∀ (xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xi10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)
                ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun xi10 E K => ?run⟩
  case run =>
    simp only [cc0__gat_kernel_eq_skeleton]; unfold cc0__gat_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    iexists _; iexact HS3

end Cert.KernelIdeal.Hand

end
-- ==== Proof.KRunB.lean ====
import proofs.«416335_j89953795048031_3_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S1024x512 .i32) (harg8 : arg8.IsWhole) (arg9 : Memref sig .tc .vmem S512x1024 .i32) (harg9 : arg9.IsWhole) (arg10 : Memref sig .tc .vmem S1x64 .f32) (harg10 : arg10.IsWhole) (arg11 : Memref sig .tc .vmem S1x64 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x1 .f32) (harg15 : arg15.IsWhole) (arg16 : Memref sig .tc .vmem S1024x128 .f32) (harg16 : arg16.IsWhole) (hc0 : ¬condFirst i) (hc1 : ¬condLast i)
    (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32)
    (xs0 : Vec F S1024x1 .f32) (xs1 : Vec F S1024x128 .f32) (xs2 : Vec F S1024x1 .f32) (xs3 : Vec F S1024x128 .f32) :
    Σ' (LS0 : List (View.Piece (Elt F) S1024x1 .f32)) (LS1 : List (View.Piece (Elt F) S1024x128 .f32)) (LS2 : List (View.Piece (Elt F) S1024x1 .f32)), { LS3 : List (View.Piece (Elt F) S1024x128 .f32) //
      ∀ (xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare xi10 ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)
                ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun xi10 E K => ?run⟩
  case run =>
    simp only [cc0__gat_kernel_eq_skeleton]; unfold cc0__gat_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg12.eq_unread hf10; obtain rfl := harg13.eq_unread hfs0
    obtain rfl := harg14.eq_unread hfs1; obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    iexists _; iexact HS3

end Cert.KernelIdeal.Hand

end
-- ==== Proof.KRunC.lean ====
import proofs.«416335_j89953795048031_3_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid0.Coords) (arg2 : Memref sig .tc .vmem S1024x1 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S1024x512 .i32) (harg8 : arg8.IsWhole) (arg9 : Memref sig .tc .vmem S512x1024 .i32) (harg9 : arg9.IsWhole) (arg10 : Memref sig .tc .vmem S1x64 .f32) (harg10 : arg10.IsWhole) (arg11 : Memref sig .tc .vmem S1x64 .f32) (harg11 : arg11.IsWhole) (arg12 : Memref sig .tc .vmem S1024x128 .f32) (harg12 : arg12.IsWhole) (arg13 : Memref sig .tc .vmem S1024x1 .f32) (harg13 : arg13.IsWhole) (arg14 : Memref sig .tc .vmem S1024x128 .f32) (harg14 : arg14.IsWhole) (arg15 : Memref sig .tc .vmem S1024x1 .f32) (harg15 : arg15.IsWhole) (arg16 : Memref sig .tc .vmem S1024x128 .f32) (harg16 : arg16.IsWhole) (hc0 : ¬condFirst i) (hc1 : condLast i)
    (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32)
    (xs0 : Vec F S1024x1 .f32) (xs1 : Vec F S1024x128 .f32) (xs2 : Vec F S1024x1 .f32) (xs3 : Vec F S1024x128 .f32) :
    Σ' (L10 : List (View.Piece (Elt F) S1024x128 .f32)) (LS0 : List (View.Piece (Elt F) S1024x1 .f32)) (LS1 : List (View.Piece (Elt F) S1024x128 .f32)) (LS2 : List (View.Piece (Elt F) S1024x1 .f32)), { LS3 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)
                ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0__gat_kernel_eq_skeleton]; unfold cc0__gat_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hf9; obtain rfl := harg13.eq_unread hfs0; obtain rfl := harg14.eq_unread hfs1
    obtain rfl := harg15.eq_unread hfs2; obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    isplitl [HS2]; · iexists _; iexact HS2
    iexists _; iexact HS3

end Cert.KernelIdeal.Hand

end
-- ==== Proof.KCases.lean ====
import proofs.«416335_j89953795048031_3_alg».proof.Proof.KRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev St (F : FTy → Type) [FloatOps F] : Type := Vec F S1024x1 .f32 × Vec F S1024x128 .f32 × Vec F S1024x1 .f32 × Vec F S1024x128 .f32

/-- The body's arguments at a grid point: the point's coordinates and fifteen memory references, each addressed whole. -/
structure Bufs where
  i : grid0.Coords
  a2 : Memref sig .tc .vmem S1024x1 .f32
  h2 : a2.IsWhole
  a3 : Memref sig .tc .vmem S1024x1 .f32
  h3 : a3.IsWhole
  a4 : Memref sig .tc .vmem S1x8192 .f32
  h4 : a4.IsWhole
  a5 : Memref sig .tc .vmem S1x8192 .f32
  h5 : a5.IsWhole
  a6 : Memref sig .tc .vmem S8192x128 .bf16
  h6 : a6.IsWhole
  a7 : Memref sig .tc .vmem S8192x128 .bf16
  h7 : a7.IsWhole
  a8 : Memref sig .tc .vmem S1024x512 .i32
  h8 : a8.IsWhole
  a9 : Memref sig .tc .vmem S512x1024 .i32
  h9 : a9.IsWhole
  a10 : Memref sig .tc .vmem S1x64 .f32
  h10 : a10.IsWhole
  a11 : Memref sig .tc .vmem S1x64 .f32
  h11 : a11.IsWhole
  a12 : Memref sig .tc .vmem S1024x128 .f32
  h12 : a12.IsWhole
  a13 : Memref sig .tc .vmem S1024x1 .f32
  h13 : a13.IsWhole
  a14 : Memref sig .tc .vmem S1024x128 .f32
  h14 : a14.IsWhole
  a15 : Memref sig .tc .vmem S1024x1 .f32
  h15 : a15.IsWhole
  a16 : Memref sig .tc .vmem S1024x128 .f32
  h16 : a16.IsWhole

variable (c : Dev nD) (b : Bufs)

section

variable (hc0 : condFirst b.i) (hc1 : ¬condLast b.i) (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32)

abbrev runA := kernelRun_A (F := F) c b.i b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 hc0 hc1 x0 x1 x2 x3 x4 x5 x6 x7 x8 x9

theorem scoverA0 :
    ∀ y : S1024x1.Idx, ∃ pc ∈ (runA c b hc0 hc1 x0 x1 x2 x3 x4 x5 x6 x7 x8 x9).1, y ∈ pc.1.set :=
  View.cover_of_tiledL _ S1024x1.size (by sl_kernel_rfl)

theorem scoverA1 :
    ∀ y : S1024x128.Idx, ∃ pc ∈ (runA c b hc0 hc1 x0 x1 x2 x3 x4 x5 x6 x7 x8 x9).2.1, y ∈ pc.1.set :=
  View.cover_of_tiledL _ S1024x128.size (by sl_kernel_rfl)

theorem scoverA2 :
    ∀ y : S1024x1.Idx, ∃ pc ∈ (runA c b hc0 hc1 x0 x1 x2 x3 x4 x5 x6 x7 x8 x9).2.2.1, y ∈ pc.1.set :=
  View.cover_of_tiledL _ S1024x1.size (by sl_kernel_rfl)

theorem scoverA3 :
    ∀ y : S1024x128.Idx, ∃ pc ∈ (runA c b hc0 hc1 x0 x1 x2 x3 x4 x5 x6 x7 x8 x9).2.2.2.1, y ∈ pc.1.set :=
  View.cover_of_tiledL _ S1024x128.size (by sl_kernel_rfl)

def soutA : St F :=
  (VS0.read (Elt F) (VS0.writes (Elt F) VS0.junk (runA c b hc0 hc1 x0 x1 x2 x3 x4 x5 x6 x7 x8 x9).1),
   VS1.read (Elt F) (VS1.writes (Elt F) VS1.junk (runA c b hc0 hc1 x0 x1 x2 x3 x4 x5 x6 x7 x8 x9).2.1),
   VS2.read (Elt F) (VS2.writes (Elt F) VS2.junk (runA c b hc0 hc1 x0 x1 x2 x3 x4 x5 x6 x7 x8 x9).2.2.1),
   VS3.read (Elt F) (VS3.writes (Elt F) VS3.junk (runA c b hc0 hc1 x0 x1 x2 x3 x4 x5 x6 x7 x8 x9).2.2.2.1))

end

section

variable (hc0 : ¬condFirst b.i) (hc1 : ¬condLast b.i) (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32) (xs0 : Vec F S1024x1 .f32) (xs1 : Vec F S1024x128 .f32) (xs2 : Vec F S1024x1 .f32) (xs3 : Vec F S1024x128 .f32)

abbrev runB := kernelRun_B (F := F) c b.i b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 hc0 hc1 x0 x1 x2 x3 x4 x5 x6 x7 x8 x9 xs0 xs1 xs2 xs3

theorem scoverB0 :
    ∀ y : S1024x1.Idx, ∃ pc ∈ (runB c b hc0 hc1 x0 x1 x2 x3 x4 x5 x6 x7 x8 x9 xs0 xs1 xs2 xs3).1, y ∈ pc.1.set :=
  View.cover_of_tiledL _ S1024x1.size (by sl_kernel_rfl)

theorem scoverB1 :
    ∀ y : S1024x128.Idx, ∃ pc ∈ (runB c b hc0 hc1 x0 x1 x2 x3 x4 x5 x6 x7 x8 x9 xs0 xs1 xs2 xs3).2.1, y ∈ pc.1.set :=
  View.cover_of_tiledL _ S1024x128.size (by sl_kernel_rfl)

theorem scoverB2 :
    ∀ y : S1024x1.Idx, ∃ pc ∈ (runB c b hc0 hc1 x0 x1 x2 x3 x4 x5 x6 x7 x8 x9 xs0 xs1 xs2 xs3).2.2.1, y ∈ pc.1.set :=
  View.cover_of_tiledL _ S1024x1.size (by sl_kernel_rfl)

theorem scoverB3 :
    ∀ y : S1024x128.Idx, ∃ pc ∈ (runB c b hc0 hc1 x0 x1 x2 x3 x4 x5 x6 x7 x8 x9 xs0 xs1 xs2 xs3).2.2.2.1, y ∈ pc.1.set :=
  View.cover_of_tiledL _ S1024x128.size (by sl_kernel_rfl)

def soutB : St F :=
  (VS0.read (Elt F) (VS0.writes (Elt F) VS0.junk (runB c b hc0 hc1 x0 x1 x2 x3 x4 x5 x6 x7 x8 x9 xs0 xs1 xs2 xs3).1),
   VS1.read (Elt F) (VS1.writes (Elt F) VS1.junk (runB c b hc0 hc1 x0 x1 x2 x3 x4 x5 x6 x7 x8 x9 xs0 xs1 xs2 xs3).2.1),
   VS2.read (Elt F) (VS2.writes (Elt F) VS2.junk (runB c b hc0 hc1 x0 x1 x2 x3 x4 x5 x6 x7 x8 x9 xs0 xs1 xs2 xs3).2.2.1),
   VS3.read (Elt F) (VS3.writes (Elt F) VS3.junk (runB c b hc0 hc1 x0 x1 x2 x3 x4 x5 x6 x7 x8 x9 xs0 xs1 xs2 xs3).2.2.2.1))

end

section

variable (hc0 : ¬condFirst b.i) (hc1 : condLast b.i) (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32) (xs0 : Vec F S1024x1 .f32) (xs1 : Vec F S1024x128 .f32) (xs2 : Vec F S1024x1 .f32) (xs3 : Vec F S1024x128 .f32)

abbrev runC := kernelRun_C (F := F) c b.i b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 hc0 hc1 x0 x1 x2 x3 x4 x5 x6 x7 x8 x9 xs0 xs1 xs2 xs3

theorem scoverC0 :
    ∀ y : S1024x1.Idx, ∃ pc ∈ (runC c b hc0 hc1 x0 x1 x2 x3 x4 x5 x6 x7 x8 x9 xs0 xs1 xs2 xs3).2.1, y ∈ pc.1.set :=
  View.cover_of_tiledL _ S1024x1.size (by sl_kernel_rfl)

theorem scoverC1 :
    ∀ y : S1024x128.Idx, ∃ pc ∈ (runC c b hc0 hc1 x0 x1 x2 x3 x4 x5 x6 x7 x8 x9 xs0 xs1 xs2 xs3).2.2.1, y ∈ pc.1.set :=
  View.cover_of_tiledL _ S1024x128.size (by sl_kernel_rfl)

theorem scoverC2 :
    ∀ y : S1024x1.Idx, ∃ pc ∈ (runC c b hc0 hc1 x0 x1 x2 x3 x4 x5 x6 x7 x8 x9 xs0 xs1 xs2 xs3).2.2.2.1, y ∈ pc.1.set :=
  View.cover_of_tiledL _ S1024x1.size (by sl_kernel_rfl)

theorem scoverC3 :
    ∀ y : S1024x128.Idx, ∃ pc ∈ (runC c b hc0 hc1 x0 x1 x2 x3 x4 x5 x6 x7 x8 x9 xs0 xs1 xs2 xs3).2.2.2.2.1, y ∈ pc.1.set :=
  View.cover_of_tiledL _ S1024x128.size (by sl_kernel_rfl)

def soutC : St F :=
  (VS0.read (Elt F) (VS0.writes (Elt F) VS0.junk (runC c b hc0 hc1 x0 x1 x2 x3 x4 x5 x6 x7 x8 x9 xs0 xs1 xs2 xs3).2.1),
   VS1.read (Elt F) (VS1.writes (Elt F) VS1.junk (runC c b hc0 hc1 x0 x1 x2 x3 x4 x5 x6 x7 x8 x9 xs0 xs1 xs2 xs3).2.2.1),
   VS2.read (Elt F) (VS2.writes (Elt F) VS2.junk (runC c b hc0 hc1 x0 x1 x2 x3 x4 x5 x6 x7 x8 x9 xs0 xs1 xs2 xs3).2.2.2.1),
   VS3.read (Elt F) (VS3.writes (Elt F) VS3.junk (runC c b hc0 hc1 x0 x1 x2 x3 x4 x5 x6 x7 x8 x9 xs0 xs1 xs2 xs3).2.2.2.2.1))

theorem coverC :
    ∀ y : S1024x128.Idx, ∃ pc ∈ (runC c b hc0 hc1 x0 x1 x2 x3 x4 x5 x6 x7 x8 x9 xs0 xs1 xs2 xs3).1, y ∈ pc.1.set :=
  View.cover_of_tiledL (runC c b hc0 hc1 x0 x1 x2 x3 x4 x5 x6 x7 x8 x9 xs0 xs1 xs2 xs3).1 S1024x64.size (by sl_kernel_rfl)

def outC : Vec F S1024x128 .f32 :=
  VO.read (Elt F) (VO.writes (Elt F) VO.junk (runC c b hc0 hc1 x0 x1 x2 x3 x4 x5 x6 x7 x8 x9 xs0 xs1 xs2 xs3).1)

end

end Cert.KernelIdeal.Hand

end
-- ==== Proof.KData.lean ====
import proofs.«416335_j89953795048031_3_alg».proof.Proof.KCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The body's arguments at point `t`. -/
abbrev bufsAt (t : Fin cfg0.N) : Bufs :=
  ⟨grid0.coords t, ms0 t, hs0 t, ms1 t, hs1 t, ms2 t, hs2 t, ms3 t, hs3 t, ms4 t, hs4 t, ms5 t, hs5 t, ms6 t, hs6 t, ms7 t, hs7 t, ms8 t, hs8 t, ms9 t, hs9 t, ms10 t, hs10 t,
    scM0, Memref.isWhole_whole _, scM1, Memref.isWhole_whole _, scM2, Memref.isWhole_whole _, scM3, Memref.isWhole_whole _⟩

def stAt (c : Dev nD) : (n : ℕ) → n < cfg0.N → St F
  | 0, hn => soutA c (bufsAt ⟨0, hn⟩) ((hcondFirst ⟨0, hn⟩).mpr (Nat.zero_mod 16)) (fun h => (by decide : ¬ (0 % 16 = 15)) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn =>
    if h0 : (n + 1) % 16 = 0 then
      if h1 : (n + 1) % 16 = 15 then False.elim (by omega)
      else soutA c (bufsAt ⟨n + 1, hn⟩) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
    else
      if h1 : (n + 1) % 16 = 15 then
        soutC c (bufsAt ⟨n + 1, hn⟩) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (stAt c n (Nat.lt_of_succ_lt hn)).1 (stAt c n (Nat.lt_of_succ_lt hn)).2.1 (stAt c n (Nat.lt_of_succ_lt hn)).2.2.1 (stAt c n (Nat.lt_of_succ_lt hn)).2.2.2
      else
        soutB c (bufsAt ⟨n + 1, hn⟩) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (stAt c n (Nat.lt_of_succ_lt hn)).1 (stAt c n (Nat.lt_of_succ_lt hn)).2.1 (stAt c n (Nat.lt_of_succ_lt hn)).2.2.1 (stAt c n (Nat.lt_of_succ_lt hn)).2.2.2

def outAt (c : Dev nD) : (n : ℕ) → n < cfg0.N → Vec F S1024x128 .f32
  | 0, _ => VO.read (Elt F) VO.junk
  | n + 1, hn =>
    if h1 : (n + 1) % 16 = 15 then
      if h0 : (n + 1) % 16 = 0 then False.elim (by omega)
      else outC c (bufsAt ⟨n + 1, hn⟩) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (stAt m c n (Nat.lt_of_succ_lt hn)).1 (stAt m c n (Nat.lt_of_succ_lt hn)).2.1 (stAt m c n (Nat.lt_of_succ_lt hn)).2.2.1 (stAt m c n (Nat.lt_of_succ_lt hn)).2.2.2
    else VO.read (Elt F) VO.junk

theorem stAt_A (c : Dev nD) (t : Fin cfg0.N) (h0 : t.val % 16 = 0) (h1 : ¬t.val % 16 = 15) :
    stAt m c t.val t.isLt = soutA c (bufsAt t) ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t) := by
  obtain ⟨n, hn⟩ := t
  cases n with
  | zero => exact rfl
  | succ n => exact (dif_pos h0).trans ((dif_neg h1).trans rfl)

theorem stAt_B (c : Dev nD) (t : Fin cfg0.N) (h0 : ¬t.val % 16 = 0) (h1 : ¬t.val % 16 = 15) :
    stAt m c t.val t.isLt = soutB c (bufsAt t) (fun h => h0 ((hcondFirst t).mp h)) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t) (stAt m c (t.val - 1) (Nat.lt_of_le_of_lt (Nat.sub_le _ _) t.isLt)).1 (stAt m c (t.val - 1) (Nat.lt_of_le_of_lt (Nat.sub_le _ _) t.isLt)).2.1 (stAt m c (t.val - 1) (Nat.lt_of_le_of_lt (Nat.sub_le _ _) t.isLt)).2.2.1 (stAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem stAt_C (c : Dev nD) (t : Fin cfg0.N) (h0 : ¬t.val % 16 = 0) (h1 : t.val % 16 = 15) :
    stAt m c t.val t.isLt = soutC c (bufsAt t) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (iblk m c 8 t) (iblk m c 9 t) (stAt m c (t.val - 1) (Nat.lt_of_le_of_lt (Nat.sub_le _ _) t.isLt)).1 (stAt m c (t.val - 1) (Nat.lt_of_le_of_lt (Nat.sub_le _ _) t.isLt)).2.1 (stAt m c (t.val - 1) (Nat.lt_of_le_of_lt (Nat.sub_le _ _) t.isLt)).2.2.1 (stAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

theorem outAt_C (c : Dev nD) (t : Fin cfg0.N) (h0 : ¬t.val % 16 = 0) (h1 : t.val % 16 = 15) :
    outAt m c t.val t.isLt = outC c (bufsAt t) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (iblk m c 8 t) (iblk m c 9 t) (stAt m c (t.val - 1) (Nat.lt_of_le_of_lt (Nat.sub_le _ _) t.isLt)).1 (stAt m c (t.val - 1) (Nat.lt_of_le_of_lt (Nat.sub_le _ _) t.isLt)).2.1 (stAt m c (t.val - 1) (Nat.lt_of_le_of_lt (Nat.sub_le _ _) t.isLt)).2.2.1 (stAt m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_pos h1).trans ((dif_neg h0).trans rfl)

def PhiS (c : Dev nD) : (n : ℕ) → n ≤ cfg0.N → sProp 𝕄
  | 0, _ => Pipeline.ΦA spec0 c
  | n + 1, hn => iprop(iprop(owns (c : Thread nD τ) scM0 fullShare (stAt m c n hn).1 ∗ owns (c : Thread nD τ) scM1 fullShare (stAt m c n hn).2.1
      ∗ owns (c : Thread nD τ) scM2 fullShare (stAt m c n hn).2.2.1 ∗ owns (c : Thread nD τ) scM3 fullShare (stAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (stAt m c n hn).1 ∗ owns (c : Thread nD τ) scM1 fullShare (stAt m c n hn).2.1
      ∗ owns (c : Thread nD τ) scM2 fullShare (stAt m c n hn).2.2.1 ∗ owns (c : Thread nD τ) scM3 fullShare (stAt m c n hn).2.2.2) ∗ (∃ r, prngReg c r)) := rfl

theorem PhiS_pos (c : Dev nD) (n : ℕ) (h : n ≤ cfg0.N) (hz : n ≠ 0) :
    PhiS m c n h = iprop(iprop(owns (c : Thread nD τ) scM0 fullShare (stAt m c (n - 1) (by omega)).1 ∗ owns (c : Thread nD τ) scM1 fullShare (stAt m c (n - 1) (by omega)).2.1
      ∗ owns (c : Thread nD τ) scM2 fullShare (stAt m c (n - 1) (by omega)).2.2.1 ∗ owns (c : Thread nD τ) scM3 fullShare (stAt m c (n - 1) (by omega)).2.2.2) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t.val t.isLt
  Φ t := PhiS m c t.val (Nat.le_of_lt_succ t.isLt)
  q w := if w = 6 then fullShare.left else if w = 7 then fullShare.right else fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t.val t.isLt := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (bufsAt t).a2 fullShare ((dats m 0 c).before 0 t d))
    ∗ (∃ d, owns (c : Thread nD τ) (bufsAt t).a3 fullShare ((dats m 0 c).before 1 t d))
    ∗ (∃ d, owns (c : Thread nD τ) (bufsAt t).a4 fullShare ((dats m 0 c).before 2 t d))
    ∗ (∃ d, owns (c : Thread nD τ) (bufsAt t).a5 fullShare ((dats m 0 c).before 3 t d))
    ∗ (∃ d, owns (c : Thread nD τ) (bufsAt t).a6 fullShare ((dats m 0 c).before 4 t d))
    ∗ (∃ d, owns (c : Thread nD τ) (bufsAt t).a7 fullShare ((dats m 0 c).before 5 t d))
    ∗ (∃ d, owns (c : Thread nD τ) (bufsAt t).a8 fullShare ((dats m 0 c).before 6 t d))
    ∗ (∃ d, owns (c : Thread nD τ) (bufsAt t).a9 fullShare ((dats m 0 c).before 7 t d))
    ∗ (∃ d, owns (c : Thread nD τ) (bufsAt t).a10 fullShare ((dats m 0 c).before 8 t d))
    ∗ (∃ d, owns (c : Thread nD τ) (bufsAt t).a11 fullShare ((dats m 0 c).before 9 t d))
    ∗ (∃ d, owns (c : Thread nD τ) (bufsAt t).a12 fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- Before the first point the invariant is the scratch at anything; after it `Phi_out` forgets the names. -/
theorem Phi_any (c : Dev nD) (t : Fin (cfg0.N + 1)) :
    (dats m 0 c).Φ t ⊢ iprop(iprop((∃ d, owns (c : Thread nD τ) scM0 fullShare d) ∗ (∃ d, owns (c : Thread nD τ) scM1 fullShare d)
      ∗ (∃ d, owns (c : Thread nD τ) scM2 fullShare d) ∗ (∃ d, owns (c : Thread nD τ) scM3 fullShare d)) ∗ (∃ r, prngReg c r)) := by
  have h : (dats m 0 c).Φ t ⊢ Pipeline.ΦA spec0 c := by
    by_cases ht : t.val = 0
    · rw [show (dats m 0 c).Φ t = PhiS m c t.val (Nat.le_of_lt_succ t.isLt) from rfl, PhiS_zero m c _ _ ht]
    · exact Phi_out m c t ht
  rw [PhiA_eq] at h
  exact h

/-- Stores that cover a buffer decide what it reads back, whatever it held before. -/
theorem owns_written (c : Dev nD) {S : Shape} {e : EltTy} (M : Memref sig .tc .vmem S e) (f : M.view.ty.Contents (Elt F))
    (v' : View sig .tc .vmem S e) (L : List (View.Piece (Elt F) S e)) (h : ∀ y, ∃ p ∈ L, y ∈ p.1.set) :
    (M.view.loc (c : Thread nD τ) ↦[M.view.set]{fullShare} M.view.writes (Elt F) f L : sProp 𝕄)
      ⊢ owns (c : Thread nD τ) M fullShare (v'.read (Elt F) (v'.writes (Elt F) v'.junk L)) := by
  unfold owns
  iintro H
  iexists _; isplitr
  swap; · iexact H
  ipureintro; exact View.read_writes_of_cover _ _ _ _ _ h

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (bufsAt t).a2 fullShare ((dats m 0 c).after 0 t) from by
    unfold Dat.leavesExact; rw [liveAt_in 0 (by decide) t], after_0]
  rw [show (dats m 0 c).leavesExact 1 t = owns (c : Thread nD τ) (bufsAt t).a3 fullShare ((dats m 0 c).after 1 t) from by
    unfold Dat.leavesExact; rw [liveAt_in 1 (by decide) t], after_1]
  rw [show (dats m 0 c).leavesExact 2 t = owns (c : Thread nD τ) (bufsAt t).a4 fullShare ((dats m 0 c).after 2 t) from by
    unfold Dat.leavesExact; rw [liveAt_in 2 (by decide) t], after_2]
  rw [show (dats m 0 c).leavesExact 3 t = owns (c : Thread nD τ) (bufsAt t).a5 fullShare ((dats m 0 c).after 3 t) from by
    unfold Dat.leavesExact; rw [liveAt_in 3 (by decide) t], after_3]
  rw [show (dats m 0 c).leavesExact 4 t = owns (c : Thread nD τ) (bufsAt t).a6 fullShare ((dats m 0 c).after 4 t) from by
    unfold Dat.leavesExact; rw [liveAt_in 4 (by decide) t], after_4]
  rw [show (dats m 0 c).leavesExact 5 t = owns (c : Thread nD τ) (bufsAt t).a7 fullShare ((dats m 0 c).after 5 t) from by
    unfold Dat.leavesExact; rw [liveAt_in 5 (by decide) t], after_5]
  rw [show (dats m 0 c).leavesExact 6 t = owns (c : Thread nD τ) (bufsAt t).a8 fullShare ((dats m 0 c).after 6 t) from by
    unfold Dat.leavesExact; rw [liveAt_in 6 (by decide) t], after_6]
  rw [show (dats m 0 c).leavesExact 7 t = owns (c : Thread nD τ) (bufsAt t).a9 fullShare ((dats m 0 c).after 7 t) from by
    unfold Dat.leavesExact; rw [liveAt_in 7 (by decide) t], after_7]
  rw [show (dats m 0 c).leavesExact 8 t = owns (c : Thread nD τ) (bufsAt t).a10 fullShare ((dats m 0 c).after 8 t) from by
    unfold Dat.leavesExact; rw [liveAt_in 8 (by decide) t], after_8]
  rw [show (dats m 0 c).leavesExact 9 t = owns (c : Thread nD τ) (bufsAt t).a11 fullShare ((dats m 0 c).after 9 t) from by
    unfold Dat.leavesExact; rw [liveAt_in 9 (by decide) t], after_9]
  by_cases h0 : t.val % 16 = 0
  · have h1 : ¬t.val % 16 = 15 := by omega
    rw [Dat.leavesExact_idle (dats m 0 c) 10 t (idleAt_out t (fun h => h1 ((hcondLast t).mp h))) (noFlush_out t (fun h => h1 ((hcondLast t).mp h)))]
    rw [stAt_A m c t h0 h1]
    unfold soutA; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HΦ' := (Phi_any m c t.castSucc) $$ HΦ
    icases HΦ' with ⟨⟨HS0, HS1, HS2, HS3⟩, Hg⟩
    iapply ((runA (F := F) c (bufsAt t) ((hcondFirst t).mpr h0) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]; · iapply (owns_written c _ _ _ _ (scoverA0 c _ _ _ _ _ _ _ _ _ _ _ _ _)); iexact HS0
        isplitl [HS1]; · iapply (owns_written c _ _ _ _ (scoverA1 c _ _ _ _ _ _ _ _ _ _ _ _ _)); iexact HS1
        isplitl [HS2]; · iapply (owns_written c _ _ _ _ (scoverA2 c _ _ _ _ _ _ _ _ _ _ _ _ _)); iexact HS2
        iapply (owns_written c _ _ _ _ (scoverA3 c _ _ _ _ _ _ _ _ _ _ _ _ _)); iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hz : t.val ≠ 0 := fun e => h0 (by rw [e])
    rw [PhiS_castSucc m c t, PhiS_pos m c _ _ hz]
    by_cases h1 : t.val % 16 = 15
    · rw [show (dats m 0 c).leavesExact 10 t = owns (c : Thread nD τ) (bufsAt t).a12 fullShare ((dats m 0 c).after 10 t) from by
        unfold Dat.leavesExact; rw [liveAt_out t ((hcondLast t).mpr h1)], after_10]
      rw [outAt_C m c t h0 h1, stAt_C m c t h0 h1]
      unfold outC soutC; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC (F := F) c (bufsAt t) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (iblk m c 8 t) (iblk m c 9 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]; · iapply (owns_written c _ _ _ _ (scoverC0 c _ _ _ _ _ _ _ _ _ _ _ _ _ _ _ _ _)); iexact HS0
          isplitl [HS1]; · iapply (owns_written c _ _ _ _ (scoverC1 c _ _ _ _ _ _ _ _ _ _ _ _ _ _ _ _ _)); iexact HS1
          isplitl [HS2]; · iapply (owns_written c _ _ _ _ (scoverC2 c _ _ _ _ _ _ _ _ _ _ _ _ _ _ _ _ _)); iexact HS2
          iapply (owns_written c _ _ _ _ (scoverC3 c _ _ _ _ _ _ _ _ _ _ _ _ _ _ _ _ _)); iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iapply (owns_written c _ _ _ _ (coverC c _ _ _ _ _ _ _ _ _ _ _ _ _ _ _ _ _)); iexact H10
    · rw [Dat.leavesExact_idle (dats m 0 c) 10 t (idleAt_out t (fun h => h1 ((hcondLast t).mp h))) (noFlush_out t (fun h => h1 ((hcondLast t).mp h)))]
      rw [stAt_B m c t h0 h1]
      unfold soutB; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB (F := F) c (bufsAt t) (fun h => h0 ((hcondFirst t).mp h)) (fun h => h1 ((hcondLast t).mp h)) (iblk m c 0 t) (iblk m c 1 t) (iblk m c 2 t) (iblk m c 3 t) (iblk m c 4 t) (iblk m c 5 t) (iblk m c 6 t) (iblk m c 7 t) (iblk m c 8 t) (iblk m c 9 t) _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]; · iapply (owns_written c _ _ _ _ (scoverB0 c _ _ _ _ _ _ _ _ _ _ _ _ _ _ _ _ _)); iexact HS0
          isplitl [HS1]; · iapply (owns_written c _ _ _ _ (scoverB1 c _ _ _ _ _ _ _ _ _ _ _ _ _ _ _ _ _)); iexact HS1
          isplitl [HS2]; · iapply (owns_written c _ _ _ _ (scoverB2 c _ _ _ _ _ _ _ _ _ _ _ _ _ _ _ _ _)); iexact HS2
          iapply (owns_written c _ _ _ _ (scoverB3 c _ _ _ _ _ _ _ _ _ _ _ _ _ _ _ _ _)); iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.KFrame.lean ====
import proofs.«416335_j89953795048031_3_alg».proof.Proof.KLaunch
import proofs.«416335_j89953795048031_3_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

theorem dats_q (c : Dev nD) (w : Fin cfg0.W) : (dats m 0 c).q w = qW w := by
  dsimp only [dats, qW]

theorem run_main : θ_run (defs (F := F)) (onTc (τ := τ) (main (F := F))) ⟨m, fun _ => 0, ρ⟩ (fun r => ∀ c : Dev nD, ∀ b : DevRef τ sig,
    b ∈ Pipeline.ucRefs τ sig → r.2.mem (c, b) = StableHlo.after hostOps1 (Wout m (dats m) c) b) :=
  run_of m ρ (dats m) (A_eq m) (dats_q m) (fun _ _ => rfl) (fun c => (body_obligation m c).loose) (hin m) (hout m)

theorem not_written0 (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11 ∧ b ≠ main_cst ∧ b ≠ main_v12 ∧ b ≠ main_cst_0 ∧ b ≠ main_v13 ∧ b ≠ main_v14 ∧ b ≠ main_v15 ∧ b ≠ main_v16 ∧ b ≠ main_v17) :
    ∀ op ∈ (hostOps0 (F := F)), Proc.devRef .tc b ∉ op.writes := by
  obtain ⟨h0, h1, h2, h3, h4, h5, h6, h7, h8, h9, h10, h11, h12, h13, h14, h15, h16, h17, h18, h19⟩ := hb
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, StableHlo.reshape_writes, StableHlo.nary_writes, Finset.mem_singleton] <;>
    exact StableHlo.devRef_ne_of_ne ‹_›

theorem not_written1 (b : Ref sig .tc) (hb : b ≠ main_v19 ∧ b ≠ main_v20) :
    ∀ op ∈ (hostOps1 (F := F)), Proc.devRef .tc b ∉ op.writes := by
  obtain ⟨h0, h1⟩ := hb
  intro op hop
  simp only [List.mem_cons, List.mem_nil_iff, or_false] at hop
  rcases hop with rfl | rfl <;>
    simp only [StableHlo.unary_writes, Finset.mem_singleton] <;>
    exact StableHlo.devRef_ne_of_ne ‹_›

theorem final_of_untouched (c : Dev nD) (b : Ref sig .tc) (h1 : b ≠ main_v19 ∧ b ≠ main_v20) (h18 : b ≠ main_v18)
    (h0 : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9 ∧ b ≠ main_v10 ∧ b ≠ main_v11 ∧ b ≠ main_cst ∧ b ≠ main_v12 ∧ b ≠ main_cst_0 ∧ b ≠ main_v13 ∧ b ≠ main_v14 ∧ b ≠ main_v15 ∧ b ≠ main_v16 ∧ b ≠ main_v17) :
    StableHlo.after hostOps1 (Wout m (dats m) c) (Proc.devRef .tc b) = m ((c : Thread nD τ).loc b) := by
  rw [StableHlo.after_of_forall_not_mem (b := Proc.devRef .tc b) hostOps1 (Wout m (dats m) c) (not_written1 b h1)]
  unfold Wout
  rw [Function.update_of_ne (StableHlo.devRef_ne_of_ne h18)]
  exact StableHlo.after_of_forall_not_mem (b := Proc.devRef .tc b) hostOps0 (V₀ m c) (not_written0 b h0)

theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := F)) _ _).mono (fun r h c =>
    ⟨(h c (Proc.devRef .tc main_arg0) (by decide)).trans (final_of_untouched m c main_arg0 (by decide) (by decide) (by decide)),
     (h c (Proc.devRef .tc main_arg1) (by decide)).trans (final_of_untouched m c main_arg1 (by decide) (by decide) (by decide)),
     (h c (Proc.devRef .tc main_arg2) (by decide)).trans (final_of_untouched m c main_arg2 (by decide) (by decide) (by decide)),
     (h c (Proc.devRef .tc main_arg3) (by decide)).trans (final_of_untouched m c main_arg3 (by decide) (by decide) (by decide)),
     (h c (Proc.devRef .tc main_arg4) (by decide)).trans (final_of_untouched m c main_arg4 (by decide) (by decide) (by decide)),
     (h c (Proc.devRef .tc main_arg5) (by decide)).trans (final_of_untouched m c main_arg5 (by decide) (by decide) (by decide)),
     (h c (Proc.devRef .tc main_arg6) (by decide)).trans (final_of_untouched m c main_arg6 (by decide) (by decide) (by decide)),
     (h c (Proc.devRef .tc main_arg7) (by decide)).trans (final_of_untouched m c main_arg7 (by decide) (by decide) (by decide))⟩) (run_main m ρ)

theorem final_v19 (c : Dev nD) :
    (StableHlo.after hostOps1 (Wout m (dats m) c) (Proc.devRef .tc main_v19) : S8192x64.Idx → Elt F .f32)
      = extractStridedSlice S8192x64 ![0, 0] ((dats m 0 c).arrAt 10 cfg0.N) slices_S8192x128_S8192x64_0_0 := by
  dsimp only [hostOps1]
  after_results
  unfold Wout
  rw [Function.update_self]

theorem final_v20 (c : Dev nD) :
    (StableHlo.after hostOps1 (Wout m (dats m) c) (Proc.devRef .tc main_v20) : S8192x64.Idx → Elt F .f32)
      = extractStridedSlice S8192x64 ![0, 64] ((dats m 0 c).arrAt 10 cfg0.N) slices_S8192x128_S8192x64_0_64 := by
  dsimp only [hostOps1]
  after_results
  unfold Wout
  rw [Function.update_self]

end Cert.KernelIdeal.Hand

end
-- ==== Proof.RefDefs.lean ====
import proofs.«416335_j89953795048031_3_alg».proof.ReferenceIdeal
import proofs.«416335_j89953795048031_3_alg».proof.Proof.Gen.ReferenceIdeal

noncomputable section

namespace Cert.ReferenceIdeal.Hand

open Cert.ReferenceIdeal Cert.ReferenceIdeal.Facts₀ Cert.ReferenceIdeal.Facts Idealize.ShloMosaic

variable {F : FTy → Type} [FloatOps F] [Cert.ReferenceIdeal.Facts]

def a1 (a : FVec F S128x1 .f32) : FVec F S64x1 .f32 :=
  extractStridedSlice S64x1 ![0, 0] a slices_S128x1_S64x1_0_0

def a2 (a : FVec F S128x1 .f32) : FVec F S64x1 .f32 :=
  extractStridedSlice S64x1 ![64, 0] a slices_S128x1_S64x1_64_0

def proj (x : FVec F S8192x128 .f32) (w : FVec F S128x64 .f32) : FVec F S8192x64 .f32 :=
  Host.dotGeneral dot_S8192x128_S128x64_S8192x64_1_0_0_1_n_n none x w

def score (xw : FVec F S8192x64 .f32) (av : FVec F S64x1 .f32) : FVec F S8192x1 .f32 :=
  Host.dotGeneral dot_S8192x64_S64x1_S8192x1_1_0_0_1_n_n none xw av

def preact (sc sr : FVec F S8192x1 .f32) : FVec F S8192x8192 .f32 :=
  addf (broadcastInDim S8192x8192 ![0, 1] bcast_S8192x1_S8192x8192_0_1 sc)
    (broadcastInDim S8192x8192 ![0, 1] bcast_S1x8192_S8192x8192_0_1
      (transpose S1x8192 [1, 0] sr transposes_S8192x1_S1x8192_1_0))

def logits (sc sr : FVec F S8192x1 .f32) : FVec F S8192x8192 .f32 :=
  select
    (cmpf .ogt (preact sc sr) (broadcastInDim S8192x8192 ![] bcast_S_S8192x8192 (constant S_ .f32 0x00000000#32)))
    (preact sc sr)
    (mulf (broadcastInDim S8192x8192 ![] bcast_S_S8192x8192 (constant S_ .f32 0x3C23D70A#32)) (preact sc sr))

def maskOf (adj : IVec S8192x8192 32) : IVec S8192x8192 1 :=
  cmpi .sgt adj (broadcastInDim S8192x8192 ![] bcast_S_S8192x8192 (constantI S_ 32 0#32))

def masked (mk : IVec S8192x8192 1) (lg : FVec F S8192x8192 .f32) : FVec F S8192x8192 .f32 :=
  select mk lg (broadcastInDim S8192x8192 ![] bcast_S_S8192x8192 (id (constant S_ .f32 0xD51184E7#32)))

def rowMax (z : FVec F S8192x8192 .f32) : FVec F S8192 .f32 :=
  maximumf (broadcastInDim S8192 ![] bcast_S_S8192 (constant S_ .f32 0xFF800000#32))
    (Host.reduce FloatOps.maximumf z (constant S_ .f32 0xFF800000#32) reducesTo_S8192x8192_S8192_d1 h_S_)

def expShift (z : FVec F S8192x8192 .f32) : FVec F S8192x8192 .f32 :=
  Host.exp (subf z (broadcastInDim S8192x8192 ![0, 1] bcast_S8192x1_S8192x8192_0_1
    (broadcastInDim S8192x1 ![0] bcast_S8192_S8192x1_0 (rowMax z))))

def rowSum (u : FVec F S8192x8192 .f32) : FVec F S8192 .f32 :=
  Host.reduceAdd u (constant S_ .f32 0x00000000#32) reducesTo_S8192x8192_S8192_d1 h_S_

def softmaxRows (z : FVec F S8192x8192 .f32) : FVec F S8192x8192 .f32 :=
  Host.divf (expShift z) (broadcastInDim S8192x8192 ![0, 1] bcast_S8192x1_S8192x8192_0_1
    (broadcastInDim S8192x1 ![0] bcast_S8192_S8192x1_0 (rowSum (expShift z))))

def eluH (x : FVec F S8192x64 .f32) : FVec F S8192x64 .f32 :=
  select
    (cmpf .ogt x (broadcastInDim S8192x64 ![] bcast_S_S8192x64 (constant S_ .f32 0x00000000#32)))
    x
    (mulf (broadcastInDim S8192x64 ![] bcast_S_S8192x64 (constant S_ .f32 0x3F800000#32))
      (Host.expm1 (select
        (cmpf .ogt x (broadcastInDim S8192x64 ![] bcast_S_S8192x64 (constant S_ .f32 0x00000000#32)))
        (broadcastInDim S8192x64 ![] bcast_S_S8192x64 (id (constant S_ .f32 0x00000000#32)))
        x)))

def outOf (att : FVec F S8192x8192 .f32) (xw : FVec F S8192x64 .f32) (b : FVec F S64 .f32) : FVec F S8192x64 .f32 :=
  eluH (addf (Host.dotGeneral dot_S8192x8192_S8192x64_S8192x64_1_0_0_1_n_n none att xw)
    (broadcastInDim S8192x64 ![0, 1] bcast_S1x64_S8192x64_0_1 (broadcastInDim S1x64 ![1] bcast_S64_S1x64_1 b)))

def resSrc (x_s x_t : FVec F S8192x128 .f32) (adj : IVec S8192x8192 32) (w_s w_t : FVec F S128x64 .f32)
    (a : FVec F S128x1 .f32) (b_s : FVec F S64 .f32) : FVec F S8192x64 .f32 :=
  outOf (softmaxRows (masked (maskOf adj)
    (logits (score (proj x_s w_s) (a1 a)) (score (proj x_t w_t) (a2 a))))) (proj x_s w_s) b_s

def resTgt (x_s x_t : FVec F S8192x128 .f32) (adj : IVec S8192x8192 32) (w_s w_t : FVec F S128x64 .f32)
    (a : FVec F S128x1 .f32) (b_t : FVec F S64 .f32) : FVec F S8192x64 .f32 :=
  outOf (softmaxRows (masked (transpose S8192x8192 [1, 0] (maskOf adj) transposes_S8192x8192_S8192x8192_1_0)
    (logits (score (proj x_t w_t) (a1 a)) (score (proj x_s w_s) (a2 a))))) (proj x_t w_t) b_t

end Cert.ReferenceIdeal.Hand

end
-- ==== Proof.RefRunStages.lean ====
import proofs.«416335_j89953795048031_3_alg».proof.Proof.RefDefs
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F] [Cert.ReferenceIdeal.Facts]

abbrev c1 : List (HloOp τ sig (Elt F)) :=
  [ unary main_arg5 main_v0 (extractStridedSlice S64x1 ![0, 0] · slices_S128x1_S64x1_0_0),
    unary main_arg5 main_v1 (extractStridedSlice S64x1 ![64, 0] · slices_S128x1_S64x1_64_0),
    binary main_arg0 main_arg3 main_v2 (fun l r => Host.dotGeneral dot_S8192x128_S128x64_S8192x64_1_0_0_1_n_n none l r),
    binary main_arg1 main_arg4 main_v3 (fun l r => Host.dotGeneral dot_S8192x128_S128x64_S8192x64_1_0_0_1_n_n none l r),
    binary main_v2 main_v0 main_v4 (fun l r => Host.dotGeneral dot_S8192x64_S64x1_S8192x1_1_0_0_1_n_n none l r),
    binary main_v3 main_v1 main_v5 (fun l r => Host.dotGeneral dot_S8192x64_S64x1_S8192x1_1_0_0_1_n_n none l r) ]

abbrev c2 : List (HloOp τ sig (Elt F)) :=
  [ unary main_v5 main_v6 (transpose S1x8192 [1, 0] · transposes_S8192x1_S1x8192_1_0),
    unary main_v4 main_v7 (broadcastInDim S8192x8192 ![0, 1] bcast_S8192x1_S8192x8192_0_1),
    unary main_v6 main_v8 (broadcastInDim S8192x8192 ![0, 1] bcast_S1x8192_S8192x8192_0_1),
    binary main_v7 main_v8 main_v9 (addf),
    nullary main_cst (constant S_ .f32 0x00000000#32),
    unary main_cst main_v10 (broadcastInDim S8192x8192 ![] bcast_S_S8192x8192),
    binary main_v9 main_v10 main_v11 (cmpf .ogt),
    nullary main_cst_0 (constant S_ .f32 0x3C23D70A#32),
    unary main_cst_0 main_v12 (broadcastInDim S8192x8192 ![] bcast_S_S8192x8192),
    binary main_v12 main_v9 main_v13 (mulf),
    TRef.ternary (.of main_v11 : TRef sig ⟨S8192x8192, .i1⟩) (.of main_v9 : TRef sig ⟨S8192x8192, .f32⟩) (.of main_v13 : TRef sig ⟨S8192x8192, .f32⟩) main_call0.v0 select ]

abbrev c3 : List (HloOp τ sig (Elt F)) :=
  [ binary main_v3 main_v0 main_v15 (fun l r => Host.dotGeneral dot_S8192x64_S64x1_S8192x1_1_0_0_1_n_n none l r),
    binary main_v2 main_v1 main_v16 (fun l r => Host.dotGeneral dot_S8192x64_S64x1_S8192x1_1_0_0_1_n_n none l r),
    unary main_v16 main_v17 (transpose S1x8192 [1, 0] · transposes_S8192x1_S1x8192_1_0),
    unary main_v15 main_v18 (broadcastInDim S8192x8192 ![0, 1] bcast_S8192x1_S8192x8192_0_1),
    unary main_v17 main_v19 (broadcastInDim S8192x8192 ![0, 1] bcast_S1x8192_S8192x8192_0_1),
    binary main_v18 main_v19 main_v20 (addf),
    nullary main_cst_1 (constant S_ .f32 0x00000000#32),
    unary main_cst_1 main_v21 (broadcastInDim S8192x8192 ![] bcast_S_S8192x8192),
    binary main_v20 main_v21 main_v22 (cmpf .ogt),
    nullary main_cst_2 (constant S_ .f32 0x3C23D70A#32),
    unary main_cst_2 main_v23 (broadcastInDim S8192x8192 ![] bcast_S_S8192x8192),
    binary main_v23 main_v20 main_v24 (mulf),
    TRef.ternary (.of main_v22 : TRef sig ⟨S8192x8192, .i1⟩) (.of main_v20 : TRef sig ⟨S8192x8192, .f32⟩) (.of main_v24 : TRef sig ⟨S8192x8192, .f32⟩) main_call1.v0 select ]

abbrev c4 : List (HloOp τ sig (Elt F)) :=
  [ nullary main_c (constantI S_ 32 0#32),
    unary main_c main_v26 (broadcastInDim S8192x8192 ![] bcast_S_S8192x8192),
    binary main_arg2 main_v26 main_v27 (cmpi .sgt) ]

abbrev c5 : List (HloOp τ sig (Elt F)) :=
  [ nullary main_cst_3 (constant S_ .f32 0xD51184E7#32),
    TRef.unary (.of main_cst_3 : TRef sig ⟨S_, .f32⟩) main_call2.v0 id,
    TRef.unary main_call2.v0 main_call2.v1 (broadcastInDim S8192x8192 ![] bcast_S_S8192x8192),
    TRef.ternary (.of main_v27 : TRef sig ⟨S8192x8192, .i1⟩) (.of main_v14 : TRef sig ⟨S8192x8192, .f32⟩) main_call2.v1 main_call2.v2 select ]

abbrev c6 : List (HloOp τ sig (Elt F)) :=
  [ nullary main_cst_4 (constant S_ .f32 0xFF800000#32),
    binary main_v28 main_cst_4 main_v29 (fun x v => Host.reduce FloatOps.maximumf x v reducesTo_S8192x8192_S8192_d1 h_S_),
    nullary main_cst_5 (constant S_ .f32 0xFF800000#32),
    unary main_cst_5 main_v30 (broadcastInDim S8192 ![] bcast_S_S8192),
    binary main_v30 main_v29 main_v31 (maximumf),
    unary main_v31 main_v32 (broadcastInDim S8192x1 ![0] bcast_S8192_S8192x1_0),
    unary main_v32 main_v33 (broadcastInDim S8192x8192 ![0, 1] bcast_S8192x1_S8192x8192_0_1),
    binary main_v28 main_v33 main_v34 (subf),
    unary main_v34 main_v35 (Host.exp),
    nullary main_cst_6 (constant S_ .f32 0x00000000#32),
    binary main_v35 main_cst_6 main_v36 (fun x v => Host.reduceAdd x v reducesTo_S8192x8192_S8192_d1 h_S_),
    unary main_v36 main_v37 (broadcastInDim S8192x1 ![0] bcast_S8192_S8192x1_0),
    unary main_v37 main_v38 (broadcastInDim S8192x8192 ![0, 1] bcast_S8192x1_S8192x8192_0_1),
    binary main_v35 main_v38 main_v39 (Host.divf) ]

abbrev c7 : List (HloOp τ sig (Elt F)) :=
  [ unary main_v27 main_v40 (transpose S8192x8192 [1, 0] · transposes_S8192x8192_S8192x8192_1_0),
    nullary main_cst_7 (constant S_ .f32 0xD51184E7#32),
    TRef.unary (.of main_cst_7 : TRef sig ⟨S_, .f32⟩) main_call3.v0 id,
    TRef.unary main_call3.v0 main_call3.v1 (broadcastInDim S8192x8192 ![] bcast_S_S8192x8192),
    TRef.ternary (.of main_v40 : TRef sig ⟨S8192x8192, .i1⟩) (.of main_v25 : TRef sig ⟨S8192x8192, .f32⟩) main_call3.v1 main_call3.v2 select ]

abbrev c8 : List (HloOp τ sig (Elt F)) :=
  [ nullary main_cst_8 (constant S_ .f32 0xFF800000#32),
    binary main_v41 main_cst_8 main_v42 (fun x v => Host.reduce FloatOps.maximumf x v reducesTo_S8192x8192_S8192_d1 h_S_),
    nullary main_cst_9 (constant S_ .f32 0xFF800000#32),
    unary main_cst_9 main_v43 (broadcastInDim S8192 ![] bcast_S_S8192),
    binary main_v43 main_v42 main_v44 (maximumf),
    unary main_v44 main_v45 (broadcastInDim S8192x1 ![0] bcast_S8192_S8192x1_0),
    unary main_v45 main_v46 (broadcastInDim S8192x8192 ![0, 1] bcast_S8192x1_S8192x8192_0_1),
    binary main_v41 main_v46 main_v47 (subf) ]

abbrev c9 : List (HloOp τ sig (Elt F)) :=
  [ unary main_v47 main_v48 (Host.exp),
    nullary main_cst_10 (constant S_ .f32 0x00000000#32),
    binary main_v48 main_cst_10 main_v49 (fun x v => Host.reduceAdd x v reducesTo_S8192x8192_S8192_d1 h_S_),
    unary main_v49 main_v50 (broadcastInDim S8192x1 ![0] bcast_S8192_S8192x1_0),
    unary main_v50 main_v51 (broadcastInDim S8192x8192 ![0, 1] bcast_S8192x1_S8192x8192_0_1),
    binary main_v48 main_v51 main_v52 (Host.divf) ]

abbrev c10 : List (HloOp τ sig (Elt F)) :=
  [ binary main_v39 main_v2 main_v53 (fun l r => Host.dotGeneral dot_S8192x8192_S8192x64_S8192x64_1_0_0_1_n_n none l r),
    unary main_arg6 main_v54 (broadcastInDim S1x64 ![1] bcast_S64_S1x64_1),
    unary main_v54 main_v55 (broadcastInDim S8192x64 ![0, 1] bcast_S1x64_S8192x64_0_1),
    binary main_v53 main_v55 main_v56 (addf) ]

abbrev c11 : List (HloOp τ sig (Elt F)) :=
  [ TRef.nullary main_call4.cst (constant S_ .f32 0x00000000#32),
    TRef.unary main_call4.cst main_call4.v0 (broadcastInDim S8192x64 ![] bcast_S_S8192x64),
    TRef.binary (.of main_v56 : TRef sig ⟨S8192x64, .f32⟩) main_call4.v0 main_call4.v1 (cmpf .ogt),
    TRef.nullary main_call4.cst_0 (constant S_ .f32 0x00000000#32),
    TRef.unary main_call4.cst_0 main_call4.v2 (broadcastInDim S8192x64 ![] bcast_S_S8192x64),
    TRef.binary (.of main_v56 : TRef sig ⟨S8192x64, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S8192x64 ![] bcast_S_S8192x64),
    TRef.ternary main_call4.v3 main_call4.call0.v1 (.of main_v56 : TRef sig ⟨S8192x64, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S8192x64 ![] bcast_S_S8192x64),
    TRef.binary main_call4.v6 main_call4.v5 main_call4.v7 mulf,
    TRef.ternary main_call4.v1 (.of main_v56 : TRef sig ⟨S8192x64, .f32⟩) main_call4.v7 main_call4.call1.v0 select ]

abbrev c12 : List (HloOp τ sig (Elt F)) :=
  [ binary main_v52 main_v3 main_v58 (fun l r => Host.dotGeneral dot_S8192x8192_S8192x64_S8192x64_1_0_0_1_n_n none l r),
    unary main_arg7 main_v59 (broadcastInDim S1x64 ![1] bcast_S64_S1x64_1),
    unary main_v59 main_v60 (broadcastInDim S8192x64 ![0, 1] bcast_S1x64_S8192x64_0_1),
    binary main_v58 main_v60 main_v61 (addf) ]

abbrev c13 : List (HloOp τ sig (Elt F)) :=
  [ TRef.nullary main_call5.cst (constant S_ .f32 0x00000000#32),
    TRef.unary main_call5.cst main_call5.v0 (broadcastInDim S8192x64 ![] bcast_S_S8192x64),
    TRef.binary (.of main_v61 : TRef sig ⟨S8192x64, .f32⟩) main_call5.v0 main_call5.v1 (cmpf .ogt),
    TRef.nullary main_call5.cst_0 (constant S_ .f32 0x00000000#32),
    TRef.unary main_call5.cst_0 main_call5.v2 (broadcastInDim S8192x64 ![] bcast_S_S8192x64),
    TRef.binary (.of main_v61 : TRef sig ⟨S8192x64, .f32⟩) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S8192x64 ![] bcast_S_S8192x64),
    TRef.ternary main_call5.v3 main_call5.call0.v1 (.of main_v61 : TRef sig ⟨S8192x64, .f32⟩) main_call5.call0.v2 select,
    TRef.unary main_call5.call0.v2 main_call5.v5 Host.expm1,
    TRef.nullary main_call5.cst_2 (constant S_ .f32 0x3F800000#32),
    TRef.unary main_call5.cst_2 main_call5.v6 (broadcastInDim S8192x64 ![] bcast_S_S8192x64),
    TRef.binary main_call5.v6 main_call5.v5 main_call5.v7 mulf,
    TRef.ternary main_call5.v1 (.of main_v61 : TRef sig ⟨S8192x64, .f32⟩) main_call5.v7 main_call5.call1.v0 select ]

/-- @main's line cut into thirteen consecutive stretches, numbered from 0; past the last, nothing. -/
abbrev stretch : ℕ → List (HloOp τ sig (Elt F))
  | 0 => c1
  | 1 => c2
  | 2 => c3
  | 3 => c4
  | 4 => c5
  | 5 => c6
  | 6 => c7
  | 7 => c8
  | 8 => c9
  | 9 => c10
  | 10 => c11
  | 11 => c12
  | 12 => c13
  | _ => []

/-- The buffers stretch `k` writes. -/
abbrev wr : ℕ → List (Ref sig .tc)
  | 0 => [main_v0, main_v1, main_v2, main_v3, main_v4, main_v5]
  | 1 => [main_v6, main_v7, main_v8, main_v9, main_cst, main_v10, main_v11, main_cst_0, main_v12, main_v13, main_v14]
  | 2 => [main_v15, main_v16, main_v17, main_v18, main_v19, main_v20, main_cst_1, main_v21, main_v22, main_cst_2, main_v23, main_v24, main_v25]
  | 3 => [main_c, main_v26, main_v27]
  | 4 => [main_cst_3, main_call2_v0, main_call2_v1, main_v28]
  | 5 => [main_cst_4, main_v29, main_cst_5, main_v30, main_v31, main_v32, main_v33, main_v34, main_v35, main_cst_6, main_v36, main_v37, main_v38, main_v39]
  | 6 => [main_v40, main_cst_7, main_call3_v0, main_call3_v1, main_v41]
  | 7 => [main_cst_8, main_v42, main_cst_9, main_v43, main_v44, main_v45, main_v46, main_v47]
  | 8 => [main_v48, main_cst_10, main_v49, main_v50, main_v51, main_v52]
  | 9 => [main_v53, main_v54, main_v55, main_v56]
  | 10 => [main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v57]
  | 11 => [main_v58, main_v59, main_v60, main_v61]
  | 12 => [main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v62]
  | _ => []

theorem stretch_sub : ∀ k, (stretch (F := F) k).Forall fun op => op.bufs ⊆ tcRefs τ sig
  | 0 => ⟨unary_bufs_sub .., unary_bufs_sub .., binary_bufs_sub .., binary_bufs_sub .., binary_bufs_sub .., binary_bufs_sub ..⟩
  | 1 => ⟨unary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
  | 2 => ⟨binary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
  | 3 => ⟨nullary_bufs_sub .., unary_bufs_sub .., binary_bufs_sub ..⟩
  | 4 => ⟨nullary_bufs_sub .., unary_bufs_sub .., unary_bufs_sub .., ternary_bufs_sub ..⟩
  | 5 => ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
  | 6 => ⟨unary_bufs_sub .., nullary_bufs_sub .., unary_bufs_sub .., unary_bufs_sub .., ternary_bufs_sub ..⟩
  | 7 => ⟨nullary_bufs_sub .., binary_bufs_sub .., nullary_bufs_sub .., unary_bufs_sub .., binary_bufs_sub .., unary_bufs_sub .., unary_bufs_sub .., binary_bufs_sub ..⟩
  | 8 => ⟨unary_bufs_sub .., nullary_bufs_sub .., binary_bufs_sub .., unary_bufs_sub .., unary_bufs_sub .., binary_bufs_sub ..⟩
  | 9 => ⟨binary_bufs_sub .., unary_bufs_sub .., unary_bufs_sub .., binary_bufs_sub ..⟩
  | 10 => ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
  | 11 => ⟨binary_bufs_sub .., unary_bufs_sub .., unary_bufs_sub .., binary_bufs_sub ..⟩
  | 12 => ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
  | _ + 13 => trivial

theorem stretch_fresh (k : ℕ) : ∀ op ∈ stretch (F := F) k, op.fresh = ∅ := by
  iterate 13 (rcases k with _ | k; · intro _ h; (repeat (cases h with | head => rfl | tail _ h => ?_)); exact nomatch h)
  exact fun _ h => nomatch h

theorem stretch_writes (k : ℕ) :
    (stretch (F := F) k).Forall fun op => op.writes ⊆ ((wr k).map (Proc.devRef (τ := τ) .tc)).toFinset := by
  iterate 13 (rcases k with _ | k; · simp only [stretch, wr, List.Forall, nullary_writes, unary_writes, binary_writes, ternary_writes, quaternary_writes, reshape_writes, binaryIndexed_writes, nary_writes, unaryIndexed_writes, Finset.singleton_subset_iff, List.mem_toFinset]; and_intros <;> exact List.mem_map_of_mem (by decide))
  trivial

/-- The device's contents after the first `k` stretches. -/
def val (V0 : Valuation τ sig (Elt F)) : ℕ → Valuation τ sig (Elt F)
  | 0 => V0
  | k + 1 => after (stretch k) (val V0 k)

/-- A buffer none of the stretches `j, …, k - 1` writes holds after `k` stretches what it held after `j`. -/
theorem val_keep (V0 : Valuation τ sig (Elt F)) {j k : ℕ} (hjk : j ≤ k) {r : Ref sig .tc} (h : ∀ i < k, j ≤ i → r ∉ wr i) :
    val V0 k (Proc.devRef .tc r) = val V0 j (Proc.devRef .tc r) := by
  induction k, hjk using Nat.le_induction with
  | base => rfl
  | succ k hk ih =>
    exact (after_of_writes_sub _ _ (stretch_writes k) (h k (Nat.lt_succ_self k) hk)).trans (ih fun i hi => h i (Nat.lt_succ_of_lt hi))

end Cert.ReferenceIdeal.Hand

end
-- ==== Proof.RefRun.lean ====
import proofs.«416335_j89953795048031_3_alg».proof.Proof.RefRunStages
import Idealize.ShloMosaic.Lib.StableHlo.Run
import Idealize.ShloMosaic.Adequacy
import Idealize.ShloMosaic.Init

noncomputable section

namespace Cert.ReferenceIdeal.Hand

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F] [Cert.ReferenceIdeal.Facts]

section Stages

variable (V0 : Valuation τ sig (Elt F))

abbrev inXs : FVec F S8192x128 .f32 := V0 (Proc.devRef .tc main_arg0)
abbrev inXt : FVec F S8192x128 .f32 := V0 (Proc.devRef .tc main_arg1)
abbrev inAdj : IVec S8192x8192 32 := V0 (Proc.devRef .tc main_arg2)
abbrev inWs : FVec F S128x64 .f32 := V0 (Proc.devRef .tc main_arg3)
abbrev inWt : FVec F S128x64 .f32 := V0 (Proc.devRef .tc main_arg4)
abbrev inA : FVec F S128x1 .f32 := V0 (Proc.devRef .tc main_arg5)
abbrev inBs : FVec F S64 .f32 := V0 (Proc.devRef .tc main_arg6)
abbrev inBt : FVec F S64 .f32 := V0 (Proc.devRef .tc main_arg7)
abbrev pS : FVec F S8192x64 .f32 := proj (inXs V0) (inWs V0)
abbrev pT : FVec F S8192x64 .f32 := proj (inXt V0) (inWt V0)
abbrev lgS : FVec F S8192x8192 .f32 := logits (score (pS V0) (a1 (inA V0))) (score (pT V0) (a2 (inA V0)))
abbrev lgT : FVec F S8192x8192 .f32 := logits (score (pT V0) (a1 (inA V0))) (score (pS V0) (a2 (inA V0)))
abbrev zS : FVec F S8192x8192 .f32 := masked (maskOf (inAdj V0)) (lgS V0)
abbrev zT : FVec F S8192x8192 .f32 :=
  masked (transpose S8192x8192 [1, 0] (maskOf (inAdj V0)) transposes_S8192x8192_S8192x8192_1_0) (lgT V0)

theorem val1_main_v0 : val V0 1 (no_index (Proc.devRef .tc main_v0)) = a1 (inA V0) := by
  show after c1 V0 _ = _; simp only [c1]; after_results_simp <;> rfl

theorem val1_main_v1 : val V0 1 (no_index (Proc.devRef .tc main_v1)) = a2 (inA V0) := by
  show after c1 V0 _ = _; simp only [c1]; after_results_simp <;> rfl

theorem val1_main_v2 : val V0 1 (no_index (Proc.devRef .tc main_v2)) = pS V0 := by
  show after c1 V0 _ = _; simp only [c1]; after_results_simp <;> rfl

theorem val1_main_v3 : val V0 1 (no_index (Proc.devRef .tc main_v3)) = pT V0 := by
  show after c1 V0 _ = _; simp only [c1]; after_results_simp <;> rfl

theorem val1_main_v4 : val V0 1 (no_index (Proc.devRef .tc main_v4)) = score (pS V0) (a1 (inA V0)) := by
  show after c1 V0 _ = _; simp only [c1]; after_results_simp <;> rfl

theorem val1_main_v5 : val V0 1 (no_index (Proc.devRef .tc main_v5)) = score (pT V0) (a2 (inA V0)) := by
  show after c1 V0 _ = _; simp only [c1]; after_results_simp <;> rfl

theorem val2_main_v14 : val V0 2 (no_index (Proc.devRef .tc main_v14)) = lgS V0 := by
  show after c2 (val V0 1) _ = _; simp only [c2]; after_results_simp
  simp only [val1_main_v4, val1_main_v5] <;> rfl

theorem val2_main_v0 : val V0 2 (no_index (Proc.devRef .tc main_v0)) = a1 (inA V0) :=
  (val_keep V0 (j := 1) (k := 2) (by decide) (by decide)).trans (val1_main_v0 V0)

theorem val2_main_v1 : val V0 2 (no_index (Proc.devRef .tc main_v1)) = a2 (inA V0) :=
  (val_keep V0 (j := 1) (k := 2) (by decide) (by decide)).trans (val1_main_v1 V0)

theorem val2_main_v2 : val V0 2 (no_index (Proc.devRef .tc main_v2)) = pS V0 :=
  (val_keep V0 (j := 1) (k := 2) (by decide) (by decide)).trans (val1_main_v2 V0)

theorem val2_main_v3 : val V0 2 (no_index (Proc.devRef .tc main_v3)) = pT V0 :=
  (val_keep V0 (j := 1) (k := 2) (by decide) (by decide)).trans (val1_main_v3 V0)

theorem val3_main_v25 : val V0 3 (no_index (Proc.devRef .tc main_v25)) = lgT V0 := by
  show after c3 (val V0 2) _ = _; simp only [c3]; after_results_simp
  simp only [val2_main_v0, val2_main_v1, val2_main_v2, val2_main_v3] <;> rfl

theorem val3_main_arg2 : val V0 3 (no_index (Proc.devRef .tc main_arg2)) = inAdj V0 :=
  val_keep V0 (j := 0) (k := 3) (by decide) (by decide)

theorem val4_main_v27 : val V0 4 (no_index (Proc.devRef .tc main_v27)) = maskOf (inAdj V0) := by
  show after c4 (val V0 3) _ = _; simp only [c4]; after_results_simp
  simp only [val3_main_arg2] <;> rfl

theorem val4_main_v14 : val V0 4 (no_index (Proc.devRef .tc main_v14)) = lgS V0 :=
  (val_keep V0 (j := 2) (k := 4) (by decide) (by decide)).trans (val2_main_v14 V0)

theorem val5_main_v28 : val V0 5 (no_index (Proc.devRef .tc main_v28)) = zS V0 := by
  show after c5 (val V0 4) _ = _; simp only [c5]; after_results_simp
  simp only [val4_main_v27, val4_main_v14] <;> rfl

theorem val6_main_v39 : val V0 6 (no_index (Proc.devRef .tc main_v39)) = softmaxRows (zS V0) := by
  show after c6 (val V0 5) _ = _; simp only [c6]; after_results_simp
  simp only [val5_main_v28] <;> rfl

theorem val6_main_v27 : val V0 6 (no_index (Proc.devRef .tc main_v27)) = maskOf (inAdj V0) :=
  (val_keep V0 (j := 4) (k := 6) (by decide) (by decide)).trans (val4_main_v27 V0)

theorem val6_main_v25 : val V0 6 (no_index (Proc.devRef .tc main_v25)) = lgT V0 :=
  (val_keep V0 (j := 3) (k := 6) (by decide) (by decide)).trans (val3_main_v25 V0)

theorem val7_main_v41 : val V0 7 (no_index (Proc.devRef .tc main_v41)) = zT V0 := by
  show after c7 (val V0 6) _ = _; simp only [c7]; after_results_simp
  simp only [val6_main_v27, val6_main_v25] <;> rfl

theorem val8_main_v47 : val V0 8 (no_index (Proc.devRef .tc main_v47))
    = subf (zT V0) (broadcastInDim S8192x8192 ![0, 1] bcast_S8192x1_S8192x8192_0_1
        (broadcastInDim S8192x1 ![0] bcast_S8192_S8192x1_0 (rowMax (zT V0)))) := by
  show after c8 (val V0 7) _ = _; simp only [c8]; after_results_simp
  simp only [val7_main_v41] <;> rfl

theorem val9_main_v52 : val V0 9 (no_index (Proc.devRef .tc main_v52)) = softmaxRows (zT V0) := by
  show after c9 (val V0 8) _ = _; simp only [c9]; after_results_simp
  simp only [val8_main_v47] <;> rfl

theorem val9_main_v39 : val V0 9 (no_index (Proc.devRef .tc main_v39)) = softmaxRows (zS V0) :=
  (val_keep V0 (j := 6) (k := 9) (by decide) (by decide)).trans (val6_main_v39 V0)

theorem val9_main_v2 : val V0 9 (no_index (Proc.devRef .tc main_v2)) = pS V0 :=
  (val_keep V0 (j := 1) (k := 9) (by decide) (by decide)).trans (val1_main_v2 V0)

theorem val9_main_arg6 : val V0 9 (no_index (Proc.devRef .tc main_arg6)) = inBs V0 :=
  val_keep V0 (j := 0) (k := 9) (by decide) (by decide)

theorem val10_main_v56 : val V0 10 (no_index (Proc.devRef .tc main_v56))
    = addf (Host.dotGeneral dot_S8192x8192_S8192x64_S8192x64_1_0_0_1_n_n none (softmaxRows (zS V0)) (pS V0))
        (broadcastInDim S8192x64 ![0, 1] bcast_S1x64_S8192x64_0_1 (broadcastInDim S1x64 ![1] bcast_S64_S1x64_1 (inBs V0))) := by
  show after c10 (val V0 9) _ = _; simp only [c10]; after_results_simp
  simp only [val9_main_v39, val9_main_v2, val9_main_arg6] <;> rfl

theorem val11_main_v57 : val V0 11 (no_index (Proc.devRef .tc main_v57))
    = outOf (softmaxRows (zS V0)) (pS V0) (inBs V0) := by
  show after c11 (val V0 10) _ = _; simp only [c11]; after_results_simp
  simp only [val10_main_v56] <;> rfl

theorem val11_main_v52 : val V0 11 (no_index (Proc.devRef .tc main_v52)) = softmaxRows (zT V0) :=
  (val_keep V0 (j := 9) (k := 11) (by decide) (by decide)).trans (val9_main_v52 V0)

theorem val11_main_v3 : val V0 11 (no_index (Proc.devRef .tc main_v3)) = pT V0 :=
  (val_keep V0 (j := 1) (k := 11) (by decide) (by decide)).trans (val1_main_v3 V0)

theorem val11_main_arg7 : val V0 11 (no_index (Proc.devRef .tc main_arg7)) = inBt V0 :=
  val_keep V0 (j := 0) (k := 11) (by decide) (by decide)

theorem val12_main_v61 : val V0 12 (no_index (Proc.devRef .tc main_v61))
    = addf (Host.dotGeneral dot_S8192x8192_S8192x64_S8192x64_1_0_0_1_n_n none (softmaxRows (zT V0)) (pT V0))
        (broadcastInDim S8192x64 ![0, 1] bcast_S1x64_S8192x64_0_1 (broadcastInDim S1x64 ![1] bcast_S64_S1x64_1 (inBt V0))) := by
  show after c12 (val V0 11) _ = _; simp only [c12]; after_results_simp
  simp only [val11_main_v52, val11_main_v3, val11_main_arg7] <;> rfl

theorem val13_main_v62 : val V0 13 (no_index (Proc.devRef .tc main_v62))
    = outOf (softmaxRows (zT V0)) (pT V0) (inBt V0) := by
  show after c13 (val V0 12) _ = _; simp only [c13]; after_results_simp
  simp only [val12_main_v61] <;> rfl

theorem val13_main_v57 : val V0 13 (no_index (Proc.devRef .tc main_v57))
    = outOf (softmaxRows (zS V0)) (pS V0) (inBs V0) :=
  (val_keep V0 (j := 11) (k := 13) (by decide) (by decide)).trans (val11_main_v57 V0)

end Stages

theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

abbrev ops0 : List (HloOp τ sig (Elt F)) := c1 ++ (c2 ++ (c3 ++ (c4 ++ (c5 ++ (c6 ++ (c7 ++ c8))))))
abbrev ops1 : List (HloOp τ sig (Elt F)) := c9 ++ (c10 ++ (c11 ++ (c12 ++ c13)))
abbrev ops : List (HloOp τ sig (Elt F)) := ops0 ++ ops1
theorem main_part0_eq (c : Dev nD) : main_part0 (F := F) c = seq ops0 := rfl
theorem main_part1_eq (c : Dev nD) : main_part1 (F := F) c = seq ops1 := rfl
theorem main_eq (c : Dev nD) : main (F := F) c = seq ops := by
  show (main_part0 (F := F) c >>= fun _ => main_part1 (F := F) c) = _
  rw [main_part0_eq, main_part1_eq]
  exact (seq_append ops0 ops1).symm

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_append.mpr
    ⟨List.forall_append.mpr ⟨stretch_sub 0, List.forall_append.mpr ⟨stretch_sub 1, List.forall_append.mpr ⟨stretch_sub 2,
        List.forall_append.mpr ⟨stretch_sub 3, List.forall_append.mpr ⟨stretch_sub 4, List.forall_append.mpr ⟨stretch_sub 5,
          List.forall_append.mpr ⟨stretch_sub 6, stretch_sub 7⟩⟩⟩⟩⟩⟩⟩,
      List.forall_append.mpr ⟨stretch_sub 8, List.forall_append.mpr ⟨stretch_sub 9, List.forall_append.mpr ⟨stretch_sub 10,
        List.forall_append.mpr ⟨stretch_sub 11, stretch_sub 12⟩⟩⟩⟩⟩

theorem ops_fresh : ∀ op ∈ (ops : List (HloOp τ sig (Elt F))), op.fresh = ∅ := by
  intro op h
  simp only [ops, ops0, ops1, List.mem_append] at h
  rcases h with (h | h | h | h | h | h | h | h) | (h | h | h | h | h)
  · exact stretch_fresh 0 op h
  · exact stretch_fresh 1 op h
  · exact stretch_fresh 2 op h
  · exact stretch_fresh 3 op h
  · exact stretch_fresh 4 op h
  · exact stretch_fresh 5 op h
  · exact stretch_fresh 6 op h
  · exact stretch_fresh 7 op h
  · exact stretch_fresh 8 op h
  · exact stretch_fresh 9 op h
  · exact stretch_fresh 10 op h
  · exact stretch_fresh 11 op h
  · exact stretch_fresh 12 op h

theorem after_ops (V0 : Valuation τ sig (Elt F)) : after ops V0 = val V0 13 := by
  simp only [ops, ops0, ops1, after_app]
  rfl

theorem res_main_v57 (V0 : Valuation τ sig (Elt F)) :
    after ops V0 (Proc.devRef .tc main_v57)
      = resSrc (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) := by
  rw [after_ops]; exact val13_main_v57 V0

theorem res_main_v62 (V0 : Valuation τ sig (Elt F)) :
    after ops V0 (Proc.devRef .tc main_v62)
      = resTgt (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg7)) := by
  rw [after_ops]; exact val13_main_v62 V0

theorem res_arg (V0 : Valuation τ sig (Elt F)) (r : Ref sig .tc) (h : ∀ i < 13, 0 ≤ i → r ∉ wr i) :
    after ops V0 (Proc.devRef .tc r) = V0 (Proc.devRef .tc r) := by
  rw [after_ops]; exact val_keep V0 (Nat.zero_le 13) h

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v57)
          = resSrc (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_v62)
          = resTgt (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      ⟨(h c main_v57).trans (res_main_v57 (launchContents m c)),
        (h c main_v62).trans (res_main_v62 (launchContents m c)),
        (h c main_arg0).trans (res_arg (launchContents m c) main_arg0 (by decide)),
        (h c main_arg1).trans (res_arg (launchContents m c) main_arg1 (by decide)),
        (h c main_arg2).trans (res_arg (launchContents m c) main_arg2 (by decide)),
        (h c main_arg3).trans (res_arg (launchContents m c) main_arg3 (by decide)),
        (h c main_arg4).trans (res_arg (launchContents m c) main_arg4 (by decide)),
        (h c main_arg5).trans (res_arg (launchContents m c) main_arg5 (by decide)),
        (h c main_arg6).trans (res_arg (launchContents m c) main_arg6 (by decide)),
        (h c main_arg7).trans (res_arg (launchContents m c) main_arg7 (by decide))⟩)
    (run_seq scopedRefs_eq scopedSems_eq defs main (fun _ => ops) main_eq (fun _ => ops_sub) m ρ (fun _ => ops_fresh))

end Cert.ReferenceIdeal.Hand

end
-- ==== Proof.LibDot.lean ====
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.KHost.lean ====
import proofs.«416335_j89953795048031_3_alg».proof.Proof.KShared
import proofs.«416335_j89953795048031_3_alg».proof.Proof.LibDot
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Facts₀ Cert.KernelIdeal.Facts
open Idealize.ShloMosaic Idealize.ShloMosaic.TcCoe Idealize.ShloMosaic.ValueIdx
open Idealize.SL.Sem

variable (m : (ℓ : Loc nD τ sig) → Buf (Elt Ideal) ℓ)

abbrev argA0 (c : Dev nD) : FVec Ideal S8192x128 .f32 := m ((c : Thread nD τ).loc main_arg0)
abbrev argA1 (c : Dev nD) : FVec Ideal S8192x128 .f32 := m ((c : Thread nD τ).loc main_arg1)
abbrev argA2 (c : Dev nD) : IVec S8192x8192 32 := m ((c : Thread nD τ).loc main_arg2)
abbrev argA3 (c : Dev nD) : FVec Ideal S128x64 .f32 := m ((c : Thread nD τ).loc main_arg3)
abbrev argA4 (c : Dev nD) : FVec Ideal S128x64 .f32 := m ((c : Thread nD τ).loc main_arg4)
abbrev argA5 (c : Dev nD) : FVec Ideal S128x1 .f32 := m ((c : Thread nD τ).loc main_arg5)
abbrev argA6 (c : Dev nD) : FVec Ideal S64 .f32 := m ((c : Thread nD τ).loc main_arg6)
abbrev argA7 (c : Dev nD) : FVec Ideal S64 .f32 := m ((c : Thread nD τ).loc main_arg7)

def kA1 (a : FVec Ideal S128x1 .f32) : FVec Ideal S64x1 .f32 :=
  extractStridedSlice S64x1 ![0, 0] a slices_S128x1_S64x1_0_0

def kA2 (a : FVec Ideal S128x1 .f32) : FVec Ideal S64x1 .f32 :=
  extractStridedSlice S64x1 ![64, 0] a slices_S128x1_S64x1_64_0

def kProj (x : FVec Ideal S8192x128 .f32) (w : FVec Ideal S128x64 .f32) : FVec Ideal S8192x64 .f32 :=
  Host.dotGeneral dot_S8192x128_S128x64_S8192x64_1_0_0_1_n_n none x w

def kScore (xw : FVec Ideal S8192x64 .f32) (av : FVec Ideal S64x1 .f32) : FVec Ideal S8192x1 .f32 :=
  Host.dotGeneral dot_S8192x64_S64x1_S8192x1_1_0_0_1_n_n none xw av

def kPad (p : FVec Ideal S8192x64 .f32) : FVec Ideal S8192x128 .bf16 :=
  concatenate S8192x128 1
    [⟨S8192x64, truncf .bf16 p bitsLt_bf16_f32⟩,
     ⟨S8192x1, broadcastInDim S8192x1 ![] bcast_S_S8192x1 (constant (F := Ideal) S_ .bf16 0x3F80#16)⟩,
     ⟨S8192x63, broadcastInDim S8192x63 ![] bcast_S_S8192x63 (constant (F := Ideal) S_ .bf16 0x0000#16)⟩]
    concatenates_S8192x64_S8192x1_S8192x63_S8192x128_d1

theorem nary3_result {Val : EltTy → Type} {x a b y : Ref sig .tc}
    (f : ((k : Fin 3) → ((![x, a, b] : Fin 3 → Ref sig .tc) k).ty.Contents Val) → y.ty.Contents Val) (hxs hy)
    (W : Valuation τ sig Val) :
    (StableHlo.nary (τ := τ) ![x, a, b] y f hxs hy).result W (Proc.devRef .tc y)
      = f (Fin.cons (W (Proc.devRef .tc x)) (Fin.cons (W (Proc.devRef .tc a)) (Fin.cons (W (Proc.devRef .tc b))
          (fun i => i.elim0)))) := by
  rw [StableHlo.nary_result]; congr 1; funext k; fin_cases k <;> rfl
macro "host_results" : tactic =>
  `(tactic| (simp only [StableHlo.after_cons, StableHlo.after_nil]
             repeat (first
               | rw [nary3_result] | rw [StableHlo.nullary_result] | rw [StableHlo.unary_result]
               | rw [StableHlo.binary_result] | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

theorem V_v4 (c : Dev nD) :
    (V m c main_v4 : S8192x1.Idx → EReal) = kScore (kProj (argA0 m c) (argA3 m c)) (kA1 (argA5 m c)) := by
  dsimp only [V, Vv, Gen.hostOps0]; host_results <;> rfl

theorem V_v6 (c : Dev nD) :
    (V m c main_v6 : S8192x1.Idx → EReal) = kScore (kProj (argA1 m c) (argA4 m c)) (kA1 (argA5 m c)) := by
  dsimp only [V, Vv, Gen.hostOps0]; host_results <;> rfl

theorem V_v8 (c : Dev nD) :
    (V m c main_v8 : S1x8192.Idx → EReal)
      = shapeCast S1x8192 (kScore (kProj (argA1 m c) (argA4 m c)) (kA2 (argA5 m c))) shapeCasts_S8192x1_S1x8192 := by
  dsimp only [V, Vv, Gen.hostOps0]; host_results <;> rfl

theorem V_v9 (c : Dev nD) :
    (V m c main_v9 : S1x8192.Idx → EReal)
      = shapeCast S1x8192 (kScore (kProj (argA0 m c) (argA3 m c)) (kA2 (argA5 m c))) shapeCasts_S8192x1_S1x8192 := by
  dsimp only [V, Vv, Gen.hostOps0]; host_results <;> rfl

theorem V_v10 (c : Dev nD) :
    (V m c main_v10 : S1x64.Idx → EReal) = shapeCast S1x64 (argA6 m c) shapeCasts_S64_S1x64 := by
  dsimp only [V, Vv, Gen.hostOps0]; host_results <;> rfl

theorem V_v11 (c : Dev nD) :
    (V m c main_v11 : S1x64.Idx → EReal) = shapeCast S1x64 (argA7 m c) shapeCasts_S64_S1x64 := by
  dsimp only [V, Vv, Gen.hostOps0]; host_results <;> rfl

theorem V_v15 (c : Dev nD) :
    (V m c main_v15 : S8192x128.Idx → EReal)
      = concatenate S8192x128 1
          [⟨S8192x64, truncf .bf16 (kProj (argA0 m c) (argA3 m c)) bitsLt_bf16_f32⟩,
           ⟨S8192x1, broadcastInDim S8192x1 ![] bcast_S_S8192x1 (constant (F := Ideal) S_ .bf16 0x3F80#16)⟩,
           ⟨S8192x63, broadcastInDim S8192x63 ![] bcast_S_S8192x63 (constant (F := Ideal) S_ .bf16 0x0000#16)⟩]
          concatenates_S8192x64_S8192x1_S8192x63_S8192x128_d1 := by
  dsimp only [V, Vv, Gen.hostOps0]; host_results <;> rfl

set_option maxHeartbeats 2000000 in
theorem V_v17 (c : Dev nD) :
    (V m c main_v17 : S8192x128.Idx → EReal)
      = concatenate S8192x128 1
          [⟨S8192x64, truncf .bf16 (kProj (argA1 m c) (argA4 m c)) bitsLt_bf16_f32⟩,
           ⟨S8192x1, broadcastInDim S8192x1 ![] bcast_S_S8192x1 (constant (F := Ideal) S_ .bf16 0x3F80#16)⟩,
           ⟨S8192x63, broadcastInDim S8192x63 ![] bcast_S_S8192x63 (constant (F := Ideal) S_ .bf16 0x0000#16)⟩]
          concatenates_S8192x64_S8192x1_S8192x63_S8192x128_d1 := by
  dsimp only [V, Vv, Gen.hostOps0]; host_results <;> rfl

theorem V_v15_pad (c : Dev nD) :
    (V m c main_v15 : S8192x128.Idx → EReal) = kPad (kProj (argA0 m c) (argA3 m c)) := V_v15 m c

theorem V_v17_pad (c : Dev nD) :
    (V m c main_v17 : S8192x128.Idx → EReal) = kPad (kProj (argA1 m c) (argA4 m c)) := V_v17 m c

theorem V_arg0 (c : Dev nD) : (V m c main_arg0 : S8192x128.Idx → EReal) = argA0 m c := by
  dsimp only [V, Vv, Gen.hostOps0]; host_results <;> rfl

theorem V_arg1 (c : Dev nD) : (V m c main_arg1 : S8192x128.Idx → EReal) = argA1 m c := by
  dsimp only [V, Vv, Gen.hostOps0]; host_results <;> rfl

theorem V_arg2 (c : Dev nD) : (V m c main_arg2 : IVec S8192x8192 32) = argA2 m c := by
  dsimp only [V, Vv, Gen.hostOps0]; host_results <;> rfl

theorem V_arg3 (c : Dev nD) : (V m c main_arg3 : S128x64.Idx → EReal) = argA3 m c := by
  dsimp only [V, Vv, Gen.hostOps0]; host_results <;> rfl

theorem V_arg4 (c : Dev nD) : (V m c main_arg4 : S128x64.Idx → EReal) = argA4 m c := by
  dsimp only [V, Vv, Gen.hostOps0]; host_results <;> rfl

theorem V_arg5 (c : Dev nD) : (V m c main_arg5 : S128x1.Idx → EReal) = argA5 m c := by
  dsimp only [V, Vv, Gen.hostOps0]; host_results <;> rfl

theorem V_arg6 (c : Dev nD) : (V m c main_arg6 : S64.Idx → EReal) = argA6 m c := by
  dsimp only [V, Vv, Gen.hostOps0]; host_results <;> rfl

theorem V_arg7 (c : Dev nD) : (V m c main_arg7 : S64.Idx → EReal) = argA7 m c := by
  dsimp only [V, Vv, Gen.hostOps0]; host_results <;> rfl

theorem kA1_apply (a : FVec Ideal S128x1 .f32) (k : Fin 64) :
    kA1 a (ix2 k 0) = a (ix2 ⟨k.val, by omega⟩ 0) :=
  slice2_axis0_apply 0 a slices_S128x1_S64x1_0_0 k (0 : Fin 1) ⟨k.val, by omega⟩ (Nat.zero_add _).symm

theorem kA2_apply (a : FVec Ideal S128x1 .f32) (k : Fin 64) :
    kA2 a (ix2 k 0) = a (ix2 ⟨k.val + 64, by omega⟩ 0) :=
  slice2_axis0_apply 64 a slices_S128x1_S64x1_64_0 k (0 : Fin 1) ⟨k.val + 64, by omega⟩ (Nat.add_comm _ _)

theorem kProj_apply (x : FVec Ideal S8192x128 .f32) (w : FVec Ideal S128x64 .f32) (r : Fin 8192) (q : Fin 64) :
    kProj x w (ix2 r q) = ∑ κ : Fin 128, x (ix2 r κ) * w (ix2 κ q) :=
  Cert.LibDot.dot_rows_apply dot_S8192x128_S128x64_S8192x64_1_0_0_1_n_n rfl rfl rfl rfl rfl rfl none x w r q

theorem kScore_apply (xw : FVec Ideal S8192x64 .f32) (av : FVec Ideal S64x1 .f32) (r : Fin 8192) :
    kScore xw av (ix2 r 0) = ∑ κ : Fin 64, xw (ix2 r κ) * av (ix2 κ 0) :=
  Cert.LibDot.dot_rows_apply dot_S8192x64_S64x1_S8192x1_1_0_0_1_n_n rfl rfl rfl rfl rfl rfl none xw av r (0 : Fin 1)

theorem colAsRow_apply {α : Type} (x : S8192x1.Idx → α) (j : Fin 8192) :
    shapeCast S1x8192 x shapeCasts_S8192x1_S1x8192 (ix2 (0 : Fin 1) j) = x (ix2 j (0 : Fin 1)) :=
  shapeCast_apply x shapeCasts_S8192x1_S1x8192 (ix2 (0 : Fin 1) j) (ix2 j (0 : Fin 1)) (by
    rw [Shape.rowMajor_val_two, Shape.rowMajor_val_two]
    show j.val * 1 + 0 = 0 * 8192 + j.val
    omega)

theorem kbcast0_apply {α : Type} {t : Shape} (h : S_.BroadcastsInDim t (![] : Fin 0 → Fin t.rank)) (x : S_.Idx → α)
    (j : t.Idx) : broadcastInDim t ![] h x j = x ix0 :=
  broadcastInDim_apply _ h x j ix0 fun a => a.elim0

theorem concat3_apply {α : Type} (p : S8192x64.Idx → α) (o : S8192x1.Idx → α) (z : S8192x63.Idx → α)
    (j : Fin 8192) (q : Fin 128) :
    concatenate S8192x128 1 [⟨S8192x64, p⟩, ⟨S8192x1, o⟩, ⟨S8192x63, z⟩]
        concatenates_S8192x64_S8192x1_S8192x63_S8192x128_d1 (ix2 j q)
      = if h : q.val < 64 then p (ix2 j ⟨q.val, h⟩)
        else if h' : q.val = 64 then o (ix2 j (0 : Fin 1))
        else z (ix2 j ⟨q.val - 65, by omega⟩) := by
  by_cases h : q.val < 64
  · rw [dif_pos h]
    exact concatenate_apply_piece 1 _ _ (ix2 j q) 0 (by show (0 : Nat) < 3; omega) S8192x64 p rfl rfl 0 rfl (ix2 j ⟨q.val, h⟩)
      (fun b => match b with | ⟨0, _⟩ => fun _ => rfl | ⟨1, _⟩ => fun hne => absurd rfl hne) (Nat.zero_add _)
  · rw [dif_neg h]
    by_cases h' : q.val = 64
    · rw [dif_pos h']
      exact concatenate_apply_piece 1 _ _ (ix2 j q) 1 (by show (1 : Nat) < 3; omega) S8192x1 o rfl rfl 64 rfl (ix2 j (0 : Fin 1))
        (fun b => match b with | ⟨0, _⟩ => fun _ => rfl | ⟨1, _⟩ => fun hne => absurd rfl hne) h'.symm
    · rw [dif_neg h']
      exact concatenate_apply_piece 1 _ _ (ix2 j q) 2 (by show (2 : Nat) < 3; omega) S8192x63 z rfl rfl 65 rfl
        (ix2 j ⟨q.val - 65, by omega⟩)
        (fun b => match b with | ⟨0, _⟩ => fun _ => rfl | ⟨1, _⟩ => fun hne => absurd rfl hne)
        (show 65 + (q.val - 65) = q.val by omega)

theorem kPad_apply (p : FVec Ideal S8192x64 .f32) (j : Fin 8192) (q : Fin 128) :
    kPad p (ix2 j q)
      = if h : q.val < 64 then p (ix2 j ⟨q.val, h⟩)
        else if q.val = 64 then Ideal.ofBits .bf16 0x3F80#16 else Ideal.ofBits .bf16 0x0000#16 := by
  unfold kPad
  rw [concat3_apply]
  by_cases h : q.val < 64
  · rw [dif_pos h, dif_pos h]; rfl
  · rw [dif_neg h, dif_neg h]
    by_cases h' : q.val = 64
    · rw [dif_pos h', if_pos h', kbcast0_apply]; rfl
    · rw [dif_neg h', if_neg h', kbcast0_apply]; rfl

theorem v8_apply (c : Dev nD) (j : Fin 8192) :
    (V m c main_v8 : S1x8192.Idx → EReal) (ix2 (0 : Fin 1) j)
      = kScore (kProj (argA1 m c) (argA4 m c)) (kA2 (argA5 m c)) (ix2 j (0 : Fin 1)) := by
  rw [V_v8]; exact colAsRow_apply _ j

theorem v9_apply (c : Dev nD) (j : Fin 8192) :
    (V m c main_v9 : S1x8192.Idx → EReal) (ix2 (0 : Fin 1) j)
      = kScore (kProj (argA0 m c) (argA3 m c)) (kA2 (argA5 m c)) (ix2 j (0 : Fin 1)) := by
  rw [V_v9]; exact colAsRow_apply _ j

theorem v10_apply (c : Dev nD) (q : Fin 64) :
    (V m c main_v10 : S1x64.Idx → EReal) (ix2 (0 : Fin 1) q) = argA6 m c (ix1 q) := by
  rw [V_v10]; exact shapeCast_a_1a_apply (argA6 m c) shapeCasts_S64_S1x64 (0 : Fin 1) q

theorem v11_apply (c : Dev nD) (q : Fin 64) :
    (V m c main_v11 : S1x64.Idx → EReal) (ix2 (0 : Fin 1) q) = argA7 m c (ix1 q) := by
  rw [V_v11]; exact shapeCast_a_1a_apply (argA7 m c) shapeCasts_S64_S1x64 (0 : Fin 1) q

theorem v15_apply (c : Dev nD) (j : Fin 8192) (q : Fin 128) :
    (V m c main_v15 : S8192x128.Idx → EReal) (ix2 j q)
      = if h : q.val < 64 then kProj (argA0 m c) (argA3 m c) (ix2 j ⟨q.val, h⟩)
        else if q.val = 64 then Ideal.ofBits .bf16 0x3F80#16 else Ideal.ofBits .bf16 0x0000#16 := by
  rw [V_v15_pad]; exact kPad_apply _ j q

theorem v17_apply (c : Dev nD) (j : Fin 8192) (q : Fin 128) :
    (V m c main_v17 : S8192x128.Idx → EReal) (ix2 j q)
      = if h : q.val < 64 then kProj (argA1 m c) (argA4 m c) (ix2 j ⟨q.val, h⟩)
        else if q.val = 64 then Ideal.ofBits .bf16 0x3F80#16 else Ideal.ofBits .bf16 0x0000#16 := by
  rw [V_v17_pad]; exact kPad_apply _ j q

end Cert.KernelIdeal.Hand

end
-- ==== Proof.KStep.lean ====
import proofs.«416335_j89953795048031_3_alg».proof.Proof.KShared

noncomputable section

namespace Cert.KernelIdeal.Hand

open Cert.KernelIdeal Cert.KernelIdeal.Gen Cert.KernelIdeal.Facts₀ Cert.KernelIdeal.Facts
open Idealize.ShloMosaic

variable {F : FTy → Type} [FloatOps F]

def slRow (i : grid0.Coords) (X : Vec F S1x8192 .f32) : Vec F S1x512 .f32 :=
  View.ld X (Rect.unit (s := S1x8192) (k0_off1 i) S1x512.size (Facts₀.k0_off1_inb i))

def slMat (i : grid0.Coords) (X : Vec F S8192x128 .bf16) : Vec F S512x128 .bf16 :=
  View.ld X (Rect.unit (s := S8192x128) (k0_off2 i) S512x128.size (Facts₀.k0_off2_inb i))

def stepS (i : grid0.Coords) (x0 : Vec F S1024x1 .f32) (x2 : Vec F S1x8192 .f32) (x4 : Vec F S8192x128 .bf16)
    (x6 : Vec F S1024x512 .i32) (ms : Vec F S1024x1 .f32) (acc : Vec F S1024x128 .f32) :
    Vec F S1024x1 .f32 × Vec F S1024x128 .f32 :=
  (k0_pay19 (k0_pay11 x0 (slRow i x2)) (k0_pay13 x6) ms,
   k0_pay18 (k0_pay9 (slMat i x4)) (k0_pay11 x0 (slRow i x2)) (k0_pay13 x6) ms ms acc)

def stepT (i : grid0.Coords) (x1 : Vec F S1024x1 .f32) (x3 : Vec F S1x8192 .f32) (x5 : Vec F S8192x128 .bf16)
    (x7 : Vec F S512x1024 .i32) (mt : Vec F S1024x1 .f32) (acc : Vec F S1024x128 .f32) :
    Vec F S1024x1 .f32 × Vec F S1024x128 .f32 :=
  (k0_pay2 (k0_pay20 (k0_pay12 x1 (slRow i x3)) (k0_pay14 x7) 0#32 mt),
   k0_pay1 (k0_pay10 (slMat i x5)) (k0_pay21 (k0_pay12 x1 (slRow i x3)) (k0_pay14 x7) 0#32 mt mt)
     (k0_pay22 (k0_pay12 x1 (slRow i x3)) (k0_pay14 x7) 0#32 mt) acc)

end Cert.KernelIdeal.Hand

end
-- ==== Proof.KBlocks.lean ====
import proofs.«416335_j89953795048031_3_alg».proof.Proof.KStep
import Idealize.ShloMosaic.Lib.Pipeline.Value
import Idealize.ShloMosaic.Lib.ValueIdx
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

theorem grow_lt (t : Fin cfg0.N) (p : Fin 1024) : 1024 * (t.val / 16) + p.val < 8192 := by
  have h := t.isLt
  have hN : cfg0.N = 128 := N_0
  omega

theorem gcol_lt (t : Fin cfg0.N) (k : Fin 512) : 512 * (t.val % 16) + k.val < 8192 := by
  have h := k.isLt
  omega

abbrev grow (t : Fin cfg0.N) (p : Fin 1024) : Fin 8192 := ⟨1024 * (t.val / 16) + p.val, grow_lt t p⟩
abbrev gcol (t : Fin cfg0.N) (k : Fin 512) : Fin 8192 := ⟨512 * (t.val % 16) + k.val, gcol_lt t k⟩

theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_6.index t (0 : Fin 2) = t.val / 16 ∧ win0_6.index t (1 : Fin 2) = t.val % 16
    ∧ win0_7.index t (0 : Fin 2) = t.val % 16 ∧ win0_7.index t (1 : Fin 2) = t.val / 16 :=
  (by decide +kernel : ∀ t : Fin grid0.N, _)

theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem off_facts : ∀ t : Fin cfg0.N,
    k0_off1 (grid0.coords t) (0 : Fin 2) = 0 ∧ k0_off1 (grid0.coords t) (1 : Fin 2) = 512 * (t.val % 16)
    ∧ k0_off2 (grid0.coords t) (0 : Fin 2) = 512 * (t.val % 16) ∧ k0_off2 (grid0.coords t) (1 : Fin 2) = 0 :=
  (by decide +kernel : ∀ t : Fin grid0.N, _)

theorem iblk0_apply (c : Dev nD) (t : Fin cfg0.N) (p : Fin 1024) :
    (iblk m c 0 t : Vec F S1024x1 .f32) (ix2 p (0 : Fin 1))
      = (V m c main_v4 : Vec F S8192x1 .f32) (ix2 (grow t p) (0 : Fin 1)) := by
  obtain ⟨e0, e1, -⟩ := idx_facts t
  show V m c main_v4 (((cfg0.win 0).blk t).view.emb (ix2 p (0 : Fin 1))) = V m c main_v4 (ix2 (grow t p) (0 : Fin 1))
  refine congrArg (V m c main_v4) (funext fun a => Fin.ext ?_)
  match a with
  | ⟨0, _⟩ => show win0_0.index t (0 : Fin 2) * 1024 + 1 * p.val = 1024 * (t.val / 16) + p.val; omega
  | ⟨1, _⟩ => show win0_0.index t (1 : Fin 2) * 1 + 1 * 0 = 0; omega

theorem iblk1_apply (c : Dev nD) (t : Fin cfg0.N) (p : Fin 1024) :
    (iblk m c 1 t : Vec F S1024x1 .f32) (ix2 p (0 : Fin 1))
      = (V m c main_v6 : Vec F S8192x1 .f32) (ix2 (grow t p) (0 : Fin 1)) := by
  obtain ⟨-, -, e0, e1, -⟩ := idx_facts t
  show V m c main_v6 (((cfg0.win 1).blk t).view.emb (ix2 p (0 : Fin 1))) = V m c main_v6 (ix2 (grow t p) (0 : Fin 1))
  refine congrArg (V m c main_v6) (funext fun a => Fin.ext ?_)
  match a with
  | ⟨0, _⟩ => show win0_1.index t (0 : Fin 2) * 1024 + 1 * p.val = 1024 * (t.val / 16) + p.val; omega
  | ⟨1, _⟩ => show win0_1.index t (1 : Fin 2) * 1 + 1 * 0 = 0; omega

theorem iblk6_apply (c : Dev nD) (t : Fin cfg0.N) (p : Fin 1024) (k : Fin 512) :
    (iblk m c 6 t : Vec F S1024x512 .i32) (ix2 p k)
      = (V m c main_arg2 : Vec F S8192x8192 .i32) (ix2 (grow t p) (gcol t k)) := by
  obtain ⟨-, -, -, -, e0, e1, -⟩ := idx_facts t
  show V m c main_arg2 (((cfg0.win 6).blk t).view.emb (ix2 p k)) = V m c main_arg2 (ix2 (grow t p) (gcol t k))
  refine congrArg (V m c main_arg2) (funext fun a => Fin.ext ?_)
  match a with
  | ⟨0, _⟩ => show win0_6.index t (0 : Fin 2) * 1024 + 1 * p.val = 1024 * (t.val / 16) + p.val; omega
  | ⟨1, _⟩ => show win0_6.index t (1 : Fin 2) * 512 + 1 * k.val = 512 * (t.val % 16) + k.val; omega

theorem iblk7_apply (c : Dev nD) (t : Fin cfg0.N) (k : Fin 512) (p : Fin 1024) :
    (iblk m c 7 t : Vec F S512x1024 .i32) (ix2 k p)
      = (V m c main_arg2 : Vec F S8192x8192 .i32) (ix2 (gcol t k) (grow t p)) := by
  obtain ⟨-, -, -, -, -, -, e0, e1⟩ := idx_facts t
  show V m c main_arg2 (((cfg0.win 7).blk t).view.emb (ix2 k p)) = V m c main_arg2 (ix2 (gcol t k) (grow t p))
  refine congrArg (V m c main_arg2) (funext fun a => Fin.ext ?_)
  match a with
  | ⟨0, _⟩ => show win0_7.index t (0 : Fin 2) * 512 + 1 * k.val = 512 * (t.val % 16) + k.val; omega
  | ⟨1, _⟩ => show win0_7.index t (1 : Fin 2) * 1024 + 1 * p.val = 1024 * (t.val / 16) + p.val; omega

theorem iblk2_eq (c : Dev nD) (t : Fin cfg0.N) :
    (iblk m c 2 t : Vec F S1x8192 .f32) = (V m c main_v8 : Vec F S1x8192 .f32) := by
  obtain ⟨e0, e1, -⟩ := idx_whole t
  funext y
  show V m c main_v8 (((cfg0.win 2).blk t).view.emb y) = V m c main_v8 y
  refine congrArg (V m c main_v8) (funext fun a => Fin.ext ?_)
  match a with
  | ⟨0, _⟩ => show win0_2.index t (0 : Fin 2) * 1 + 1 * (y 0).val = (y 0).val; omega
  | ⟨1, _⟩ => show win0_2.index t (1 : Fin 2) * 8192 + 1 * (y 1).val = (y 1).val; omega

theorem iblk3_eq (c : Dev nD) (t : Fin cfg0.N) :
    (iblk m c 3 t : Vec F S1x8192 .f32) = (V m c main_v9 : Vec F S1x8192 .f32) := by
  obtain ⟨-, -, e0, e1, -⟩ := idx_whole t
  funext y
  show V m c main_v9 (((cfg0.win 3).blk t).view.emb y) = V m c main_v9 y
  refine congrArg (V m c main_v9) (funext fun a => Fin.ext ?_)
  match a with
  | ⟨0, _⟩ => show win0_3.index t (0 : Fin 2) * 1 + 1 * (y 0).val = (y 0).val; omega
  | ⟨1, _⟩ => show win0_3.index t (1 : Fin 2) * 8192 + 1 * (y 1).val = (y 1).val; omega

theorem iblk4_eq (c : Dev nD) (t : Fin cfg0.N) :
    (iblk m c 4 t : Vec F S8192x128 .bf16) = (V m c main_v15 : Vec F S8192x128 .bf16) := by
  obtain ⟨-, -, -, -, e0, e1, -⟩ := idx_whole t
  funext y
  show V m c main_v15 (((cfg0.win 4).blk t).view.emb y) = V m c main_v15 y
  refine congrArg (V m c main_v15) (funext fun a => Fin.ext ?_)
  match a with
  | ⟨0, _⟩ => show win0_4.index t (0 : Fin 2) * 8192 + 1 * (y 0).val = (y 0).val; omega
  | ⟨1, _⟩ => show win0_4.index t (1 : Fin 2) * 128 + 1 * (y 1).val = (y 1).val; omega

theorem iblk5_eq (c : Dev nD) (t : Fin cfg0.N) :
    (iblk m c 5 t : Vec F S8192x128 .bf16) = (V m c main_v17 : Vec F S8192x128 .bf16) := by
  obtain ⟨-, -, -, -, -, -, e0, e1, -⟩ := idx_whole t
  funext y
  show V m c main_v17 (((cfg0.win 5).blk t).view.emb y) = V m c main_v17 y
  refine congrArg (V m c main_v17) (funext fun a => Fin.ext ?_)
  match a with
  | ⟨0, _⟩ => show win0_5.index t (0 : Fin 2) * 8192 + 1 * (y 0).val = (y 0).val; omega
  | ⟨1, _⟩ => show win0_5.index t (1 : Fin 2) * 128 + 1 * (y 1).val = (y 1).val; omega

theorem iblk8_eq (c : Dev nD) (t : Fin cfg0.N) :
    (iblk m c 8 t : Vec F S1x64 .f32) = (V m c main_v10 : Vec F S1x64 .f32) := by
  obtain ⟨-, -, -, -, -, -, -, -, e0, e1, -⟩ := idx_whole t
  funext y
  show V m c main_v10 (((cfg0.win 8).blk t).view.emb y) = V m c main_v10 y
  refine congrArg (V m c main_v10) (funext fun a => Fin.ext ?_)
  match a with
  | ⟨0, _⟩ => show win0_8.index t (0 : Fin 2) * 1 + 1 * (y 0).val = (y 0).val; omega
  | ⟨1, _⟩ => show win0_8.index t (1 : Fin 2) * 64 + 1 * (y 1).val = (y 1).val; omega

theorem iblk9_eq (c : Dev nD) (t : Fin cfg0.N) :
    (iblk m c 9 t : Vec F S1x64 .f32) = (V m c main_v11 : Vec F S1x64 .f32) := by
  obtain ⟨-, -, -, -, -, -, -, -, -, -, e0, e1⟩ := idx_whole t
  funext y
  show V m c main_v11 (((cfg0.win 9).blk t).view.emb y) = V m c main_v11 y
  refine congrArg (V m c main_v11) (funext fun a => Fin.ext ?_)
  match a with
  | ⟨0, _⟩ => show win0_9.index t (0 : Fin 2) * 1 + 1 * (y 0).val = (y 0).val; omega
  | ⟨1, _⟩ => show win0_9.index t (1 : Fin 2) * 64 + 1 * (y 1).val = (y 1).val; omega

theorem slRow_apply (t : Fin cfg0.N) (X : Vec F S1x8192 .f32) (k : Fin 512) :
    slRow (grid0.coords t) X (ix2 (0 : Fin 1) k) = X (ix2 (0 : Fin 1) (gcol t k)) := by
  obtain ⟨e0, e1, -⟩ := off_facts t
  unfold slRow
  show X _ = X _
  refine congrArg X (funext fun a => Fin.ext ?_)
  match a with
  | ⟨0, _⟩ => show k0_off1 (grid0.coords t) (0 : Fin 2) + 1 * 0 = 0; omega
  | ⟨1, _⟩ => show k0_off1 (grid0.coords t) (1 : Fin 2) + 1 * k.val = 512 * (t.val % 16) + k.val; omega

theorem slMat_apply (t : Fin cfg0.N) (X : Vec F S8192x128 .bf16) (k : Fin 512) (q : Fin 128) :
    slMat (grid0.coords t) X (ix2 k q) = X (ix2 (gcol t k) q) := by
  obtain ⟨-, -, e0, e1⟩ := off_facts t
  unfold slMat
  show X _ = X _
  refine congrArg X (funext fun a => Fin.ext ?_)
  match a with
  | ⟨0, _⟩ => show k0_off2 (grid0.coords t) (0 : Fin 2) + 1 * k.val = 512 * (t.val % 16) + k.val; omega
  | ⟨1, _⟩ => show k0_off2 (grid0.coords t) (1 : Fin 2) + 1 * q.val = q.val; omega

end Cert.KernelIdeal.Hand

end
-- ==== Proof.KPay.lean ====
import proofs.«416335_j89953795048031_3_alg».proof.Proof.Gen.KernelIdeal.Skeleton
import proofs.«416335_j89953795048031_3_alg».proof.Proof.LibDot
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx

section Layout

variable {α : Type}

theorem eq_ix2_col {n : Nat} (j : (⟨2, ![n, 1]⟩ : Shape).Idx) : j = ix2 (j 0) (0 : Fin 1) := by
  funext a
  match a with
  | ⟨0, _⟩ => rfl
  | ⟨1, _⟩ => exact Fin.ext (by show (j 1).val = 0; have := idx2_lt1 j; omega)

theorem eq_ix2_row {n : Nat} (j : (⟨2, ![1, n]⟩ : Shape).Idx) : j = ix2 (0 : Fin 1) (j 1) := by
  funext a
  match a with
  | ⟨0, _⟩ => exact Fin.ext (by show (j 0).val = 0; have := idx2_lt0 j; omega)
  | ⟨1, _⟩ => rfl

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

theorem rowmax_apply (src : FVec Ideal S1024x512 .f32) (h : S1024x512.Reduces [1] S1024) (hφ : FKind.Formats .f32)
    (hacc : (0xFF800000#32 : BitVec 32) = FKind.maximumf.neutral .f32 hφ) (p : Fin 1024) :
    multiReduction (F := Ideal) .maximumf [1] S1024 src 0xFF800000#32 h hφ hacc (ix1 p)
      = (Finset.univ : Finset (Fin 512)).fold max (Ideal.ofBits .f32 0xFF800000#32) (fun k => src (ix2 p k)) := by
  refine (Ideal.multiReduction_maximumf_single src 0xFF800000#32 h hφ hacc (ix1 p)).trans ?_
  show (Finset.univ : Finset (Fin 512)).fold max (Ideal.ofBits .f32 0xFF800000#32) (fun k => src (h.lift (ix1 p) k)) = _
  have e : (fun k : Fin 512 => src (h.lift (ix1 p) k)) = fun k => src (ix2 p k) :=
    funext fun k => congrArg src (funext fun c => by
      match c with
      | ⟨0, _⟩ => rfl
      | ⟨1, _⟩ => rfl)
  exact congrArg (fun f : Fin 512 → EReal => (Finset.univ : Finset (Fin 512)).fold max (Ideal.ofBits .f32 0xFF800000#32) f) e

theorem blockdot_apply {φ₁ φ₂ : FTy} (l : FVec Ideal S1024x512 φ₁) (r : FVec Ideal S512x128 φ₂) (p : Fin 1024) (q : Fin 128) :
    matmul dot_S1024x512_S512x128_S1024x128_1_0_0_1_n_n none l r (constant (F := Ideal) S1024x128 .f32 0x00000000#32) (ix2 p q)
      = ∑ k : Fin 512, l (ix2 p k) * r (ix2 k q) := by
  refine (Cert.LibDot.matmul_rows_apply dot_S1024x512_S512x128_S1024x128_1_0_0_1_n_n rfl rfl rfl rfl rfl rfl none l r _ p q).trans ?_
  show Ideal.ofBits .f32 0x00000000#32 + _ = _
  rw [Ideal.ofBits_zero_f32, zero_add]

theorem pay15_apply (v26 : FVec Ideal S1024x512 .f32) (v35 : IVec S1024x512 1) (p : Fin 1024) (k : Fin 512) :
    k0_pay15 v26 v35 (ix2 p k)
      = if v35 (ix2 p k) = 1#1 then v26 (ix2 p k) else Ideal.ofBits .f32 0xD51184E7#32 := rfl

theorem pay17_apply (v26 : FVec Ideal S1024x512 .f32) (v35 : IVec S1024x512 1) (v44 : Vec Ideal S1024x1 .f32) (p : Fin 1024) :
    k0_pay17 v26 v35 v44 (ix2 p (0 : Fin 1))
      = max (v44 (ix2 p (0 : Fin 1)))
          ((Finset.univ : Finset (Fin 512)).fold max (Ideal.ofBits .f32 0xFF800000#32) (fun k => k0_pay15 v26 v35 (ix2 p k))) := by
  unfold k0_pay17
  refine (maximumf_apply _ _ _).trans ?_
  refine congrArg (max (v44 (ix2 p (0 : Fin 1)))) ?_
  refine (shapeCast_a_a1_apply _ _ p 0).trans ?_
  exact rowmax_apply _ _ _ _ p

theorem pay19_apply (v26 : FVec Ideal S1024x512 .f32) (v35 : IVec S1024x512 1) (v44 : Vec Ideal S1024x1 .f32) :
    k0_pay19 v26 v35 v44 = k0_pay17 v26 v35 v44 := by
  unfold k0_pay19
  exact shapeCast_self _ _

theorem pay18_apply (v17 : FVec Ideal S512x128 .bf16) (v26 : FVec Ideal S1024x512 .f32) (v35 : IVec S1024x512 1)
    (v44 : Vec Ideal S1024x1 .f32) (v48 : Vec Ideal S1024x1 .f32) (v54 : Vec Ideal S1024x128 .f32) (p : Fin 1024) (q : Fin 128) :
    k0_pay18 v17 v26 v35 v44 v48 v54 (ix2 p q)
      = Ideal.exp (v48 (ix2 p (0 : Fin 1)) - k0_pay17 v26 v35 v44 (ix2 p (0 : Fin 1))) * v54 (ix2 p q)
        + ∑ k : Fin 512, Ideal.exp (k0_pay15 v26 v35 (ix2 p k) - k0_pay17 v26 v35 v44 (ix2 p (0 : Fin 1))) * v17 (ix2 k q) := by
  unfold k0_pay18
  refine (congrFun (shapeCast_self _ _) (ix2 p q)).trans ?_
  refine (addf_apply _ _ _).trans ?_
  refine congrArg₂ (· + ·) ?_ ?_
  · refine (mulf_apply _ _ _).trans ?_
    refine congrArg (· * v54 (ix2 p q)) ?_
    exact broadcastTo_a1_ab_apply _ _ p q
  · refine (blockdot_apply _ _ p q).trans ?_
    refine Finset.sum_congr rfl fun k _ => ?_
    refine congrArg (· * v17 (ix2 k q)) ?_
    refine congrArg (fun z => Ideal.exp (k0_pay15 v26 v35 (ix2 p k) - z)) ?_
    exact broadcastTo_a1_ab_apply _ _ p k

theorem pay16_apply (v32 : FVec Ideal S1024x512 .f32) (v37 : IVec S1024x512 32) (p : Fin 1024) (k : Fin 512) :
    k0_pay16 v32 v37 0#32 (ix2 p k)
      = if Scalar.cmpi .sgt (v37 (ix2 p k)) 0#32 = 1#1 then v32 (ix2 p k) else Ideal.ofBits .f32 0xD51184E7#32 := rfl

theorem pay20_apply (v32 : FVec Ideal S1024x512 .f32) (v37 : IVec S1024x512 32) (c0 : BitVec 32) (v66 : Vec Ideal S1024x1 .f32)
    (p : Fin 1024) :
    k0_pay20 v32 v37 c0 v66 (ix2 p (0 : Fin 1))
      = max (v66 (ix2 p (0 : Fin 1)))
          ((Finset.univ : Finset (Fin 512)).fold max (Ideal.ofBits .f32 0xFF800000#32) (fun k => k0_pay16 v32 v37 c0 (ix2 p k))) := by
  unfold k0_pay20
  refine (maximumf_apply _ _ _).trans ?_
  refine congrArg (max (v66 (ix2 p (0 : Fin 1)))) ?_
  refine (shapeCast_a_a1_apply _ _ p 0).trans ?_
  exact rowmax_apply _ _ _ _ p

theorem pay2_apply (v69 : FVec Ideal S1024x1 .f32) : k0_pay2 v69 = v69 := by
  unfold k0_pay2
  exact shapeCast_self _ _

theorem pay21_apply (v32 : FVec Ideal S1024x512 .f32) (v37 : IVec S1024x512 32) (c0 : BitVec 32) (v66 v70 : Vec Ideal S1024x1 .f32)
    (p : Fin 1024) :
    k0_pay21 v32 v37 c0 v66 v70 (ix2 p (0 : Fin 1))
      = Ideal.exp (v70 (ix2 p (0 : Fin 1)) - k0_pay20 v32 v37 c0 v66 (ix2 p (0 : Fin 1))) := rfl

theorem pay22_apply (v32 : FVec Ideal S1024x512 .f32) (v37 : IVec S1024x512 32) (c0 : BitVec 32) (v66 : Vec Ideal S1024x1 .f32)
    (p : Fin 1024) (k : Fin 512) :
    k0_pay22 v32 v37 c0 v66 (ix2 p k)
      = Ideal.exp (k0_pay16 v32 v37 c0 (ix2 p k) - k0_pay20 v32 v37 c0 v66 (ix2 p (0 : Fin 1))) := by
  unfold k0_pay22
  refine congrArg (fun z => Ideal.exp (k0_pay16 v32 v37 c0 (ix2 p k) - z)) ?_
  exact broadcastTo_a1_ab_apply _ _ p k

theorem pay1_apply (v20 : FVec Ideal S512x128 .bf16) (v72 : FVec Ideal S1024x1 .f32) (v75 : FVec Ideal S1024x512 .f32)
    (v76 : Vec Ideal S1024x128 .f32) (p : Fin 1024) (q : Fin 128) :
    k0_pay1 v20 v72 v75 v76 (ix2 p q)
      = v72 (ix2 p (0 : Fin 1)) * v76 (ix2 p q) + ∑ k : Fin 512, v75 (ix2 p k) * v20 (ix2 k q) := by
  unfold k0_pay1
  refine (congrFun (shapeCast_self _ _) (ix2 p q)).trans ?_
  refine (addf_apply _ _ _).trans ?_
  refine congrArg₂ (· + ·) ?_ ?_
  · refine (mulf_apply _ _ _).trans ?_
    refine congrArg (· * v76 (ix2 p q)) ?_
    exact broadcastTo_a1_ab_apply _ _ p q
  · exact blockdot_apply _ _ p q

def lreluM (z : EReal) : EReal := max z (Ideal.ofBits .f32 0x3C23D70A#32 * z)

theorem colrow_add_apply (a : Vec Ideal S1024x1 .f32) (b : Vec Ideal S1x512 .f32)
    (h1 : S1024x1.ShapeCasts S1024x1) (h2 : S1x512.ShapeCasts S1x512)
    (h3 : S1024x1.Broadcasts S1024x512) (h4 : S1x512.Broadcasts S1024x512) (p : Fin 1024) (k : Fin 512) :
    addf (F := Ideal) (φ := .f32) (broadcastTo S1024x512 (shapeCast S1024x1 a h1) h3) (broadcastTo S1024x512 (shapeCast S1x512 b h2) h4) (ix2 p k)
      = a (ix2 p (0 : Fin 1)) + b (ix2 (0 : Fin 1) k) := by
  rw [shapeCast_self, shapeCast_self]
  refine (addf_apply _ _ _).trans ?_
  exact congrArg₂ (· + ·) (broadcastTo_a1_ab_apply _ _ p k) (broadcastTo_1b_ab_apply _ _ p k)

theorem pay11_apply (v3 : Vec Ideal S1024x1 .f32) (v10 : Vec Ideal S1x512 .f32) (p : Fin 1024) (k : Fin 512) :
    k0_pay11 (F := Ideal) v3 v10 (ix2 p k) = lreluM (v3 (ix2 p (0 : Fin 1)) + v10 (ix2 (0 : Fin 1) k)) := by
  unfold k0_pay11
  exact congrArg lreluM (colrow_add_apply v3 v10 _ _ _ _ p k)

theorem pay12_apply (v5 : Vec Ideal S1024x1 .f32) (v13 : Vec Ideal S1x512 .f32) (p : Fin 1024) (k : Fin 512) :
    k0_pay12 (F := Ideal) v5 v13 (ix2 p k) = lreluM (v5 (ix2 p (0 : Fin 1)) + v13 (ix2 (0 : Fin 1) k)) := by
  unfold k0_pay12
  exact congrArg lreluM (colrow_add_apply v5 v13 _ _ _ _ p k)

theorem pay13_apply (v33 : Vec Ideal S1024x512 .i32) (p : Fin 1024) (k : Fin 512) :
    k0_pay13 (F := Ideal) v33 (ix2 p k) = Scalar.cmpi .sgt (v33 (ix2 p k)) 0#32 := rfl

theorem pay14_apply (v36 : Vec Ideal S512x1024 .i32) (p : Fin 1024) (k : Fin 512) :
    k0_pay14 (F := Ideal) v36 (ix2 p k) = v36 (ix2 k p) := by
  unfold k0_pay14
  exact transpose_ix2_apply _ _ p k

theorem pay9_apply (v16 : Vec Ideal S512x128 .bf16) : k0_pay9 (F := Ideal) v16 = v16 := by
  unfold k0_pay9
  exact shapeCast_self _ _

theorem pay10_apply (v19 : Vec Ideal S512x128 .bf16) : k0_pay10 (F := Ideal) v19 = v19 := by
  unfold k0_pay10
  exact shapeCast_self _ _

theorem pay5_apply (p : Fin 1024) : k0_pay5 (F := Ideal) (ix2 p (0 : Fin 1)) = Ideal.ofBits .f32 0xFF800000#32 := by
  unfold k0_pay5
  exact congrFun (shapeCast_self _ _) (ix2 p (0 : Fin 1))

theorem pay7_apply (p : Fin 1024) : k0_pay7 (F := Ideal) (ix2 p (0 : Fin 1)) = Ideal.ofBits .f32 0xFF800000#32 := by
  unfold k0_pay7
  exact congrFun (shapeCast_self _ _) (ix2 p (0 : Fin 1))

theorem pay6_apply (p : Fin 1024) (q : Fin 128) : k0_pay6 (F := Ideal) (ix2 p q) = 0 := by
  unfold k0_pay6
  refine (congrFun (shapeCast_self _ _) (ix2 p q)).trans ?_
  exact Ideal.ofBits_zero_f32

theorem pay8_apply (p : Fin 1024) (q : Fin 128) : k0_pay8 (F := Ideal) (ix2 p q) = 0 := by
  unfold k0_pay8
  refine (congrFun (shapeCast_self _ _) (ix2 p q)).trans ?_
  exact Ideal.ofBits_zero_f32

def eluK (x : EReal) : EReal := if 0 < x then x else Ideal.exp x - Ideal.ofBits .f32 0x3F800000#32

theorem elu_select (x : EReal) :
    Scalar.select (FloatOps.cmpf (F := Ideal) (φ := .f32) .ogt x (Scalar.ofBits .f32 0x00000000#32)) x
        (FloatOps.subf (F := Ideal) (φ := .f32) (FloatOps.exp (F := Ideal) (φ := .f32) x) (Scalar.ofBits .f32 0x3F800000#32))
      = eluK x := by
  show (if Ideal.cmp .ogt x (Ideal.ofBits .f32 0x00000000#32) = 1 then x else Ideal.exp x - Ideal.ofBits .f32 0x3F800000#32) = _
  unfold eluK Ideal.cmp
  rw [Ideal.ofBits_zero_f32]
  by_cases h : 0 < x
  · rw [if_pos h, if_pos (by simp [h])]
  · rw [if_neg h, if_neg (by simp [h])]

theorem normbias_apply (v91 : Vec Ideal S1024x128 .f32) (v98 : Vec Ideal S1x64 .f32)
    (h1 : S1024x128.Slices ![0, 64] S1024x1) (h2 : S1024x128.Slices ![0, 0] S1024x64) (h3 : S1024x1.Broadcasts S1024x64)
    (h4 : S1x64.ShapeCasts S1x64) (h5 : S1x64.Broadcasts S1024x64) (p : Fin 1024) (q : Fin 64) :
    addf (F := Ideal) (φ := .f32)
        (divf (extractStridedSlice S1024x64 ![0, 0] v91 h2) (broadcastTo S1024x64 (extractStridedSlice S1024x1 ![0, 64] v91 h1) h3))
        (broadcastTo S1024x64 (shapeCast S1x64 v98 h4) h5) (ix2 p q)
      = Ideal.div (v91 (ix2 p ⟨q.val, by omega⟩)) (v91 (ix2 p ⟨64, by omega⟩)) + v98 (ix2 (0 : Fin 1) q) := by
  rw [shapeCast_self]
  refine (addf_apply _ _ _).trans ?_
  refine congrArg₂ (· + ·) ?_ (broadcastTo_1b_ab_apply _ _ p q)
  refine (divf_apply _ _ _).trans ?_
  refine congrArg₂ Ideal.div ?_ ?_
  · exact slice2_axis1_apply 0 v91 h2 p q ⟨q.val, by omega⟩ (Nat.zero_add _).symm
  · refine (broadcastTo_a1_ab_apply _ _ p q).trans ?_
    exact slice2_axis1_apply 64 v91 h1 p (0 : Fin 1) ⟨64, by omega⟩ rfl

theorem pay3_apply (v91 : Vec Ideal S1024x128 .f32) (v98 : Vec Ideal S1x64 .f32) (p : Fin 1024) (q : Fin 64) :
    k0_pay3 v91 v98 (ix2 p q)
      = eluK (Ideal.div (v91 (ix2 p ⟨q.val, by omega⟩)) (v91 (ix2 p ⟨64, by omega⟩)) + v98 (ix2 (0 : Fin 1) q)) := by
  unfold k0_pay3
  refine (elu_select _).trans ?_
  exact congrArg eluK (normbias_apply v91 v98 _ _ _ _ _ p q)

theorem pay4_apply (v92 : Vec Ideal S1024x128 .f32) (v105 : Vec Ideal S1x64 .f32) (p : Fin 1024) (q : Fin 64) :
    k0_pay4 v92 v105 (ix2 p q)
      = eluK (Ideal.div (v92 (ix2 p ⟨q.val, by omega⟩)) (v92 (ix2 p ⟨64, by omega⟩)) + v105 (ix2 (0 : Fin 1) q)) := by
  unfold k0_pay4
  refine (elu_select _).trans ?_
  exact congrArg eluK (normbias_apply v92 v105 _ _ _ _ _ p q)

end Cert.KernelIdeal.Hand

end
-- ==== Proof.LibOnlineSoftmax.lean ====
import Idealize.ShloMosaic.PureOps.Ideal
import Mathlib.Data.EReal.Operations
import Mathlib.Data.EReal.Inv
import Mathlib.Analysis.SpecialFunctions.Exp
import Mathlib.Algebra.BigOperators.Group.Finset.Basic
import Mathlib.Algebra.BigOperators.Fin
import Mathlib.Algebra.Order.BigOperators.Ring.Finset
import Mathlib.Data.Finset.Lattice.Fold
import Mathlib.Logic.Equiv.Fin.Basic
import Mathlib.Data.Fintype.BigOperators

noncomputable section

namespace OnlineSoftmax

open Idealize.ShloMosaic
open scoped BigOperators

theorem coe_max (a b : ℝ) : ((max a b : ℝ) : EReal) = max (a : EReal) (b : EReal) :=
  EReal.coe_strictMono.monotone.map_max

theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem fold_max_coe {ι : Type*} (s : Finset ι) (hs : s.Nonempty) (f : ι → ℝ) :
    s.fold max ⊥ (fun j => ((f j : ℝ) : EReal)) = ((s.sup' hs f : ℝ) : EReal) := by
  classical
  induction hs using Finset.Nonempty.cons_induction with
  | singleton a => simp
  | cons a s ha hs ih =>
    rw [Finset.fold_cons, ih, Finset.sup'_cons hs, coe_max]

theorem fold_max_coe_univ {k : ℕ} [NeZero k] (f : Fin k → ℝ) :
    (Finset.univ : Finset (Fin k)).fold max ⊥ (fun j => ((f j : ℝ) : EReal))
      = ((Finset.univ.sup' Finset.univ_nonempty f : ℝ) : EReal) :=
  fold_max_coe _ _ f

variable {bs : ℕ} [NeZero bs]

def mSeq (e : ℕ → Fin bs → ℝ) : ℕ → EReal
  | 0 => ⊥
  | b+1 => max (mSeq e b) ((Finset.univ : Finset (Fin bs)).fold max ⊥ (fun k => ((e b k : ℝ) : EReal)))

def aSeq (e x : ℕ → Fin bs → ℝ) : ℕ → EReal
  | 0 => 0
  | b+1 => Ideal.exp (mSeq e b - mSeq e (b+1)) * aSeq e x b
      + ∑ k : Fin bs, Ideal.exp (((e b k : ℝ) : EReal) - mSeq e (b+1)) * ((x b k : ℝ) : EReal)

theorem mSeq_zero (e : ℕ → Fin bs → ℝ) : mSeq e 0 = ⊥ := rfl

theorem mSeq_succ (e : ℕ → Fin bs → ℝ) (b : ℕ) :
    mSeq e (b+1) = max (mSeq e b) ((Finset.univ : Finset (Fin bs)).fold max ⊥ (fun k => ((e b k : ℝ) : EReal))) := rfl

theorem aSeq_zero (e x : ℕ → Fin bs → ℝ) : aSeq e x 0 = 0 := rfl

theorem aSeq_succ (e x : ℕ → Fin bs → ℝ) (b : ℕ) :
    aSeq e x (b+1) = Ideal.exp (mSeq e b - mSeq e (b+1)) * aSeq e x b
      + ∑ k : Fin bs, Ideal.exp (((e b k : ℝ) : EReal) - mSeq e (b+1)) * ((x b k : ℝ) : EReal) := rfl

def rowMax (e : ℕ → Fin bs → ℝ) (b : ℕ) : ℝ := Finset.univ.sup' Finset.univ_nonempty (e b)

def Mtot (e : ℕ → Fin bs → ℝ) : ℕ → ℝ
  | 0 => 0
  | 1 => rowMax e 0
  | n+2 => max (Mtot e (n+1)) (rowMax e (n+1))

theorem Mtot_one (e : ℕ → Fin bs → ℝ) : Mtot e 1 = rowMax e 0 := rfl

theorem Mtot_succ_succ (e : ℕ → Fin bs → ℝ) (n : ℕ) :
    Mtot e (n+2) = max (Mtot e (n+1)) (rowMax e (n+1)) := rfl

theorem le_rowMax (e : ℕ → Fin bs → ℝ) (b : ℕ) (k : Fin bs) : e b k ≤ rowMax e b :=
  Finset.le_sup' (e b) (Finset.mem_univ k)

theorem exists_eq_rowMax (e : ℕ → Fin bs → ℝ) (b : ℕ) : ∃ k, rowMax e b = e b k := by
  obtain ⟨k, -, hk⟩ := Finset.exists_mem_eq_sup' Finset.univ_nonempty (e b)
  exact ⟨k, hk⟩

theorem Mtot_le_succ (e : ℕ → Fin bs → ℝ) (n : ℕ) : Mtot e (n+1) ≤ Mtot e (n+2) := le_max_left _ _
theorem le_Mtot (e : ℕ → Fin bs → ℝ) {n b : ℕ} (hb : b < n) (k : Fin bs) : e b k ≤ Mtot e n := by
  induction n with
  | zero => omega
  | succ n ih =>
    cases n with
    | zero =>
      obtain rfl : b = 0 := by omega
      exact le_rowMax e 0 k
    | succ n =>
      rw [Mtot_succ_succ]
      rcases Nat.lt_succ_iff_lt_or_eq.1 hb with h | rfl
      · exact (ih h).trans (le_max_left _ _)
      · exact (le_rowMax e _ k).trans (le_max_right _ _)

theorem exists_eq_Mtot (e : ℕ → Fin bs → ℝ) {n : ℕ} (hn : 0 < n) : ∃ b, b < n ∧ ∃ k, Mtot e n = e b k := by
  induction n with
  | zero => omega
  | succ n ih =>
    cases n with
    | zero =>
      obtain ⟨k, hk⟩ := exists_eq_rowMax e 0
      exact ⟨0, Nat.zero_lt_one, k, hk⟩
    | succ n =>
      rw [Mtot_succ_succ]
      rcases max_cases (Mtot e (n+1)) (rowMax e (n+1)) with ⟨h, -⟩ | ⟨h, -⟩
      · obtain ⟨b, hb, k, hk⟩ := ih (Nat.succ_pos n)
        exact ⟨b, Nat.lt_succ_of_lt hb, k, h.trans hk⟩
      · obtain ⟨k, hk⟩ := exists_eq_rowMax e (n+1)
        exact ⟨n+1, Nat.lt_succ_self _, k, h.trans hk⟩

theorem mSeq_eq (e : ℕ → Fin bs → ℝ) (n : ℕ) (hn : 0 < n) : mSeq e n = ((Mtot e n : ℝ) : EReal) := by
  induction n with
  | zero => omega
  | succ n ih =>
    cases n with
    | zero =>
      rw [mSeq_succ, mSeq_zero, fold_max_coe_univ, Mtot_one, rowMax]
      exact max_eq_right bot_le
    | succ n =>
      rw [mSeq_succ, ih (Nat.succ_pos n), fold_max_coe_univ, Mtot_succ_succ, coe_max, rowMax]

theorem block_sum_coe (e x : ℕ → Fin bs → ℝ) (b : ℕ) (M : ℝ) :
    ∑ k : Fin bs, Ideal.exp (((e b k : ℝ) : EReal) - (M : EReal)) * ((x b k : ℝ) : EReal)
      = ((∑ k : Fin bs, Real.exp (e b k - M) * x b k : ℝ) : EReal) := by
  rw [coe_sum]
  refine Finset.sum_congr rfl fun k _ => ?_
  rw [← EReal.coe_sub, Ideal.exp_coe, ← EReal.coe_mul]

theorem rescale (e x : ℕ → Fin bs → ℝ) (n : ℕ) (M M' : ℝ) :
    Real.exp (M - M') * ∑ b ∈ Finset.range n, ∑ k : Fin bs, Real.exp (e b k - M) * x b k
      = ∑ b ∈ Finset.range n, ∑ k : Fin bs, Real.exp (e b k - M') * x b k := by
  rw [Finset.mul_sum]
  refine Finset.sum_congr rfl fun b _ => ?_
  rw [Finset.mul_sum]
  refine Finset.sum_congr rfl fun k _ => ?_
  rw [← mul_assoc, ← Real.exp_add]
  congr 2
  ring

theorem aSeq_eq (e x : ℕ → Fin bs → ℝ) (n : ℕ) (hn : 0 < n) :
    aSeq e x n
      = ((∑ b ∈ Finset.range n, ∑ k : Fin bs, Real.exp (e b k - Mtot e n) * x b k : ℝ) : EReal) := by
  induction n with
  | zero => omega
  | succ n ih =>
    cases n with
    | zero =>
      rw [aSeq_succ, mSeq_zero, aSeq_zero, mSeq_eq e (0+1) Nat.zero_lt_one, EReal.bot_sub, Ideal.exp_bot,
        zero_mul, zero_add, block_sum_coe, Finset.sum_range_one]
    | succ n =>
      rw [aSeq_succ, ih (Nat.succ_pos n), mSeq_eq e (n+1) (Nat.succ_pos n),
        mSeq_eq e (n+1+1) (Nat.succ_pos _), ← EReal.coe_sub, Ideal.exp_coe, ← EReal.coe_mul, rescale,
        block_sum_coe, ← EReal.coe_add, ← Finset.sum_range_succ]

theorem aSeq_one_pos (e : ℕ → Fin bs → ℝ) (n : ℕ) (hn : 0 < n) :
    ∃ L : ℝ, 0 < L ∧ aSeq e (fun _ _ => 1) n = (L : EReal) := by
  refine ⟨_, ?_, aSeq_eq e _ n hn⟩
  refine Finset.sum_pos (fun b _ => Finset.sum_pos (fun k _ => ?_) Finset.univ_nonempty)
    ⟨0, Finset.mem_range.2 hn⟩
  simp only [mul_one]
  exact Real.exp_pos _

theorem ref_row {N : ℕ} [NeZero N] (ef xf : Fin N → ℝ) :
    let Mx : EReal := max ⊥ ((Finset.univ : Finset (Fin N)).fold max ⊥ fun j => ((ef j : ℝ) : EReal))
    let u : Fin N → EReal := fun j => Ideal.exp (((ef j : ℝ) : EReal) - Mx)
    let Lr : EReal := 0 + ∑ j, u j
    (∑ j, Ideal.div (u j) Lr * ((xf j : ℝ) : EReal))
      = ((∑ j, (Real.exp (ef j - Finset.univ.sup' Finset.univ_nonempty ef)
          / ∑ j', Real.exp (ef j' - Finset.univ.sup' Finset.univ_nonempty ef)) * xf j : ℝ) : EReal) := by
  intro Mx u Lr
  have hMx : Mx = ((Finset.univ.sup' Finset.univ_nonempty ef : ℝ) : EReal) := by
    show max ⊥ _ = _
    rw [fold_max_coe_univ]
    exact max_eq_right bot_le
  have hu : ∀ j, u j = ((Real.exp (ef j - Finset.univ.sup' Finset.univ_nonempty ef) : ℝ) : EReal) := by
    intro j
    show Ideal.exp (_ - Mx) = _
    rw [hMx, ← EReal.coe_sub, Ideal.exp_coe]
  have hL : Lr = ((∑ j, Real.exp (ef j - Finset.univ.sup' Finset.univ_nonempty ef) : ℝ) : EReal) := by
    show 0 + ∑ j, u j = _
    rw [zero_add, coe_sum]
    exact Finset.sum_congr rfl fun j _ => hu j
  have hLpos : 0 < ∑ j, Real.exp (ef j - Finset.univ.sup' Finset.univ_nonempty ef) :=
    Finset.sum_pos (fun j _ => Real.exp_pos _) Finset.univ_nonempty
  rw [coe_sum]
  refine Finset.sum_congr rfl fun j _ => ?_
  rw [hL, hu, Ideal.div_coe hLpos.ne', ← EReal.coe_mul, ← EReal.coe_mul, mul_one_div]

def blk {n : ℕ} (f : Fin (n * bs) → ℝ) : ℕ → Fin bs → ℝ :=
  fun b k => if h : b * bs + k.val < n * bs then f ⟨b * bs + k.val, h⟩ else 0

theorem blk_lt {n b : ℕ} (hb : b < n) (k : Fin bs) : b * bs + k.val < n * bs :=
  calc b * bs + k.val < b * bs + bs := Nat.add_lt_add_left k.isLt _
    _ = (b + 1) * bs := (Nat.succ_mul b bs).symm
    _ ≤ n * bs := Nat.mul_le_mul_right _ hb

theorem blk_apply {n : ℕ} (f : Fin (n * bs) → ℝ) {b : ℕ} (hb : b < n) (k : Fin bs) :
    blk f b k = f ⟨b * bs + k.val, blk_lt hb k⟩ :=
  dif_pos _

theorem sum_blk {n : ℕ} (G : ℕ → Fin bs → ℝ) (g : Fin (n * bs) → ℝ)
    (h : ∀ b (hb : b < n) (k : Fin bs), G b k = g ⟨b * bs + k.val, blk_lt hb k⟩) :
    ∑ b ∈ Finset.range n, ∑ k : Fin bs, G b k = ∑ j, g j := by
  rw [Finset.sum_range fun b => ∑ k : Fin bs, G b k,
    ← Fintype.sum_prod_type' (fun (b : Fin n) (k : Fin bs) => G b k)]
  refine Fintype.sum_equiv finProdFinEquiv _ _ fun p => ?_
  rw [h p.1 p.1.isLt p.2]
  congr 1
  apply Fin.ext
  simp only [finProdFinEquiv, Equiv.coe_fn_mk]
  rw [Nat.mul_comm, Nat.add_comm]

theorem Mtot_blk {n : ℕ} (hn : 0 < n) [NeZero (n * bs)] (ef : Fin (n * bs) → ℝ) :
    Mtot (blk ef) n = Finset.univ.sup' Finset.univ_nonempty ef := by
  apply le_antisymm
  · obtain ⟨b, hb, k, hk⟩ := exists_eq_Mtot (blk ef) hn
    rw [hk, blk_apply ef hb k]
    exact Finset.le_sup' ef (Finset.mem_univ _)
  · refine Finset.sup'_le _ _ fun j _ => ?_
    have hbs : 0 < bs := Nat.pos_of_ne_zero (NeZero.ne bs)
    have hb : j.val / bs < n := (Nat.div_lt_iff_lt_mul hbs).2 j.isLt
    have hj : ef j = blk ef (j.val / bs) ⟨j.val % bs, Nat.mod_lt _ hbs⟩ := by
      rw [blk_apply ef hb]
      congr 1
      apply Fin.ext
      exact (Nat.div_add_mod' j.val bs).symm
    rw [hj]
    exact le_Mtot (blk ef) hb _

theorem online_eq_ref (n : ℕ) (hn : 0 < n) (ef xf : Fin (n * bs) → ℝ) :
    Ideal.div (aSeq (blk ef) (blk xf) n) (aSeq (blk ef) (fun _ _ => 1) n)
      = (let Mx : EReal := max ⊥ ((Finset.univ : Finset (Fin (n * bs))).fold max ⊥ fun j => ((ef j : ℝ) : EReal))
         let u := fun j => Ideal.exp (((ef j : ℝ) : EReal) - Mx)
         let Lr : EReal := 0 + ∑ j, u j
         ∑ j, Ideal.div (u j) Lr * ((xf j : ℝ) : EReal)) := by
  haveI : NeZero (n * bs) := ⟨Nat.mul_ne_zero hn.ne' (NeZero.ne bs)⟩
  refine Eq.trans ?_ (ref_row ef xf).symm
  have hN : (∑ b ∈ Finset.range n, ∑ k : Fin bs, Real.exp (blk ef b k - Mtot (blk ef) n) * blk xf b k)
      = ∑ j, Real.exp (ef j - Mtot (blk ef) n) * xf j :=
    sum_blk (fun b k => Real.exp (blk ef b k - Mtot (blk ef) n) * blk xf b k)
      (fun j => Real.exp (ef j - Mtot (blk ef) n) * xf j)
      fun b hb k => by rw [blk_apply ef hb, blk_apply xf hb]
  have hD : (∑ b ∈ Finset.range n, ∑ k : Fin bs, Real.exp (blk ef b k - Mtot (blk ef) n) * (1 : ℝ))
      = ∑ j, Real.exp (ef j - Mtot (blk ef) n) :=
    sum_blk (fun b k => Real.exp (blk ef b k - Mtot (blk ef) n) * (1 : ℝ))
      (fun j => Real.exp (ef j - Mtot (blk ef) n))
      fun b hb k => by rw [blk_apply ef hb, mul_one]
  have hLpos : 0 < ∑ j, Real.exp (ef j - Mtot (blk ef) n) :=
    Finset.sum_pos (fun j _ => Real.exp_pos _) Finset.univ_nonempty
  have hA1 := aSeq_eq (blk ef) (blk xf) n hn
  have hA2 := aSeq_eq (blk ef) (fun _ _ => 1) n hn
  rw [hA1, hA2, hN, hD, Ideal.div_coe hLpos.ne', ← EReal.coe_mul, Mtot_blk hn ef]
  congr 1
  rw [Finset.sum_mul]
  refine Finset.sum_congr rfl fun j _ => ?_
  ring

theorem online_eq_real (n : ℕ) (hn : 0 < n) [NeZero (n * bs)] (ef xf : Fin (n * bs) → ℝ) :
    Ideal.div (aSeq (blk ef) (blk xf) n) (aSeq (blk ef) (fun _ _ => 1) n)
      = ((∑ j, (Real.exp (ef j - Finset.univ.sup' Finset.univ_nonempty ef)
          / ∑ j', Real.exp (ef j' - Finset.univ.sup' Finset.univ_nonempty ef)) * xf j : ℝ) : EReal) :=
  (online_eq_ref n hn ef xf).trans (ref_row ef xf)

theorem leaky_max (s z : ℝ) (hs0 : 0 ≤ s) (hs1 : s ≤ 1) :
    max (z : EReal) ((s : EReal) * (z : EReal)) = ((if 0 < z then z else s * z : ℝ) : EReal) := by
  rw [← EReal.coe_mul, ← coe_max]
  congr 1
  split_ifs with h
  · exact max_eq_left (by nlinarith [mul_nonneg (sub_nonneg.2 hs1) h.le])
  · exact max_eq_right (by nlinarith [mul_nonneg (sub_nonneg.2 hs1) (neg_nonneg.2 (not_lt.1 h))])

theorem elu_forms (x : EReal) :
    (if 0 < x then x else Ideal.exp x - 1)
      = (if 0 < x then x else 1 * (Ideal.exp (if 0 < x then 0 else x) - 1)) := by
  split_ifs with h
  · rfl
  · rw [one_mul]

theorem slope_lit : ∃ s : ℝ, 0 ≤ s ∧ s ≤ 1 ∧ Ideal.ofBits .f32 0x3C23D70A#32 = (s : EReal) := by
  refine ⟨10737418 * (2 : ℝ) ^ (-30 : ℤ), by positivity, by norm_num, ?_⟩
  simp [Ideal.ofBits, Ideal.ieee, -EReal.coe_mul]

theorem fill_lit : ∃ r : ℝ, Ideal.ofBits .f32 0xD51184E7#32 = (r : EReal) := by
  refine ⟨-(9536743 * (2 : ℝ) ^ (20 : ℤ)), ?_⟩
  simp [Ideal.ofBits, Ideal.ieee, -EReal.coe_mul]

theorem neg_inf_lit : Ideal.ofBits .f32 0xFF800000#32 = ⊥ := by
  simp [Ideal.ofBits, Ideal.ieee]

theorem one_f32_lit : Ideal.ofBits .f32 0x3F800000#32 = 1 := by
  simp [Ideal.ofBits, Ideal.ieee, -EReal.coe_mul]
  norm_num

theorem one_bf16_lit : Ideal.ofBits .bf16 0x3F80#16 = 1 := by
  simp [Ideal.ofBits, Ideal.ieee, -EReal.coe_mul]
  norm_num

theorem zero_bf16_lit : Ideal.ofBits .bf16 0x0000#16 = 0 := by
  simp [Ideal.ofBits, Ideal.ieee]

end OnlineSoftmax

end
-- ==== Proof.PreFinite.lean ====
import proofs.«416335_j89953795048031_3_alg».proof.Pre_finite_inputs
import proofs.«416335_j89953795048031_3_alg».proof.Proof.Gen.Pre_finite_inputs
import Idealize.ShloMosaic.PureOps.Ideal
import Idealize.ShloMosaic.Lib.ReduceAll
import Idealize.ShloMosaic.Lib.ValueIdx
import proofs.«416335_j89953795048031_3_alg».proof.Proof.LibOnlineSoftmax

noncomputable section

namespace Cert.PreFinite

open Idealize.ShloMosaic Cert.Pre_finite_inputs
open scoped BigOperators

theorem add_real {a b : EReal} (ha : ∃ x : ℝ, a = x) (hb : ∃ x : ℝ, b = x) : ∃ x : ℝ, a + b = (x : EReal) := by
  obtain ⟨x, rfl⟩ := ha
  obtain ⟨y, rfl⟩ := hb
  exact ⟨x + y, (EReal.coe_add x y).symm⟩

theorem mul_real {a b : EReal} (ha : ∃ x : ℝ, a = x) (hb : ∃ x : ℝ, b = x) : ∃ x : ℝ, a * b = (x : EReal) := by
  obtain ⟨x, rfl⟩ := ha
  obtain ⟨y, rfl⟩ := hb
  exact ⟨x * y, (EReal.coe_mul x y).symm⟩

theorem max_real {a b : EReal} (ha : ∃ x : ℝ, a = x) (hb : ∃ x : ℝ, b = x) : ∃ x : ℝ, max a b = (x : EReal) := by
  obtain ⟨x, rfl⟩ := ha
  obtain ⟨y, rfl⟩ := hb
  exact ⟨max x y, (OnlineSoftmax.coe_max x y).symm⟩

theorem sum_real {K : ℕ} (f : Fin K → EReal) (hf : ∀ k, ∃ x : ℝ, f k = x) : ∃ x : ℝ, (∑ k, f k) = (x : EReal) := by
  choose g hg using hf
  exact ⟨∑ k, g k, by rw [OnlineSoftmax.coe_sum]; exact Finset.sum_congr rfl fun k _ => hg k⟩

theorem sum_mul_real {K : ℕ} (l r : Fin K → EReal) (hl : ∀ k, ∃ x : ℝ, l k = x) (hr : ∀ k, ∃ x : ℝ, r k = x) :
    ∃ x : ℝ, (∑ k, l k * r k) = (x : EReal) :=
  sum_real _ fun k => mul_real (hl k) (hr k)

theorem pos_inf_lit : Ideal.ofBits .f32 0x7F800000#32 = ⊤ := by
  simp [Ideal.ofBits, Ideal.ieee]

theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

theorem ofBool_eq_one {b : Bool} : BitVec.ofBool b = 1#1 ↔ b = true := by cases b <;> decide

theorem real_of_test {s : Shape} (hb : S_.BroadcastsInDim s (![] : Fin 0 → Fin s.rank)) (x : FVec Ideal s .f32)
    (i : s.Idx)
    (h : cmpf .olt (Host.absf x) (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [pos_inf_lit] at h'
  simp only [Ideal.cmp, ofBool_eq_one, decide_eq_true_eq] at h'
  exact real_of_abs_lt_top _ h'

instance : Subsingleton S_.Idx := ⟨fun a b => funext fun d => d.elim0⟩

variable [Facts]

theorem finite_of_pre (a0 a1 : FVec Ideal S8192x128 .f32) (a2 : IVec S8192x8192 32) (a3 a4 : FVec Ideal S128x64 .f32)
    (a5 : FVec Ideal S128x1 .f32) (a6 a7 : FVec Ideal S64 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a3 i = r)
      ∧ (∀ i, ∃ r : ℝ, a4 i = r) ∧ (∀ i, ∃ r : ℝ, a5 i = r) ∧ (∀ i, ∃ r : ℝ, a6 i = r) ∧ (∀ i, ∃ r : ℝ, a7 i = r) := by
  have e := congrFun h ValueIdx.ix0
  dsimp only [fn, fn_part1] at e
  simp only [andi, IntOp.andi_eq_one] at e
  obtain ⟨⟨⟨⟨⟨⟨h0, h1⟩, h3⟩, h4⟩, h5⟩, h6⟩, h7⟩ := e
  exact ⟨fun i => real_of_test _ a0 i (Host.reduce_andi_all _ _ _ _ _ h0 i),
    fun i => real_of_test _ a1 i (Host.reduce_andi_all _ _ _ _ _ h1 i),
    fun i => real_of_test _ a3 i (Host.reduce_andi_all _ _ _ _ _ h3 i),
    fun i => real_of_test _ a4 i (Host.reduce_andi_all _ _ _ _ _ h4 i),
    fun i => real_of_test _ a5 i (Host.reduce_andi_all _ _ _ _ _ h5 i),
    fun i => real_of_test _ a6 i (Host.reduce_andi_all _ _ _ _ _ h6 i),
    fun i => real_of_test _ a7 i (Host.reduce_andi_all _ _ _ _ _ h7 i)⟩

end Cert.PreFinite

end
-- ==== Proof.KBlockVal.lean ====
import proofs.«416335_j89953795048031_3_alg».proof.Proof.KHost
import proofs.«416335_j89953795048031_3_alg».proof.Proof.KBlocks
import proofs.«416335_j89953795048031_3_alg».proof.Proof.KStep
import proofs.«416335_j89953795048031_3_alg».proof.Proof.KPay
import proofs.«416335_j89953795048031_3_alg».proof.Proof.PreFinite

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

abbrev sS1 (c : Dev nD) : FVec Ideal S8192x1 .f32 := kScore (kProj (argA0 m c) (argA3 m c)) (kA1 (argA5 m c))
abbrev sS2 (c : Dev nD) : FVec Ideal S8192x1 .f32 := kScore (kProj (argA0 m c) (argA3 m c)) (kA2 (argA5 m c))
abbrev sT1 (c : Dev nD) : FVec Ideal S8192x1 .f32 := kScore (kProj (argA1 m c) (argA4 m c)) (kA1 (argA5 m c))
abbrev sT2 (c : Dev nD) : FVec Ideal S8192x1 .f32 := kScore (kProj (argA1 m c) (argA4 m c)) (kA2 (argA5 m c))

theorem blk0_of (c : Dev nD) (t : Fin cfg0.N) (p : Fin 1024) :
    (iblk m c 0 t : Vec Ideal S1024x1 .f32) (ix2 p (0 : Fin 1)) = sS1 m c (ix2 (grow t p) (0 : Fin 1)) :=
  (iblk0_apply m c t p).trans (congrFun (V_v4 m c) (ix2 (grow t p) (0 : Fin 1)))

theorem blk1_of (c : Dev nD) (t : Fin cfg0.N) (p : Fin 1024) :
    (iblk m c 1 t : Vec Ideal S1024x1 .f32) (ix2 p (0 : Fin 1)) = sT1 m c (ix2 (grow t p) (0 : Fin 1)) :=
  (iblk1_apply m c t p).trans (congrFun (V_v6 m c) (ix2 (grow t p) (0 : Fin 1)))

theorem row2_of (c : Dev nD) (t : Fin cfg0.N) (k : Fin 512) :
    slRow (grid0.coords t) (iblk m c 2 t : Vec Ideal S1x8192 .f32) (ix2 (0 : Fin 1) k)
      = sT2 m c (ix2 (gcol t k) (0 : Fin 1)) :=
  (slRow_apply t (iblk m c 2 t : Vec Ideal S1x8192 .f32) k).trans
    ((congrFun (iblk2_eq m c t) (ix2 (0 : Fin 1) (gcol t k))).trans (v8_apply m c (gcol t k)))

theorem row3_of (c : Dev nD) (t : Fin cfg0.N) (k : Fin 512) :
    slRow (grid0.coords t) (iblk m c 3 t : Vec Ideal S1x8192 .f32) (ix2 (0 : Fin 1) k)
      = sS2 m c (ix2 (gcol t k) (0 : Fin 1)) :=
  (slRow_apply t (iblk m c 3 t : Vec Ideal S1x8192 .f32) k).trans
    ((congrFun (iblk3_eq m c t) (ix2 (0 : Fin 1) (gcol t k))).trans (v9_apply m c (gcol t k)))

theorem blk6_of (c : Dev nD) (t : Fin cfg0.N) (p : Fin 1024) (k : Fin 512) :
    (iblk m c 6 t : Vec Ideal S1024x512 .i32) (ix2 p k) = argA2 m c (ix2 (grow t p) (gcol t k)) :=
  (iblk6_apply m c t p k).trans (congrFun (V_arg2 m c) (ix2 (grow t p) (gcol t k)))

theorem blk7_of (c : Dev nD) (t : Fin cfg0.N) (k : Fin 512) (p : Fin 1024) :
    (iblk m c 7 t : Vec Ideal S512x1024 .i32) (ix2 k p) = argA2 m c (ix2 (gcol t k) (grow t p)) :=
  (iblk7_apply m c t k p).trans (congrFun (V_arg2 m c) (ix2 (gcol t k) (grow t p)))

theorem heS_of (c : Dev nD) (t : Fin cfg0.N) (p : Fin 1024) (k : Fin 512) :
    k0_pay15 (k0_pay11 (iblk m c 0 t) (slRow (grid0.coords t) (iblk m c 2 t))) (k0_pay13 (iblk m c 6 t)) (ix2 p k)
      = if Scalar.cmpi .sgt (argA2 m c (ix2 (grow t p) (gcol t k))) 0#32 = 1#1
        then lreluM (sS1 m c (ix2 (grow t p) (0 : Fin 1)) + sT2 m c (ix2 (gcol t k) (0 : Fin 1)))
        else Ideal.ofBits .f32 0xD51184E7#32 := by
  have e13 : k0_pay13 (F := Ideal) (iblk m c 6 t : Vec Ideal S1024x512 .i32) (ix2 p k)
      = Scalar.cmpi .sgt (argA2 m c (ix2 (grow t p) (gcol t k))) 0#32 :=
    (pay13_apply (iblk m c 6 t : Vec Ideal S1024x512 .i32) p k).trans
      (congrArg (fun w : BitVec 32 => Scalar.cmpi .sgt w 0#32) (blk6_of m c t p k))
  have e11 : k0_pay11 (F := Ideal) (iblk m c 0 t : Vec Ideal S1024x1 .f32)
        (slRow (grid0.coords t) (iblk m c 2 t : Vec Ideal S1x8192 .f32)) (ix2 p k)
      = lreluM (sS1 m c (ix2 (grow t p) (0 : Fin 1)) + sT2 m c (ix2 (gcol t k) (0 : Fin 1))) :=
    (pay11_apply (iblk m c 0 t : Vec Ideal S1024x1 .f32) (slRow (grid0.coords t) (iblk m c 2 t : Vec Ideal S1x8192 .f32)) p k).trans
      (congrArg lreluM (congrArg₂ (· + ·) (blk0_of m c t p) (row2_of m c t k)))
  refine (pay15_apply _ _ p k).trans ?_
  rw [e13, e11]

theorem heT_of (c : Dev nD) (t : Fin cfg0.N) (p : Fin 1024) (k : Fin 512) :
    k0_pay16 (k0_pay12 (iblk m c 1 t) (slRow (grid0.coords t) (iblk m c 3 t))) (k0_pay14 (iblk m c 7 t)) 0#32 (ix2 p k)
      = if Scalar.cmpi .sgt (argA2 m c (ix2 (gcol t k) (grow t p))) 0#32 = 1#1
        then lreluM (sT1 m c (ix2 (grow t p) (0 : Fin 1)) + sS2 m c (ix2 (gcol t k) (0 : Fin 1)))
        else Ideal.ofBits .f32 0xD51184E7#32 := by
  have e14 : k0_pay14 (F := Ideal) (iblk m c 7 t : Vec Ideal S512x1024 .i32) (ix2 p k)
      = argA2 m c (ix2 (gcol t k) (grow t p)) :=
    (pay14_apply (iblk m c 7 t : Vec Ideal S512x1024 .i32) p k).trans (blk7_of m c t k p)
  have e12 : k0_pay12 (F := Ideal) (iblk m c 1 t : Vec Ideal S1024x1 .f32)
        (slRow (grid0.coords t) (iblk m c 3 t : Vec Ideal S1x8192 .f32)) (ix2 p k)
      = lreluM (sT1 m c (ix2 (grow t p) (0 : Fin 1)) + sS2 m c (ix2 (gcol t k) (0 : Fin 1))) :=
    (pay12_apply (iblk m c 1 t : Vec Ideal S1024x1 .f32) (slRow (grid0.coords t) (iblk m c 3 t : Vec Ideal S1x8192 .f32)) p k).trans
      (congrArg lreluM (congrArg₂ (· + ·) (blk1_of m c t p) (row3_of m c t k)))
  refine (pay16_apply _ _ p k).trans ?_
  rw [e14, e12]

theorem hxS_of (c : Dev nD) (t : Fin cfg0.N) (k : Fin 512) (q : Fin 128) :
    slMat (grid0.coords t) (iblk m c 4 t) (ix2 k q)
      = if h : q.val < 64 then kProj (argA0 m c) (argA3 m c) (ix2 (gcol t k) ⟨q.val, h⟩)
        else if q.val = 64 then Ideal.ofBits .bf16 0x3F80#16 else Ideal.ofBits .bf16 0x0000#16 :=
  (slMat_apply t (iblk m c 4 t : Vec Ideal S8192x128 .bf16) k q).trans
    ((congrFun (iblk4_eq m c t) (ix2 (gcol t k) q)).trans (v15_apply m c (gcol t k) q))

theorem hxT_of (c : Dev nD) (t : Fin cfg0.N) (k : Fin 512) (q : Fin 128) :
    slMat (grid0.coords t) (iblk m c 5 t) (ix2 k q)
      = if h : q.val < 64 then kProj (argA1 m c) (argA4 m c) (ix2 (gcol t k) ⟨q.val, h⟩)
        else if q.val = 64 then Ideal.ofBits .bf16 0x3F80#16 else Ideal.ofBits .bf16 0x0000#16 :=
  (slMat_apply t (iblk m c 5 t : Vec Ideal S8192x128 .bf16) k q).trans
    ((congrFun (iblk5_eq m c t) (ix2 (gcol t k) q)).trans (v17_apply m c (gcol t k) q))

theorem biasS_of (c : Dev nD) (t : Fin cfg0.N) (q : Fin 64) :
    (iblk m c 8 t : Vec Ideal S1x64 .f32) (ix2 (0 : Fin 1) q) = argA6 m c (ix1 q) :=
  (congrFun (iblk8_eq m c t) (ix2 (0 : Fin 1) q)).trans (v10_apply m c q)

theorem biasT_of (c : Dev nD) (t : Fin cfg0.N) (q : Fin 64) :
    (iblk m c 9 t : Vec Ideal S1x64 .f32) (ix2 (0 : Fin 1) q) = argA7 m c (ix1 q) :=
  (congrFun (iblk9_eq m c t) (ix2 (0 : Fin 1) q)).trans (v11_apply m c q)

theorem kProj_real (x : FVec Ideal S8192x128 .f32) (w : FVec Ideal S128x64 .f32)
    (hx : ∀ i, ∃ r : ℝ, x i = (r : EReal)) (hw : ∀ i, ∃ r : ℝ, w i = (r : EReal)) (j : Fin 8192) (q : Fin 64) :
    ∃ r : ℝ, kProj x w (ix2 j q) = (r : EReal) := by
  rw [kProj_apply]
  exact Cert.PreFinite.sum_mul_real (fun κ : Fin 128 => x (ix2 j κ)) (fun κ : Fin 128 => w (ix2 κ q))
    (fun κ => hx _) (fun κ => hw _)

theorem kA1_real (a : FVec Ideal S128x1 .f32) (ha : ∀ i, ∃ r : ℝ, a i = (r : EReal)) (κ : Fin 64) :
    ∃ r : ℝ, kA1 a (ix2 κ (0 : Fin 1)) = (r : EReal) := by
  rw [kA1_apply]; exact ha _

theorem kA2_real (a : FVec Ideal S128x1 .f32) (ha : ∀ i, ∃ r : ℝ, a i = (r : EReal)) (κ : Fin 64) :
    ∃ r : ℝ, kA2 a (ix2 κ (0 : Fin 1)) = (r : EReal) := by
  rw [kA2_apply]; exact ha _

theorem kScore_real (xw : FVec Ideal S8192x64 .f32) (av : FVec Ideal S64x1 .f32)
    (hxw : ∀ j q, ∃ r : ℝ, xw (ix2 j q) = (r : EReal)) (hav : ∀ κ : Fin 64, ∃ r : ℝ, av (ix2 κ (0 : Fin 1)) = (r : EReal))
    (r : Fin 8192) : ∃ x : ℝ, kScore xw av (ix2 r (0 : Fin 1)) = (x : EReal) := by
  rw [kScore_apply]
  exact Cert.PreFinite.sum_mul_real (fun κ : Fin 64 => xw (ix2 r κ)) (fun κ : Fin 64 => av (ix2 κ (0 : Fin 1)))
    (fun κ => hxw r κ) hav

theorem reals_of_finite (c : Dev nD)
    (h0 : ∀ i, ∃ r : ℝ, argA0 m c i = (r : EReal)) (h1 : ∀ i, ∃ r : ℝ, argA1 m c i = (r : EReal))
    (h3 : ∀ i, ∃ r : ℝ, argA3 m c i = (r : EReal)) (h4 : ∀ i, ∃ r : ℝ, argA4 m c i = (r : EReal))
    (h5 : ∀ i, ∃ r : ℝ, argA5 m c i = (r : EReal)) :
    ∃ (XS XT : Fin 8192 → Fin 64 → ℝ) (S1 S2 T1 T2 : Fin 8192 → ℝ),
      (∀ j q, kProj (argA0 m c) (argA3 m c) (ix2 j q) = ((XS j q : ℝ) : EReal))
      ∧ (∀ j q, kProj (argA1 m c) (argA4 m c) (ix2 j q) = ((XT j q : ℝ) : EReal))
      ∧ (∀ r, sS1 m c (ix2 r (0 : Fin 1)) = ((S1 r : ℝ) : EReal))
      ∧ (∀ r, sS2 m c (ix2 r (0 : Fin 1)) = ((S2 r : ℝ) : EReal))
      ∧ (∀ r, sT1 m c (ix2 r (0 : Fin 1)) = ((T1 r : ℝ) : EReal))
      ∧ (∀ r, sT2 m c (ix2 r (0 : Fin 1)) = ((T2 r : ℝ) : EReal)) := by
  have hXS : ∀ j q, ∃ x : ℝ, kProj (argA0 m c) (argA3 m c) (ix2 j q) = (x : EReal) :=
    fun j q => kProj_real (argA0 m c) (argA3 m c) h0 h3 j q
  have hXT : ∀ j q, ∃ x : ℝ, kProj (argA1 m c) (argA4 m c) (ix2 j q) = (x : EReal) :=
    fun j q => kProj_real (argA1 m c) (argA4 m c) h1 h4 j q
  have hS1 : ∀ r, ∃ x : ℝ, sS1 m c (ix2 r (0 : Fin 1)) = (x : EReal) :=
    fun r => kScore_real _ _ hXS (kA1_real _ h5) r
  have hS2 : ∀ r, ∃ x : ℝ, sS2 m c (ix2 r (0 : Fin 1)) = (x : EReal) :=
    fun r => kScore_real _ _ hXS (kA2_real _ h5) r
  have hT1 : ∀ r, ∃ x : ℝ, sT1 m c (ix2 r (0 : Fin 1)) = (x : EReal) :=
    fun r => kScore_real _ _ hXT (kA1_real _ h5) r
  have hT2 : ∀ r, ∃ x : ℝ, sT2 m c (ix2 r (0 : Fin 1)) = (x : EReal) :=
    fun r => kScore_real _ _ hXT (kA2_real _ h5) r
  choose XS eXS using hXS
  choose XT eXT using hXT
  choose S1 eS1 using hS1
  choose S2 eS2 using hS2
  choose T1 eT1 using hT1
  choose T2 eT2 using hT2
  exact ⟨XS, XT, S1, S2, T1, T2, eXS, eXT, eS1, eS2, eT1, eT2⟩

end Cert.KernelIdeal.Hand

end
-- ==== Proof.KPieceVal.lean ====
import proofs.«416335_j89953795048031_3_alg».proof.Proof.KCases
import proofs.«416335_j89953795048031_3_alg».proof.Proof.KStep
import Idealize.ShloMosaic.Lib.Pipeline.Value
import Idealize.ShloMosaic.Lib.WholeRead
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

private theorem hz2 : (![0, 0] : Fin 2 → Nat) = fun _ => 0 := funext fun a => by fin_cases a <;> rfl

private theorem mk4_congr {α β γ δ : Type} {a a' : α} {b b' : β} {c c' : γ} {d d' : δ}
    (h0 : a = a') (h1 : b = b') (h2 : c = c') (h3 : d = d') : (a, b, c, d) = (a', b', c', d') := by
  subst h0 h1 h2 h3; rfl

variable (c : Dev nD) (b : Bufs)

section

variable (hc0 : ¬condFirst b.i) (hc1 : ¬condLast b.i) (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32) (xs0 : Vec F S1024x1 .f32) (xs1 : Vec F S1024x128 .f32) (xs2 : Vec F S1024x1 .f32) (xs3 : Vec F S1024x128 .f32)

theorem soutB_eq :
    soutB c b hc0 hc1 x0 x1 x2 x3 x4 x5 x6 x7 x8 x9 xs0 xs1 xs2 xs3
      = ((stepS b.i x0 x2 x4 x6 xs0 xs1).1,
         (stepS b.i x0 x2 x4 x6 xs0 xs1).2,
         (stepT b.i x1 x3 x5 x7 xs2 xs3).1,
         (stepT b.i x1 x3 x5 x7 xs2 xs3).2) := by
  obtain ⟨i, arg2, harg2, arg3, harg3, arg4, harg4, arg5, harg5, arg6, harg6, arg7, harg7, arg8, harg8, arg9, harg9, arg10, harg10, arg11, harg11, arg12, harg12, arg13, harg13, arg14, harg14, arg15, harg15, arg16, harg16⟩ := b
  unfold soutB
  refine mk4_congr ?_ ?_ ?_ ?_
  all_goals
    rw [View.read_writes_junk_eq_canon]
    unfold runB kernelRun_B
    dsimp only
    sl_unfold_run_names
    first | rw [View.canon_unit_zero (S := S1024x1) hz2] | rw [View.canon_unit_zero (S := S1024x128) hz2]
    simp only [View.readAt_eq_ld, Memref.IsWhole.read_unread, View.ld_unit_zero (S := S1024x1) hz2, View.ld_unit_zero (S := S1024x128) hz2, View.ld_unit_zero (S := S1024x512) hz2, View.ld_unit_zero (S := S512x1024) hz2, View.ld_unit_zero (S := S1x64) hz2]
    rfl

end

section

variable (hc0 : ¬condFirst b.i) (hc1 : condLast b.i) (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32) (xs0 : Vec F S1024x1 .f32) (xs1 : Vec F S1024x128 .f32) (xs2 : Vec F S1024x1 .f32) (xs3 : Vec F S1024x128 .f32)

theorem soutC_eq :
    soutC c b hc0 hc1 x0 x1 x2 x3 x4 x5 x6 x7 x8 x9 xs0 xs1 xs2 xs3
      = ((stepS b.i x0 x2 x4 x6 xs0 xs1).1,
         (stepS b.i x0 x2 x4 x6 xs0 xs1).2,
         (stepT b.i x1 x3 x5 x7 xs2 xs3).1,
         (stepT b.i x1 x3 x5 x7 xs2 xs3).2) := by
  obtain ⟨i, arg2, harg2, arg3, harg3, arg4, harg4, arg5, harg5, arg6, harg6, arg7, harg7, arg8, harg8, arg9, harg9, arg10, harg10, arg11, harg11, arg12, harg12, arg13, harg13, arg14, harg14, arg15, harg15, arg16, harg16⟩ := b
  unfold soutC
  refine mk4_congr ?_ ?_ ?_ ?_
  all_goals
    rw [View.read_writes_junk_eq_canon]
    unfold runC kernelRun_C
    dsimp only
    sl_unfold_run_names
    first | rw [View.canon_unit_zero (S := S1024x1) hz2] | rw [View.canon_unit_zero (S := S1024x128) hz2]
    simp only [View.readAt_eq_ld, Memref.IsWhole.read_unread, View.ld_unit_zero (S := S1024x1) hz2, View.ld_unit_zero (S := S1024x128) hz2, View.ld_unit_zero (S := S1024x512) hz2, View.ld_unit_zero (S := S512x1024) hz2, View.ld_unit_zero (S := S1x64) hz2]
    rfl

end

section

variable (hc0 : condFirst b.i) (hc1 : ¬condLast b.i) (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32)

theorem soutA_eq :
    soutA c b hc0 hc1 x0 x1 x2 x3 x4 x5 x6 x7 x8 x9
      = ((stepS b.i x0 x2 x4 x6 k0_pay5 k0_pay6).1,
         (stepS b.i x0 x2 x4 x6 k0_pay5 k0_pay6).2,
         (stepT b.i x1 x3 x5 x7 k0_pay7 k0_pay8).1,
         (stepT b.i x1 x3 x5 x7 k0_pay7 k0_pay8).2) := by
  obtain ⟨i, arg2, harg2, arg3, harg3, arg4, harg4, arg5, harg5, arg6, harg6, arg7, harg7, arg8, harg8, arg9, harg9, arg10, harg10, arg11, harg11, arg12, harg12, arg13, harg13, arg14, harg14, arg15, harg15, arg16, harg16⟩ := b
  unfold soutA
  refine mk4_congr ?_ ?_ ?_ ?_
  all_goals
    rw [View.read_writes_junk_eq_canon]
    unfold runA kernelRun_A
    dsimp only
    sl_unfold_run_names
    first | rw [View.canon_cons_unit_zero (S := S1024x1) hz2] | rw [View.canon_cons_unit_zero (S := S1024x128) hz2]
    simp only [View.readAt_eq_ld, Memref.IsWhole.read_unread, View.ld_unit_zero (S := S1024x1) hz2, View.ld_unit_zero (S := S1024x128) hz2, View.ld_unit_zero (S := S1024x512) hz2, View.ld_unit_zero (S := S512x1024) hz2, View.ld_unit_zero (S := S1x64) hz2,
      View.readCov_unit_zero (S := S1024x1) _ hz2, View.readCov_unit_zero (S := S1024x128) _ hz2]
    rfl

end

section

variable (hc0 : ¬condFirst b.i) (hc1 : condLast b.i) (x0 x1 : Vec F S1024x1 .f32) (x2 x3 : Vec F S1x8192 .f32) (x4 x5 : Vec F S8192x128 .bf16) (x6 : Vec F S1024x512 .i32) (x7 : Vec F S512x1024 .i32) (x8 x9 : Vec F S1x64 .f32) (xs0 : Vec F S1024x1 .f32) (xs1 : Vec F S1024x128 .f32) (xs2 : Vec F S1024x1 .f32) (xs3 : Vec F S1024x128 .f32)

theorem outC_pieces :
    (runC c b hc0 hc1 x0 x1 x2 x3 x4 x5 x6 x7 x8 x9 xs0 xs1 xs2 xs3).1
      = [⟨Rect.unit ![0, 64] S1024x64.size inb_S1024x128_S1024x64_0_64, k0_pay4 (stepT b.i x1 x3 x5 x7 xs2 xs3).2 x9⟩,
         ⟨Rect.unit ![0, 0] S1024x64.size inb_S1024x128_S1024x64_0_0, k0_pay3 (stepS b.i x0 x2 x4 x6 xs0 xs1).2 x8⟩] := by
  obtain ⟨i, arg2, harg2, arg3, harg3, arg4, harg4, arg5, harg5, arg6, harg6, arg7, harg7, arg8, harg8, arg9, harg9, arg10, harg10, arg11, harg11, arg12, harg12, arg13, harg13, arg14, harg14, arg15, harg15, arg16, harg16⟩ := b
  unfold runC kernelRun_C
  dsimp only
  sl_unfold_run_names
  simp only [View.readAt_eq_ld, Memref.IsWhole.read_unread, View.ld_unit_zero (S := S1024x1) hz2, View.ld_unit_zero (S := S1024x128) hz2, View.ld_unit_zero (S := S1024x512) hz2, View.ld_unit_zero (S := S512x1024) hz2, View.ld_unit_zero (S := S1x64) hz2, View.readCov_unit_zero (S := S1024x128) _ hz2]
  rfl

theorem outC_eq (p : Fin 1024) (q : Fin 128) :
    outC c b hc0 hc1 x0 x1 x2 x3 x4 x5 x6 x7 x8 x9 xs0 xs1 xs2 xs3 (ValueIdx.ix2 p q)
      = if h : q.val < 64 then k0_pay3 (stepS b.i x0 x2 x4 x6 xs0 xs1).2 x8 (ValueIdx.ix2 p ⟨q.val, h⟩)
        else k0_pay4 (stepT b.i x1 x3 x5 x7 xs2 xs3).2 x9 (ValueIdx.ix2 p ⟨q.val - 64, by have := q.isLt; omega⟩) := by
  unfold outC
  rw [outC_pieces]
  by_cases h : q.val < 64
  · rw [dif_pos h,
      View.read_writes_cons_unit_of_not_mem VO VO.junk inb_S1024x128_S1024x64_0_64 _ _ (ValueIdx.ix2 p q) rfl 1 (Or.inl h)]
    exact View.read_writes_cons_unit_of_mem VO VO.junk inb_S1024x128_S1024x64_0_0 _ [] (ValueIdx.ix2 p q)
      (ValueIdx.ix2 p ⟨q.val, h⟩) rfl (Fin.forall_fin_two.mpr ⟨(Nat.zero_add _).symm, (Nat.zero_add _).symm⟩)
  · rw [dif_neg h]
    exact View.read_writes_cons_unit_of_mem VO VO.junk inb_S1024x128_S1024x64_0_64 _ _ (ValueIdx.ix2 p q)
      (ValueIdx.ix2 p ⟨q.val - 64, by have := q.isLt; omega⟩) rfl
      (Fin.forall_fin_two.mpr ⟨(Nat.zero_add _).symm, by show q.val = 64 + (q.val - 64); omega⟩)

end

end Cert.KernelIdeal.Hand

end
-- ==== Proof.KRow.lean ====
import proofs.«416335_j89953795048031_3_alg».proof.Proof.KStep
import proofs.«416335_j89953795048031_3_alg».proof.Proof.KPay
import proofs.«416335_j89953795048031_3_alg».proof.Proof.LibOnlineSoftmax

noncomputable section

open scoped BigOperators

namespace Cert.KernelIdeal.Hand

open Cert.KernelIdeal Cert.KernelIdeal.Gen Cert.KernelIdeal.Facts₀ Cert.KernelIdeal.Facts
open Idealize.ShloMosaic Idealize.ShloMosaic.ValueIdx OnlineSoftmax

theorem fold_scores (f : Fin 512 → EReal) (e : ℕ → Fin 512 → ℝ) (b : ℕ) (he : ∀ k : Fin 512, f k = ((e b k : ℝ) : EReal)) :
    (Finset.univ : Finset (Fin 512)).fold max (Ideal.ofBits .f32 0xFF800000#32) f
      = (Finset.univ : Finset (Fin 512)).fold max ⊥ (fun k => ((e b k : ℝ) : EReal)) :=
  congrArg₂ (fun a g => (Finset.univ : Finset (Fin 512)).fold max a g) neg_inf_lit (funext he)

theorem stepS_row (i : grid0.Coords) (x0 : Vec Ideal S1024x1 .f32) (x2 : Vec Ideal S1x8192 .f32)
    (x4 : Vec Ideal S8192x128 .bf16) (x6 : Vec Ideal S1024x512 .i32) (ms : Vec Ideal S1024x1 .f32)
    (acc : Vec Ideal S1024x128 .f32) (p : Fin 1024)
    (e : ℕ → Fin 512 → ℝ) (x : Fin 128 → ℕ → Fin 512 → ℝ) (b : ℕ)
    (hm : ms (ix2 p (0 : Fin 1)) = mSeq e b) (ha : ∀ q : Fin 128, acc (ix2 p q) = aSeq e (x q) b)
    (he : ∀ k : Fin 512, k0_pay15 (k0_pay11 x0 (slRow i x2)) (k0_pay13 x6) (ix2 p k) = ((e b k : ℝ) : EReal))
    (hx : ∀ (k : Fin 512) (q : Fin 128), slMat i x4 (ix2 k q) = ((x q b k : ℝ) : EReal)) :
    (stepS i x0 x2 x4 x6 ms acc).1 (ix2 p (0 : Fin 1)) = mSeq e (b + 1)
      ∧ ∀ q : Fin 128, (stepS i x0 x2 x4 x6 ms acc).2 (ix2 p q) = aSeq e (x q) (b + 1) := by
  have hmax : k0_pay17 (k0_pay11 x0 (slRow i x2)) (k0_pay13 x6) ms (ix2 p (0 : Fin 1)) = mSeq e (b + 1) := by
    refine (pay17_apply _ _ ms p).trans ?_
    rw [fold_scores _ e b he, hm]
    exact (mSeq_succ e b).symm
  refine ⟨?_, fun q => ?_⟩
  · show k0_pay19 (k0_pay11 x0 (slRow i x2)) (k0_pay13 x6) ms (ix2 p (0 : Fin 1)) = _
    exact (congrFun (pay19_apply _ _ ms) (ix2 p (0 : Fin 1))).trans hmax
  · show k0_pay18 (k0_pay9 (slMat i x4)) (k0_pay11 x0 (slRow i x2)) (k0_pay13 x6) ms ms acc (ix2 p q) = _
    refine (pay18_apply _ _ _ ms ms acc p q).trans ?_
    rw [hmax, hm, ha q, aSeq_succ]
    refine congrArg₂ (· + ·) rfl (Finset.sum_congr rfl fun k _ => ?_)
    rw [he k, pay9_apply, hx k q]

theorem stepT_row (i : grid0.Coords) (x1 : Vec Ideal S1024x1 .f32) (x3 : Vec Ideal S1x8192 .f32)
    (x5 : Vec Ideal S8192x128 .bf16) (x7 : Vec Ideal S512x1024 .i32) (mt : Vec Ideal S1024x1 .f32)
    (acc : Vec Ideal S1024x128 .f32) (p : Fin 1024)
    (e : ℕ → Fin 512 → ℝ) (x : Fin 128 → ℕ → Fin 512 → ℝ) (b : ℕ)
    (hm : mt (ix2 p (0 : Fin 1)) = mSeq e b) (ha : ∀ q : Fin 128, acc (ix2 p q) = aSeq e (x q) b)
    (he : ∀ k : Fin 512, k0_pay16 (k0_pay12 x1 (slRow i x3)) (k0_pay14 x7) 0#32 (ix2 p k) = ((e b k : ℝ) : EReal))
    (hx : ∀ (k : Fin 512) (q : Fin 128), slMat i x5 (ix2 k q) = ((x q b k : ℝ) : EReal)) :
    (stepT i x1 x3 x5 x7 mt acc).1 (ix2 p (0 : Fin 1)) = mSeq e (b + 1)
      ∧ ∀ q : Fin 128, (stepT i x1 x3 x5 x7 mt acc).2 (ix2 p q) = aSeq e (x q) (b + 1) := by
  have hmax : k0_pay20 (k0_pay12 x1 (slRow i x3)) (k0_pay14 x7) 0#32 mt (ix2 p (0 : Fin 1)) = mSeq e (b + 1) := by
    refine (pay20_apply _ _ 0#32 mt p).trans ?_
    rw [fold_scores _ e b he, hm]
    exact (mSeq_succ e b).symm
  refine ⟨?_, fun q => ?_⟩
  · show k0_pay2 (k0_pay20 (k0_pay12 x1 (slRow i x3)) (k0_pay14 x7) 0#32 mt) (ix2 p (0 : Fin 1)) = _
    exact (congrFun (pay2_apply _) (ix2 p (0 : Fin 1))).trans hmax
  · show k0_pay1 (k0_pay10 (slMat i x5)) (k0_pay21 (k0_pay12 x1 (slRow i x3)) (k0_pay14 x7) 0#32 mt mt)
        (k0_pay22 (k0_pay12 x1 (slRow i x3)) (k0_pay14 x7) 0#32 mt) acc (ix2 p q) = _
    refine (pay1_apply _ _ _ acc p q).trans ?_
    rw [pay21_apply, hmax, hm, ha q, aSeq_succ]
    refine congrArg₂ (· + ·) rfl (Finset.sum_congr rfl fun k _ => ?_)
    rw [pay22_apply, hmax, he k, pay10_apply, hx k q]

theorem init_row (p : Fin 1024) (e : ℕ → Fin 512 → ℝ) (x : Fin 128 → ℕ → Fin 512 → ℝ) :
    k0_pay5 (F := Ideal) (ix2 p (0 : Fin 1)) = mSeq e 0
      ∧ ∀ q : Fin 128, k0_pay6 (F := Ideal) (ix2 p q) = aSeq e (x q) 0 :=
  ⟨(pay5_apply p).trans neg_inf_lit, fun q => pay6_apply p q⟩

theorem init_row' (p : Fin 1024) (e : ℕ → Fin 512 → ℝ) (x : Fin 128 → ℕ → Fin 512 → ℝ) :
    k0_pay7 (F := Ideal) (ix2 p (0 : Fin 1)) = mSeq e 0
      ∧ ∀ q : Fin 128, k0_pay8 (F := Ideal) (ix2 p q) = aSeq e (x q) 0 :=
  ⟨(pay7_apply p).trans neg_inf_lit, fun q => pay8_apply p q⟩

theorem lreluM_coe : ∃ s : ℝ, 0 ≤ s ∧ s ≤ 1 ∧ Ideal.ofBits .f32 0x3C23D70A#32 = (s : EReal)
    ∧ ∀ z : ℝ, lreluM (z : EReal) = ((if 0 < z then z else s * z : ℝ) : EReal) := by
  obtain ⟨s, hs0, hs1, hs⟩ := slope_lit
  refine ⟨s, hs0, hs1, hs, fun z => ?_⟩
  unfold lreluM
  rw [hs]
  exact leaky_max s z hs0 hs1

theorem eluK_eq (x : EReal) :
    eluK x = (if 0 < x then x else Ideal.ofBits .f32 0x3F800000#32 * (Ideal.exp (if 0 < x then 0 else x) - 1)) := by
  unfold eluK
  rw [one_f32_lit]
  exact elu_forms x

end Cert.KernelIdeal.Hand

end
-- ==== Proof.KRowInd.lean ====
import proofs.«416335_j89953795048031_3_alg».proof.Proof.KData
import proofs.«416335_j89953795048031_3_alg».proof.Proof.KPieceVal
import proofs.«416335_j89953795048031_3_alg».proof.Proof.KRow

set_option maxRecDepth 16384

noncomputable section

namespace Cert.KernelIdeal.Hand

open Cert.KernelIdeal Cert.KernelIdeal.Gen
open Idealize.ShloMosaic Idealize.ShloMosaic.ValueIdx OnlineSoftmax

variable (m : (ℓ : Loc nD τ sig) → Buf (Elt Ideal) ℓ)

def pt (I : Fin 8) (b : Fin 16) : Fin cfg0.N :=
  ⟨16 * I.val + b.val, lt_of_lt_of_eq (by have := I.isLt; have := b.isLt; omega : 16 * I.val + b.val < 128) (show cfg0.N = 128 from N_0).symm⟩

theorem pt_val (I : Fin 8) (b : Fin 16) : (pt I b).val = 16 * I.val + b.val := rfl

theorem stAt_congr (c : Dev nD) {n n' : ℕ} (h : n = n') (hn : n < cfg0.N) (hn' : n' < cfg0.N) :
    stAt m c n hn = stAt m c n' hn' := by
  subst h; rfl

def RowAt (p : Fin 1024) (eS eT : ℕ → Fin 512 → ℝ) (xS xT : Fin 128 → ℕ → Fin 512 → ℝ) (k : ℕ) (S : St Ideal) : Prop :=
  S.1 (ix2 p (0 : Fin 1)) = mSeq eS k ∧ (∀ q : Fin 128, S.2.1 (ix2 p q) = aSeq eS (xS q) k)
    ∧ S.2.2.1 (ix2 p (0 : Fin 1)) = mSeq eT k ∧ (∀ q : Fin 128, S.2.2.2 (ix2 p q) = aSeq eT (xT q) k)

theorem rowAt_init (p : Fin 1024) (eS eT : ℕ → Fin 512 → ℝ) (xS xT : Fin 128 → ℕ → Fin 512 → ℝ) :
    RowAt p eS eT xS xT 0 (k0_pay5 (F := Ideal), k0_pay6 (F := Ideal), k0_pay7 (F := Ideal), k0_pay8 (F := Ideal)) :=
  ⟨(init_row p eS xS).1, (init_row p eS xS).2, (init_row' p eT xT).1, (init_row' p eT xT).2⟩

theorem rowAt_step (i : grid0.Coords) (x0 x1 : Vec Ideal S1024x1 .f32) (x2 x3 : Vec Ideal S1x8192 .f32)
    (x4 x5 : Vec Ideal S8192x128 .bf16) (x6 : Vec Ideal S1024x512 .i32) (x7 : Vec Ideal S512x1024 .i32)
    (p : Fin 1024) (eS eT : ℕ → Fin 512 → ℝ) (xS xT : Fin 128 → ℕ → Fin 512 → ℝ) (k : ℕ) (S : St Ideal)
    (h : RowAt p eS eT xS xT k S)
    (heS : ∀ j : Fin 512, k0_pay15 (k0_pay11 x0 (slRow i x2)) (k0_pay13 x6) (ix2 p j) = ((eS k j : ℝ) : EReal))
    (hxS : ∀ (j : Fin 512) (q : Fin 128), slMat i x4 (ix2 j q) = ((xS q k j : ℝ) : EReal))
    (heT : ∀ j : Fin 512, k0_pay16 (k0_pay12 x1 (slRow i x3)) (k0_pay14 x7) 0#32 (ix2 p j) = ((eT k j : ℝ) : EReal))
    (hxT : ∀ (j : Fin 512) (q : Fin 128), slMat i x5 (ix2 j q) = ((xT q k j : ℝ) : EReal)) :
    RowAt p eS eT xS xT (k + 1)
      ((stepS i x0 x2 x4 x6 S.1 S.2.1).1, (stepS i x0 x2 x4 x6 S.1 S.2.1).2,
        (stepT i x1 x3 x5 x7 S.2.2.1 S.2.2.2).1, (stepT i x1 x3 x5 x7 S.2.2.1 S.2.2.2).2) :=
  ⟨(stepS_row i x0 x2 x4 x6 S.1 S.2.1 p eS xS k h.1 h.2.1 heS hxS).1,
    (stepS_row i x0 x2 x4 x6 S.1 S.2.1 p eS xS k h.1 h.2.1 heS hxS).2,
    (stepT_row i x1 x3 x5 x7 S.2.2.1 S.2.2.2 p eT xT k h.2.2.1 h.2.2.2 heT hxT).1,
    (stepT_row i x1 x3 x5 x7 S.2.2.1 S.2.2.2 p eT xT k h.2.2.1 h.2.2.2 heT hxT).2⟩

theorem row_state_at (c : Dev nD) (I : Fin 8) (p : Fin 1024) (eS eT : ℕ → Fin 512 → ℝ) (xS xT : Fin 128 → ℕ → Fin 512 → ℝ)
    (heS : ∀ (b : Fin 16) (k : Fin 512), k0_pay15 (k0_pay11 (iblk m c 0 (pt I b)) (slRow (grid0.coords (pt I b)) (iblk m c 2 (pt I b)))) (k0_pay13 (iblk m c 6 (pt I b))) (ix2 p k) = ((eS b.val k : ℝ) : EReal))
    (hxS : ∀ (b : Fin 16) (k : Fin 512) (q : Fin 128), slMat (grid0.coords (pt I b)) (iblk m c 4 (pt I b)) (ix2 k q) = ((xS q b.val k : ℝ) : EReal))
    (heT : ∀ (b : Fin 16) (k : Fin 512), k0_pay16 (k0_pay12 (iblk m c 1 (pt I b)) (slRow (grid0.coords (pt I b)) (iblk m c 3 (pt I b)))) (k0_pay14 (iblk m c 7 (pt I b))) 0#32 (ix2 p k) = ((eT b.val k : ℝ) : EReal))
    (hxT : ∀ (b : Fin 16) (k : Fin 512) (q : Fin 128), slMat (grid0.coords (pt I b)) (iblk m c 5 (pt I b)) (ix2 k q) = ((xT q b.val k : ℝ) : EReal)) :
    ∀ (n : ℕ) (hn : n < 16), RowAt p eS eT xS xT (n + 1) (stAt m c (pt I ⟨n, hn⟩).val (pt I ⟨n, hn⟩).isLt) := by
  intro n
  induction n with
  | zero =>
    intro hn
    have h0 : (pt I ⟨0, hn⟩).val % 16 = 0 := by show (16 * I.val + 0) % 16 = 0; omega
    have h1 : ¬(pt I ⟨0, hn⟩).val % 16 = 15 := by show ¬(16 * I.val + 0) % 16 = 15; omega
    rw [stAt_A m c (pt I ⟨0, hn⟩) h0 h1, soutA_eq]
    exact rowAt_step _ _ _ _ _ _ _ _ _ p eS eT xS xT 0 (k0_pay5 (F := Ideal), k0_pay6 (F := Ideal), k0_pay7 (F := Ideal), k0_pay8 (F := Ideal)) (rowAt_init p eS eT xS xT)
      (heS ⟨0, hn⟩) (hxS ⟨0, hn⟩) (heT ⟨0, hn⟩) (hxT ⟨0, hn⟩)
  | succ n ih =>
    intro hn
    have hn' : n < 16 := Nat.lt_of_succ_lt hn
    have h0 : ¬(pt I ⟨n + 1, hn⟩).val % 16 = 0 := by show ¬(16 * I.val + (n + 1)) % 16 = 0; omega
    have hlt : (pt I ⟨n + 1, hn⟩).val - 1 < cfg0.N := Nat.lt_of_le_of_lt (Nat.sub_le _ _) (pt I ⟨n + 1, hn⟩).isLt
    have hprev : (pt I ⟨n + 1, hn⟩).val - 1 = (pt I ⟨n, hn'⟩).val := by
      show 16 * I.val + (n + 1) - 1 = 16 * I.val + n; omega
    have ih' : RowAt p eS eT xS xT (n + 1) (stAt m c ((pt I ⟨n + 1, hn⟩).val - 1) hlt) := by
      rw [stAt_congr m c hprev hlt (pt I ⟨n, hn'⟩).isLt]; exact ih hn'
    by_cases h1 : (pt I ⟨n + 1, hn⟩).val % 16 = 15
    · rw [stAt_C m c (pt I ⟨n + 1, hn⟩) h0 h1, soutC_eq]
      exact rowAt_step _ _ _ _ _ _ _ _ _ p eS eT xS xT (n + 1) _ ih'
        (heS ⟨n + 1, hn⟩) (hxS ⟨n + 1, hn⟩) (heT ⟨n + 1, hn⟩) (hxT ⟨n + 1, hn⟩)
    · rw [stAt_B m c (pt I ⟨n + 1, hn⟩) h0 h1, soutB_eq]
      exact rowAt_step _ _ _ _ _ _ _ _ _ p eS eT xS xT (n + 1) _ ih'
        (heS ⟨n + 1, hn⟩) (hxS ⟨n + 1, hn⟩) (heT ⟨n + 1, hn⟩) (hxT ⟨n + 1, hn⟩)

theorem row_state (c : Dev nD) (I : Fin 8) (p : Fin 1024) (eS eT : ℕ → Fin 512 → ℝ) (xS xT : Fin 128 → ℕ → Fin 512 → ℝ)
    (heS : ∀ (b : Fin 16) (k : Fin 512), k0_pay15 (k0_pay11 (iblk m c 0 (pt I b)) (slRow (grid0.coords (pt I b)) (iblk m c 2 (pt I b)))) (k0_pay13 (iblk m c 6 (pt I b))) (ix2 p k) = ((eS b.val k : ℝ) : EReal))
    (hxS : ∀ (b : Fin 16) (k : Fin 512) (q : Fin 128), slMat (grid0.coords (pt I b)) (iblk m c 4 (pt I b)) (ix2 k q) = ((xS q b.val k : ℝ) : EReal))
    (heT : ∀ (b : Fin 16) (k : Fin 512), k0_pay16 (k0_pay12 (iblk m c 1 (pt I b)) (slRow (grid0.coords (pt I b)) (iblk m c 3 (pt I b)))) (k0_pay14 (iblk m c 7 (pt I b))) 0#32 (ix2 p k) = ((eT b.val k : ℝ) : EReal))
    (hxT : ∀ (b : Fin 16) (k : Fin 512) (q : Fin 128), slMat (grid0.coords (pt I b)) (iblk m c 5 (pt I b)) (ix2 k q) = ((xT q b.val k : ℝ) : EReal)) :
    ∀ b : Fin 16, (stAt m c (pt I b).val (pt I b).isLt).1 (ix2 p (0 : Fin 1)) = mSeq eS (b.val + 1) ∧ (∀ q : Fin 128, (stAt m c (pt I b).val (pt I b).isLt).2.1 (ix2 p q) = aSeq eS (xS q) (b.val + 1))
      ∧ (stAt m c (pt I b).val (pt I b).isLt).2.2.1 (ix2 p (0 : Fin 1)) = mSeq eT (b.val + 1) ∧ (∀ q : Fin 128, (stAt m c (pt I b).val (pt I b).isLt).2.2.2 (ix2 p q) = aSeq eT (xT q) (b.val + 1)) :=
  fun b => row_state_at m c I p eS eT xS xT heS hxS heT hxT b.val b.isLt

end Cert.KernelIdeal.Hand

end
-- ==== Proof.KRowData.lean ====
import proofs.«416335_j89953795048031_3_alg».proof.Proof.KBlockVal
import proofs.«416335_j89953795048031_3_alg».proof.Proof.KRowInd

noncomputable section

namespace Cert.KernelIdeal.Hand

open Cert.KernelIdeal Cert.KernelIdeal.Facts₀ Cert.KernelIdeal.Facts
open Idealize.ShloMosaic Idealize.ShloMosaic.ValueIdx OnlineSoftmax

variable (m : (ℓ : Loc nD τ sig) → Buf (Elt Ideal) ℓ)

def lre (s z : ℝ) : ℝ := if 0 < z then z else s * z

def rowOf (I : Fin 8) (p : Fin 1024) : Fin 8192 := ⟨1024 * I.val + p.val, by have := I.isLt; have := p.isLt; omega⟩

section

variable (c : Dev nD) (XS XT : Fin 8192 → Fin 64 → ℝ) (S1 S2 T1 T2 : Fin 8192 → ℝ) (s φ : ℝ)

def efS (r : Fin 8192) : Fin 8192 → ℝ := fun j =>
  if Scalar.cmpi .sgt (argA2 m c (ix2 r j)) 0#32 = 1#1 then lre s (S1 r + T2 j) else φ

def efT (r : Fin 8192) : Fin 8192 → ℝ := fun j =>
  if Scalar.cmpi .sgt (argA2 m c (ix2 j r)) 0#32 = 1#1 then lre s (T1 r + S2 j) else φ

def xfam (X : Fin 8192 → Fin 64 → ℝ) (q : Fin 128) : ℕ → Fin 512 → ℝ :=
  if h : q.val < 64 then blk (n := 16) (fun j : Fin 8192 => X j ⟨q.val, h⟩) else if q.val = 64 then (fun _ _ => 1) else (fun _ _ => 0)

theorem grow_pt (I : Fin 8) (b : Fin 16) (p : Fin 1024) : grow (pt I b) p = rowOf I p :=
  Fin.ext (by show 1024 * ((16 * I.val + b.val) / 16) + p.val = 1024 * I.val + p.val; have := b.isLt; omega)

theorem gcol_pt (I : Fin 8) (b : Fin 16) (k : Fin 512) : gcol (pt I b) k = (⟨b.val * 512 + k.val, blk_lt (n := 16) b.isLt k⟩ : Fin 8192) :=
  Fin.ext (by show 512 * ((16 * I.val + b.val) % 16) + k.val = b.val * 512 + k.val; have := b.isLt; omega)

variable (hXS : ∀ j q, kProj (argA0 m c) (argA3 m c) (ix2 j q) = ((XS j q : ℝ) : EReal))
  (hXT : ∀ j q, kProj (argA1 m c) (argA4 m c) (ix2 j q) = ((XT j q : ℝ) : EReal))
  (hS1 : ∀ r, sS1 m c (ix2 r (0 : Fin 1)) = ((S1 r : ℝ) : EReal)) (hS2 : ∀ r, sS2 m c (ix2 r (0 : Fin 1)) = ((S2 r : ℝ) : EReal))
  (hT1 : ∀ r, sT1 m c (ix2 r (0 : Fin 1)) = ((T1 r : ℝ) : EReal)) (hT2 : ∀ r, sT2 m c (ix2 r (0 : Fin 1)) = ((T2 r : ℝ) : EReal))
  (hlre : ∀ z : ℝ, lreluM (z : EReal) = ((lre s z : ℝ) : EReal)) (hφ : Ideal.ofBits .f32 0xD51184E7#32 = ((φ : ℝ) : EReal))
include hS1 hT2 hlre hφ in

theorem heS_row (I : Fin 8) (p : Fin 1024) (b : Fin 16) (k : Fin 512) :
    Gen.k0_pay15 (Gen.k0_pay11 (iblk m c 0 (pt I b)) (slRow (grid0.coords (pt I b)) (iblk m c 2 (pt I b)))) (Gen.k0_pay13 (iblk m c 6 (pt I b))) (ix2 p k)
      = ((blk (n := 16) (efS m c S1 T2 s φ (rowOf I p)) b.val k : ℝ) : EReal) := by
  rw [heS_of m c (pt I b) p k, grow_pt, gcol_pt, blk_apply _ b.isLt k]
  unfold efS
  by_cases hm : Scalar.cmpi .sgt (argA2 m c (ix2 (rowOf I p) (⟨b.val * 512 + k.val, blk_lt (n := 16) b.isLt k⟩ : Fin 8192))) 0#32 = 1#1
  · rw [if_pos hm, if_pos hm, hS1, hT2, ← EReal.coe_add, hlre]
  · rw [if_neg hm, if_neg hm, hφ]
include hT1 hS2 hlre hφ in

theorem heT_row (I : Fin 8) (p : Fin 1024) (b : Fin 16) (k : Fin 512) :
    Gen.k0_pay16 (Gen.k0_pay12 (iblk m c 1 (pt I b)) (slRow (grid0.coords (pt I b)) (iblk m c 3 (pt I b)))) (Gen.k0_pay14 (iblk m c 7 (pt I b))) 0#32 (ix2 p k)
      = ((blk (n := 16) (efT m c S2 T1 s φ (rowOf I p)) b.val k : ℝ) : EReal) := by
  rw [heT_of m c (pt I b) p k, grow_pt, gcol_pt, blk_apply _ b.isLt k]
  unfold efT
  by_cases hm : Scalar.cmpi .sgt (argA2 m c (ix2 (⟨b.val * 512 + k.val, blk_lt (n := 16) b.isLt k⟩ : Fin 8192) (rowOf I p))) 0#32 = 1#1
  · rw [if_pos hm, if_pos hm, hT1, hS2, ← EReal.coe_add, hlre]
  · rw [if_neg hm, if_neg hm, hφ]
include hXS in

theorem hxS_row (I : Fin 8) (b : Fin 16) (k : Fin 512) (q : Fin 128) :
    slMat (grid0.coords (pt I b)) (iblk m c 4 (pt I b)) (ix2 k q) = ((xfam XS q b.val k : ℝ) : EReal) := by
  rw [hxS_of m c (pt I b) k q, gcol_pt]
  unfold xfam
  by_cases h : q.val < 64
  · rw [dif_pos h, dif_pos h, hXS, blk_apply _ b.isLt k]
  · rw [dif_neg h, dif_neg h]
    by_cases h' : q.val = 64
    · rw [if_pos h', if_pos h', one_bf16_lit]; rfl
    · rw [if_neg h', if_neg h', zero_bf16_lit]; rfl
include hXT in

theorem hxT_row (I : Fin 8) (b : Fin 16) (k : Fin 512) (q : Fin 128) :
    slMat (grid0.coords (pt I b)) (iblk m c 5 (pt I b)) (ix2 k q) = ((xfam XT q b.val k : ℝ) : EReal) := by
  rw [hxT_of m c (pt I b) k q, gcol_pt]
  unfold xfam
  by_cases h : q.val < 64
  · rw [dif_pos h, dif_pos h, hXT, blk_apply _ b.isLt k]
  · rw [dif_neg h, dif_neg h]
    by_cases h' : q.val = 64
    · rw [if_pos h', if_pos h', one_bf16_lit]; rfl
    · rw [if_neg h', if_neg h', zero_bf16_lit]; rfl
include hXS hXT hS1 hS2 hT1 hT2 hlre hφ in

set_option maxHeartbeats 1600000 in
theorem row_accs (I : Fin 8) (p : Fin 1024) :
    (∀ q : Fin 128, (stAt m c (pt I 15).val (pt I 15).isLt).2.1 (ix2 p q) = aSeq (blk (n := 16) (efS m c S1 T2 s φ (rowOf I p))) (xfam XS q) 16)
    ∧ (∀ q : Fin 128, (stAt m c (pt I 15).val (pt I 15).isLt).2.2.2 (ix2 p q) = aSeq (blk (n := 16) (efT m c S2 T1 s φ (rowOf I p))) (xfam XT q) 16) := by
  have heS := heS_row m c S1 T2 s φ hS1 hT2 hlre hφ I p
  have hxS := hxS_row m c XS hXS I
  have heT := heT_row m c S2 T1 s φ hS2 hT1 hlre hφ I p
  have hxT := hxT_row m c XT hXT I
  have h := row_state m c I p _ _ _ _ heS hxS heT hxT (15 : Fin 16)
  exact ⟨h.2.1, h.2.2.2⟩

end

end Cert.KernelIdeal.Hand

end
-- ==== Proof.KOutEntry.lean ====
import proofs.«416335_j89953795048031_3_alg».proof.Proof.KData
import proofs.«416335_j89953795048031_3_alg».proof.Proof.KPieceVal
import proofs.«416335_j89953795048031_3_alg».proof.Proof.KRowInd
import proofs.«416335_j89953795048031_3_alg».proof.Proof.KPay
import proofs.«416335_j89953795048031_3_alg».proof.Proof.KBlockVal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

private theorem pt15_ne0 (I : Fin 8) : ¬(pt I 15).val % 16 = 0 := by
  rw [pt_val]; show ¬(16 * I.val + 15) % 16 = 0; omega

private theorem pt15_eq15 (I : Fin 8) : (pt I 15).val % 16 = 15 := by
  rw [pt_val]; show (16 * I.val + 15) % 16 = 15; omega
private abbrev prevSt (c : Dev nD) (t : Fin cfg0.N) : St Ideal :=
  stAt m c (t.val - 1) (Nat.lt_of_le_of_lt (Nat.sub_le _ _) t.isLt)
private abbrev accS (c : Dev nD) (t : Fin cfg0.N) : Vec Ideal S1024x128 .f32 :=
  (stepS (grid0.coords t) (iblk m c 0 t) (iblk m c 2 t) (iblk m c 4 t) (iblk m c 6 t) (prevSt m c t).1 (prevSt m c t).2.1).2
private abbrev accT (c : Dev nD) (t : Fin cfg0.N) : Vec Ideal S1024x128 .f32 :=
  (stepT (grid0.coords t) (iblk m c 1 t) (iblk m c 3 t) (iblk m c 5 t) (iblk m c 7 t) (prevSt m c t).2.2.1 (prevSt m c t).2.2.2).2

private theorem stAt_last (c : Dev nD) (t : Fin cfg0.N) (h0 : ¬t.val % 16 = 0) (h1 : t.val % 16 = 15) :
    stAt m c t.val t.isLt
      = ((stepS (grid0.coords t) (iblk m c 0 t) (iblk m c 2 t) (iblk m c 4 t) (iblk m c 6 t) (prevSt m c t).1 (prevSt m c t).2.1).1,
         (stepS (grid0.coords t) (iblk m c 0 t) (iblk m c 2 t) (iblk m c 4 t) (iblk m c 6 t) (prevSt m c t).1 (prevSt m c t).2.1).2,
         (stepT (grid0.coords t) (iblk m c 1 t) (iblk m c 3 t) (iblk m c 5 t) (iblk m c 7 t) (prevSt m c t).2.2.1 (prevSt m c t).2.2.2).1,
         (stepT (grid0.coords t) (iblk m c 1 t) (iblk m c 3 t) (iblk m c 5 t) (iblk m c 7 t) (prevSt m c t).2.2.1 (prevSt m c t).2.2.2).2) :=
  (stAt_C m c t h0 h1).trans
    (soutC_eq c (bufsAt t) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (iblk m c 8 t) (iblk m c 9 t) (prevSt m c t).1 (prevSt m c t).2.1 (prevSt m c t).2.2.1 (prevSt m c t).2.2.2)

private theorem accS_eq (c : Dev nD) (t : Fin cfg0.N) (h0 : ¬t.val % 16 = 0) (h1 : t.val % 16 = 15) :
    (stAt m c t.val t.isLt).2.1 = accS m c t :=
  congrArg (fun S : St Ideal => S.2.1) (stAt_last m c t h0 h1)

private theorem accT_eq (c : Dev nD) (t : Fin cfg0.N) (h0 : ¬t.val % 16 = 0) (h1 : t.val % 16 = 15) :
    (stAt m c t.val t.isLt).2.2.2 = accT m c t :=
  congrArg (fun S : St Ideal => S.2.2.2) (stAt_last m c t h0 h1)

private theorem out_last_src (c : Dev nD) (t : Fin cfg0.N) (h0 : ¬t.val % 16 = 0) (h1 : t.val % 16 = 15) (p : Fin 1024) (q : Fin 64) :
    outAt m c t.val t.isLt (ix2 p (⟨q.val, by omega⟩ : Fin 128))
      = eluK (Ideal.div (accS m c t (ix2 p (⟨q.val, by omega⟩ : Fin 128))) (accS m c t (ix2 p (⟨64, by omega⟩ : Fin 128)))
          + (iblk m c 8 t : Vec Ideal S1x64 .f32) (ix2 (0 : Fin 1) q)) := by
  refine (congrFun (outAt_C m c t h0 h1) _).trans ?_
  refine (outC_eq c (bufsAt t) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (iblk m c 8 t) (iblk m c 9 t) (prevSt m c t).1 (prevSt m c t).2.1 (prevSt m c t).2.2.1 (prevSt m c t).2.2.2 p ⟨q.val, by omega⟩).trans ?_
  rw [dif_pos (show q.val < 64 from q.isLt)]
  exact pay3_apply _ _ p q

private theorem out_last_tgt (c : Dev nD) (t : Fin cfg0.N) (h0 : ¬t.val % 16 = 0) (h1 : t.val % 16 = 15) (p : Fin 1024) (q : Fin 64) :
    outAt m c t.val t.isLt (ix2 p (⟨q.val + 64, by omega⟩ : Fin 128))
      = eluK (Ideal.div (accT m c t (ix2 p (⟨q.val, by omega⟩ : Fin 128))) (accT m c t (ix2 p (⟨64, by omega⟩ : Fin 128)))
          + (iblk m c 9 t : Vec Ideal S1x64 .f32) (ix2 (0 : Fin 1) q)) := by
  refine (congrFun (outAt_C m c t h0 h1) _).trans ?_
  refine (outC_eq c (bufsAt t) (fun h => h0 ((hcondFirst t).mp h)) ((hcondLast t).mpr h1) (iblk m c 0 t) (iblk m c 1 t) (iblk m c 2 t) (iblk m c 3 t) (iblk m c 4 t) (iblk m c 5 t) (iblk m c 6 t) (iblk m c 7 t) (iblk m c 8 t) (iblk m c 9 t) (prevSt m c t).1 (prevSt m c t).2.1 (prevSt m c t).2.2.1 (prevSt m c t).2.2.2 p ⟨q.val + 64, by omega⟩).trans ?_
  rw [dif_neg (show ¬q.val + 64 < 64 by omega)]
  have e : (⟨q.val + 64 - 64, by omega⟩ : Fin 64) = q := Fin.ext (by show q.val + 64 - 64 = q.val; omega)
  rw [e]
  exact pay4_apply _ _ p q

theorem out_entry_src (c : Dev nD) (I : Fin 8) (p : Fin 1024) (q : Fin 64) :
    outAt m c (pt I 15).val (pt I 15).isLt (ix2 p (⟨q.val, by omega⟩ : Fin 128))
      = eluK (Ideal.div ((stAt m c (pt I 15).val (pt I 15).isLt).2.1 (ix2 p (⟨q.val, by omega⟩ : Fin 128)))
            ((stAt m c (pt I 15).val (pt I 15).isLt).2.1 (ix2 p (⟨64, by omega⟩ : Fin 128)))
          + argA6 m c (ix1 q)) := by
  rw [accS_eq m c (pt I 15) (pt15_ne0 I) (pt15_eq15 I), ← biasS_of m c (pt I 15) q]
  exact out_last_src m c (pt I 15) (pt15_ne0 I) (pt15_eq15 I) p q

theorem out_entry_tgt (c : Dev nD) (I : Fin 8) (p : Fin 1024) (q : Fin 64) :
    outAt m c (pt I 15).val (pt I 15).isLt (ix2 p (⟨q.val + 64, by omega⟩ : Fin 128))
      = eluK (Ideal.div ((stAt m c (pt I 15).val (pt I 15).isLt).2.2.2 (ix2 p (⟨q.val, by omega⟩ : Fin 128)))
            ((stAt m c (pt I 15).val (pt I 15).isLt).2.2.2 (ix2 p (⟨64, by omega⟩ : Fin 128)))
          + argA7 m c (ix1 q)) := by
  rw [accT_eq m c (pt I 15) (pt15_ne0 I) (pt15_eq15 I), ← biasT_of m c (pt I 15) q]
  exact out_last_tgt m c (pt I 15) (pt15_ne0 I) (pt15_eq15 I) p q

end Cert.KernelIdeal.Hand

end
-- ==== Proof.KArr.lean ====
import proofs.«416335_j89953795048031_3_alg».proof.Proof.KData
import proofs.«416335_j89953795048031_3_alg».proof.Proof.KBlocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

theorem outAt_congr (c : Dev nD) {n n' : ℕ} (hn : n < cfg0.N) (hn' : n' < cfg0.N) (h : n = n')
    (y y' : S1024x128.Idx) (hy : y = y') : outAt m c n hn y = outAt m c n' hn' y' := by
  subst h; subst hy; rfl

theorem last_lt (r : ℕ) (hr : r < 8192) : 16 * (r / 1024) + 15 < cfg0.N := by
  have hN : cfg0.N = 128 := N_0
  omega

def G18 (c : Dev nD) : S8192x128.Idx → Elt F .f32 := fun i =>
  outAt m c (16 * ((i 0).val / 1024) + 15) (last_lt _ (idx2_lt0 i))
    (ix2 (⟨(i 0).val % 1024, Nat.mod_lt _ (by decide)⟩ : Fin 1024) (⟨(i 1).val, idx2_lt1 i⟩ : Fin 128))

theorem idx10 : ∀ t : Fin cfg0.N, win0_10.index t (0 : Fin 2) = t.val / 16 ∧ win0_10.index t (1 : Fin 2) = 0 :=
  (by decide +kernel : ∀ t : Fin grid0.N, _)

theorem flushed10_eq (c : Dev nD) (t : Fin cfg0.N) (hf : (cfg0.win 10).flush t = true) :
    (dats m 0 c).flushed 10 t = ((cfg0.win 10).blk t).view.read (Elt F) (G18 m c) := by
  have h15 : t.val % 16 = 15 := (flush0_10 t).mp hf
  obtain ⟨e0, e1⟩ := idx10 t
  show (cfg0.win 10).cut (grid0.coords t) ((dats m 0 c).after 10 t) = _
  rw [after_10]
  funext y
  show outAt m c t.val t.isLt y = G18 m c (((cfg0.win 10).blk t).view.emb y)
  have hy0 : (y 0).val < 1024 := (y 0).isLt
  have hy1 : (y 1).val < 128 := (y 1).isLt
  have h0 : ((((cfg0.win 10).blk t).view.emb y) 0).val = win0_10.index t (0 : Fin 2) * 1024 + 1 * (y 0).val := rfl
  have h1 : ((((cfg0.win 10).blk t).view.emb y) 1).val = win0_10.index t (1 : Fin 2) * 128 + 1 * (y 1).val := rfl
  unfold G18
  refine outAt_congr m c _ _ (by omega) _ _ (funext fun a => Fin.ext ?_)
  match a with
  | ⟨0, _⟩ => show (y 0).val = ((((cfg0.win 10).blk t).view.emb y) 0).val % 1024; omega
  | ⟨1, _⟩ => show (y 1).val = ((((cfg0.win 10).blk t).view.emb y) 1).val; omega

theorem mem_blk10 (t : Fin cfg0.N) (i : S8192x128.Idx) :
    i ∈ ((cfg0.win 10).blk t).view.set
      ↔ ∀ a : Fin 2, win0_10.index t a * S1024x128.size a ≤ (i a).val
          ∧ (i a).val < win0_10.index t a * S1024x128.size a + S1024x128.size a := by
  show i ∈ ((View.whole main_v18).slice (win0_10.rect t)).set ↔ _
  rw [View.set_slice_whole, Rect.mem_set_unit]
  exact Iff.rfl

theorem cover10 (i : S8192x128.Idx) :
    ∃ t : Fin cfg0.N, (cfg0.win 10).flush t = true ∧ i ∈ ((cfg0.win 10).blk t).view.set := by
  have hi0 : (i 0).val < 8192 := idx2_lt0 i
  have hi1 : (i 1).val < 128 := idx2_lt1 i
  obtain ⟨t, ht⟩ : ∃ t : Fin cfg0.N, t.val = 16 * ((i 0).val / 1024) + 15 := ⟨⟨_, last_lt _ hi0⟩, rfl⟩
  obtain ⟨e0, e1⟩ := idx10 t
  refine ⟨t, (flush0_10 t).mpr (by omega), ?_⟩
  rw [mem_blk10]
  intro a
  match a with
  | ⟨0, _⟩ =>
    show win0_10.index t (0 : Fin 2) * 1024 ≤ (i 0).val ∧ (i 0).val < win0_10.index t (0 : Fin 2) * 1024 + 1024
    omega
  | ⟨1, _⟩ =>
    show win0_10.index t (1 : Fin 2) * 128 ≤ (i 1).val ∧ (i 1).val < win0_10.index t (1 : Fin 2) * 128 + 128
    omega

theorem final18 (c : Dev nD) : (dats m 0 c).arrAt 10 cfg0.N = G18 m c :=
  (dats m 0 c).arrAt_eq_of_cover 10 (G18 m c) (fun t hf => flushed10_eq m c t hf) cover10

theorem arr18_apply (c : Dev nD) (r : Fin 8192) (q : Fin 128) :
    ((dats m 0 c).arrAt 10 cfg0.N : S8192x128.Idx → Elt F .f32) (ix2 r q)
      = outAt m c (16 * (r.val / 1024) + 15) (last_lt r.val r.isLt)
          (ix2 (⟨r.val % 1024, Nat.mod_lt _ (by decide)⟩ : Fin 1024) q) :=
  congrFun (final18 m c) (ix2 r q)

end Cert.KernelIdeal.Hand

end
-- ==== Proof.RefRead.lean ====
import proofs.«416335_j89953795048031_3_alg».proof.Proof.RefDefs
import proofs.«416335_j89953795048031_3_alg».proof.Proof.LibDot
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.Hand

open Cert.ReferenceIdeal Cert.ReferenceIdeal.Facts₀ Cert.ReferenceIdeal.Facts Idealize.ShloMosaic
  Idealize.ShloMosaic.ValueIdx

variable [Cert.ReferenceIdeal.Facts]

def lreluW (z : EReal) : EReal := if 0 < z then z else Ideal.ofBits .f32 0x3C23D70A#32 * z

def eluW (x : EReal) : EReal :=
  if 0 < x then x else Ideal.ofBits .f32 0x3F800000#32 * (Ideal.exp (if 0 < x then 0 else x) - 1)

def eR (mk : IVec S8192x8192 1) (sc sr : FVec Ideal S8192x1 .f32) (r j : Fin 8192) : EReal :=
  if mk (ix2 r j) = 1#1 then lreluW (sc (ix2 r 0) + sr (ix2 j 0)) else Ideal.ofBits .f32 0xD51184E7#32

def MR (mk : IVec S8192x8192 1) (sc sr : FVec Ideal S8192x1 .f32) (r : Fin 8192) : EReal :=
  max (Ideal.ofBits .f32 0xFF800000#32)
    ((Finset.univ : Finset (Fin 8192)).fold max (Ideal.ofBits .f32 0xFF800000#32) (fun j => eR mk sc sr r j))

def uR (mk : IVec S8192x8192 1) (sc sr : FVec Ideal S8192x1 .f32) (r j : Fin 8192) : EReal :=
  Ideal.exp (eR mk sc sr r j - MR mk sc sr r)

theorem select_ogt {α : Type} (a b : Ideal .f32) (x y : α) :
    Scalar.select (FloatOps.cmpf .ogt a b) x y = if b < a then x else y := by
  show (if BitVec.ofBool (decide (b < a)) = 1#1 then x else y) = _
  by_cases h : b < a
  · rw [if_pos h, decide_eq_true h]; rfl
  · rw [if_neg h, decide_eq_false h]; rfl

theorem bcast0_apply {α : Type} {t : Shape} (h : S_.BroadcastsInDim t (![] : Fin 0 → Fin t.rank)) (x : S_.Idx → α)
    (j : t.Idx) : broadcastInDim t ![] h x j = x ix0 :=
  broadcastInDim_apply _ h x j ix0 fun a => a.elim0

theorem preact_apply (sc sr : FVec Ideal S8192x1 .f32) (r j : Fin 8192) :
    preact sc sr (ix2 r j) = sc (ix2 r 0) + sr (ix2 j 0) := by
  unfold preact
  rw [addf_apply]
  congr 1
  · exact broadcastInDim_apply _ bcast_S8192x1_S8192x8192_0_1 sc (ix2 r j) (ix2 r 0) fun a =>
      match a with | ⟨0, _⟩ => rfl | ⟨1, _⟩ => rfl
  · refine (broadcastInDim_apply _ bcast_S1x8192_S8192x8192_0_1 _ (ix2 r j) (ix2 (0 : Fin 1) j) fun a =>
      match a with | ⟨0, _⟩ => rfl | ⟨1, _⟩ => rfl).trans ?_
    exact transpose_ix2_apply sr transposes_S8192x1_S1x8192_1_0 (0 : Fin 1) j

theorem logits_apply (sc sr : FVec Ideal S8192x1 .f32) (r j : Fin 8192) :
    logits sc sr (ix2 r j) = lreluW (sc (ix2 r 0) + sr (ix2 j 0)) := by
  unfold logits
  rw [select_apply, cmpf_apply, mulf_apply, bcast0_apply, bcast0_apply, constant_apply, constant_apply,
    preact_apply, select_ogt, Ideal.ofBits_zero_f32]
  rfl

theorem maskOf_apply (adj : IVec S8192x8192 32) (r j : Fin 8192) :
    maskOf adj (ix2 r j) = IntOp.cmpi .sgt (adj (ix2 r j)) 0#32 := by
  unfold maskOf
  show IntOp.cmpi .sgt (adj (ix2 r j)) (broadcastInDim S8192x8192 ![] bcast_S_S8192x8192 (constantI S_ 32 0#32) (ix2 r j)) = _
  rw [bcast0_apply]
  rfl

theorem maskT_apply (adj : IVec S8192x8192 32) (r j : Fin 8192) :
    (transpose S8192x8192 [1, 0] (maskOf adj) transposes_S8192x8192_S8192x8192_1_0) (ix2 r j) = maskOf adj (ix2 j r) :=
  transpose_ix2_apply (maskOf adj) transposes_S8192x8192_S8192x8192_1_0 r j

theorem masked_apply (mk : IVec S8192x8192 1) (sc sr : FVec Ideal S8192x1 .f32) (r j : Fin 8192) :
    masked mk (logits sc sr) (ix2 r j) = eR mk sc sr r j := by
  unfold masked
  rw [select_apply, bcast0_apply, logits_apply]
  rfl

theorem hostExp_apply {s : Shape} (v : FVec Ideal s .f32) (i : s.Idx) : Host.exp v i = Ideal.exp (v i) := rfl
theorem hostExpm1_apply {s : Shape} (v : FVec Ideal s .f32) (i : s.Idx) : Host.expm1 v i = Ideal.exp (v i) - 1 := rfl
theorem hostDivf_apply {s : Shape} (a b : FVec Ideal s .f32) (i : s.Idx) : Host.divf a b i = Ideal.div (a i) (b i) := rfl
theorem reduces_d1 : S8192x8192.Reduces [1] S8192 := by decide
theorem lift_d1 (r k : Fin 8192) : reduces_d1.lift (ix1 r) k = ix2 r k :=
  funext fun c => match c with | ⟨0, _⟩ => Fin.ext rfl | ⟨1, _⟩ => Fin.ext rfl

theorem colBcast_apply {α : Type} (v : S8192.Idx → α) (r j : Fin 8192) :
    broadcastInDim S8192x8192 ![0, 1] bcast_S8192x1_S8192x8192_0_1
      (broadcastInDim S8192x1 ![0] bcast_S8192_S8192x1_0 v) (ix2 r j) = v (ix1 r) := by
  refine (broadcastInDim_apply _ bcast_S8192x1_S8192x8192_0_1 _ (ix2 r j) (ix2 r (0 : Fin 1)) fun a =>
    match a with | ⟨0, _⟩ => rfl | ⟨1, _⟩ => rfl).trans ?_
  exact broadcastInDim_apply _ bcast_S8192_S8192x1_0 v (ix2 r (0 : Fin 1)) (ix1 r) fun a =>
    match a with | ⟨0, _⟩ => rfl

theorem rowMax_apply (z : FVec Ideal S8192x8192 .f32) (r : Fin 8192) :
    rowMax z (ix1 r) = max (Ideal.ofBits .f32 0xFF800000#32)
      ((Finset.univ : Finset (Fin 8192)).fold max (Ideal.ofBits .f32 0xFF800000#32) (fun j => z (ix2 r j))) := by
  unfold rowMax
  rw [maximumf_apply, bcast0_apply, constant_apply,
    Host.reduce_eq_fold_single FloatOps.maximumf z _ reducesTo_S8192x8192_S8192_d1 reduces_d1 h_S_ (ix1 r)]
  have hz : z ∘ reduces_d1.lift (ix1 r) = fun j : Fin 8192 => z (ix2 r j) :=
    funext fun k => congrArg z (lift_d1 r k)
  rw [hz]
  rfl

theorem expShift_apply (z : FVec Ideal S8192x8192 .f32) (r j : Fin 8192) :
    expShift z (ix2 r j) = Ideal.exp (z (ix2 r j) - rowMax z (ix1 r)) := by
  unfold expShift
  rw [hostExp_apply, subf_apply, colBcast_apply]

theorem rowSum_apply (u : FVec Ideal S8192x8192 .f32) (r : Fin 8192) :
    rowSum u (ix1 r) = 0 + ∑ j : Fin 8192, u (ix2 r j) := by
  unfold rowSum
  show Ideal.hostReduceAdd reducesTo_S8192x8192_S8192_d1 u
    (constant (F := Ideal) S_ .f32 0x00000000#32 (Shape.Idx.first h_S_)) (ix1 r) = _
  rw [Ideal.hostReduceAdd_single reducesTo_S8192x8192_S8192_d1 reduces_d1, constant_apply, Ideal.ofBits_zero_f32]
  exact congrArg (0 + ·) (Finset.sum_congr rfl fun k _ => congrArg u (lift_d1 r k))

theorem softmaxRows_apply (z : FVec Ideal S8192x8192 .f32) (r j : Fin 8192) :
    softmaxRows z (ix2 r j) = Ideal.div (expShift z (ix2 r j)) (rowSum (expShift z) (ix1 r)) := by
  unfold softmaxRows
  rw [hostDivf_apply, colBcast_apply]

theorem rowMax_masked_apply (mk : IVec S8192x8192 1) (sc sr : FVec Ideal S8192x1 .f32) (r : Fin 8192) :
    rowMax (masked mk (logits sc sr)) (ix1 r) = MR mk sc sr r := by
  rw [rowMax_apply]
  have hz : (fun j : Fin 8192 => masked mk (logits sc sr) (ix2 r j)) = fun j => eR mk sc sr r j :=
    funext fun j => masked_apply mk sc sr r j
  rw [hz]
  rfl

theorem expShift_masked_apply (mk : IVec S8192x8192 1) (sc sr : FVec Ideal S8192x1 .f32) (r j : Fin 8192) :
    expShift (masked mk (logits sc sr)) (ix2 r j) = uR mk sc sr r j := by
  rw [expShift_apply, masked_apply, rowMax_masked_apply]
  rfl

theorem rowSum_masked_apply (mk : IVec S8192x8192 1) (sc sr : FVec Ideal S8192x1 .f32) (r : Fin 8192) :
    rowSum (expShift (masked mk (logits sc sr))) (ix1 r) = 0 + ∑ j : Fin 8192, uR mk sc sr r j := by
  rw [rowSum_apply]
  exact congrArg (0 + ·) (Finset.sum_congr rfl fun j _ => expShift_masked_apply mk sc sr r j)

theorem softmax_masked_apply (mk : IVec S8192x8192 1) (sc sr : FVec Ideal S8192x1 .f32) (r j : Fin 8192) :
    softmaxRows (masked mk (logits sc sr)) (ix2 r j)
      = Ideal.div (uR mk sc sr r j) (0 + ∑ j' : Fin 8192, uR mk sc sr r j') := by
  rw [softmaxRows_apply, expShift_masked_apply, rowSum_masked_apply]

theorem eluH_apply (x : FVec Ideal S8192x64 .f32) (r : Fin 8192) (q : Fin 64) :
    eluH x (ix2 r q) = eluW (x (ix2 r q)) := by
  unfold eluH
  simp only [select_apply, cmpf_apply, mulf_apply, hostExpm1_apply, select_ogt, id]
  rw [bcast0_apply, bcast0_apply, constant_apply, constant_apply, Ideal.ofBits_zero_f32]
  rfl

theorem biasBcast_apply {α : Type} (b : S64.Idx → α) (r : Fin 8192) (q : Fin 64) :
    broadcastInDim S8192x64 ![0, 1] bcast_S1x64_S8192x64_0_1 (broadcastInDim S1x64 ![1] bcast_S64_S1x64_1 b) (ix2 r q)
      = b (ix1 q) := by
  refine (broadcastInDim_apply _ bcast_S1x64_S8192x64_0_1 _ (ix2 r q) (ix2 (0 : Fin 1) q) fun a =>
    match a with | ⟨0, _⟩ => rfl | ⟨1, _⟩ => rfl).trans ?_
  exact broadcastInDim_apply _ bcast_S64_S1x64_1 b (ix2 (0 : Fin 1) q) (ix1 q) fun a =>
    match a with | ⟨0, _⟩ => rfl

theorem outOf_apply_gen (att : FVec Ideal S8192x8192 .f32) (xw : FVec Ideal S8192x64 .f32) (b : FVec Ideal S64 .f32)
    (r : Fin 8192) (q : Fin 64) :
    outOf (F := Ideal) att xw b (ix2 r q) = eluW ((∑ j : Fin 8192, att (ix2 r j) * xw (ix2 j q)) + b (ix1 q)) := by
  unfold outOf
  rw [eluH_apply, addf_apply, biasBcast_apply,
    Cert.LibDot.dot_rows_apply dot_S8192x8192_S8192x64_S8192x64_1_0_0_1_n_n rfl rfl rfl rfl rfl rfl]

theorem outOf_apply (mk : IVec S8192x8192 1) (sc sr : FVec Ideal S8192x1 .f32) (xw : FVec Ideal S8192x64 .f32)
    (b : FVec Ideal S64 .f32) (r : Fin 8192) (q : Fin 64) :
    outOf (F := Ideal) (softmaxRows (masked mk (logits sc sr))) xw b (ix2 r q)
      = eluW ((∑ j : Fin 8192, Ideal.div (uR mk sc sr r j) (0 + ∑ j' : Fin 8192, uR mk sc sr r j') * xw (ix2 j q))
          + b (ix1 q)) := by
  rw [outOf_apply_gen]
  exact congrArg (fun t => eluW (t + b (ix1 q)))
    (Finset.sum_congr rfl fun j _ => by rw [softmax_masked_apply])

end Cert.ReferenceIdeal.Hand

end
-- ==== Proof.KBridge.lean ====
import proofs.«416335_j89953795048031_3_alg».proof.Proof.RefRead
import proofs.«416335_j89953795048031_3_alg».proof.Proof.KPay
import proofs.«416335_j89953795048031_3_alg».proof.Proof.KRow
import proofs.«416335_j89953795048031_3_alg».proof.Proof.LibOnlineSoftmax

noncomputable section

open scoped BigOperators

namespace Cert.Bridge

open Idealize.ShloMosaic

theorem elu_agree (y : EReal) : Cert.KernelIdeal.Hand.eluK y = Cert.ReferenceIdeal.Hand.eluW y :=
  Cert.KernelIdeal.Hand.eluK_eq y

theorem bridge_row (mk : IVec Cert.ReferenceIdeal.S8192x8192 1) (sc sr : FVec Ideal Cert.ReferenceIdeal.S8192x1 .f32)
    (xw : FVec Ideal Cert.ReferenceIdeal.S8192x64 .f32) (b : EReal) (r : Fin 8192) (q : Fin 64)
    (ef xf : Fin 8192 → ℝ)
    (he : ∀ j : Fin 8192, Cert.ReferenceIdeal.Hand.eR mk sc sr r j = ((ef j : ℝ) : EReal))
    (hx : ∀ j : Fin 8192, xw (ValueIdx.ix2 j q) = ((xf j : ℝ) : EReal)) :
    Cert.KernelIdeal.Hand.eluK
        (Ideal.div (OnlineSoftmax.aSeq (bs := 512) (OnlineSoftmax.blk (n := 16) ef) (OnlineSoftmax.blk (n := 16) xf) 16)
          (OnlineSoftmax.aSeq (bs := 512) (OnlineSoftmax.blk (n := 16) ef) (fun _ _ => 1) 16) + b)
      = Cert.ReferenceIdeal.Hand.eluW
          ((∑ j : Fin 8192, Ideal.div (Cert.ReferenceIdeal.Hand.uR mk sc sr r j)
              (0 + ∑ j' : Fin 8192, Cert.ReferenceIdeal.Hand.uR mk sc sr r j') * xw (ValueIdx.ix2 j q)) + b) := by
  have hMR : Cert.ReferenceIdeal.Hand.MR mk sc sr r
      = max ⊥ ((Finset.univ : Finset (Fin 8192)).fold max ⊥ fun j => ((ef j : ℝ) : EReal)) :=
    congrArg₂ (fun a g => max a ((Finset.univ : Finset (Fin 8192)).fold max a g)) OnlineSoftmax.neg_inf_lit (funext he)
  have hu : ∀ j : Fin 8192, Cert.ReferenceIdeal.Hand.uR mk sc sr r j
      = Ideal.exp (((ef j : ℝ) : EReal)
          - max ⊥ ((Finset.univ : Finset (Fin 8192)).fold max ⊥ fun j => ((ef j : ℝ) : EReal))) :=
    fun j => congrArg₂ (fun a m => Ideal.exp (a - m)) (he j) hMR
  have hL : (0 + ∑ j' : Fin 8192, Cert.ReferenceIdeal.Hand.uR mk sc sr r j')
      = 0 + ∑ j' : Fin 8192, Ideal.exp (((ef j' : ℝ) : EReal)
          - max ⊥ ((Finset.univ : Finset (Fin 8192)).fold max ⊥ fun j => ((ef j : ℝ) : EReal))) :=
    congrArg (0 + ·) (Finset.sum_congr rfl fun j _ => hu j)
  have h1 : Ideal.div (OnlineSoftmax.aSeq (bs := 512) (OnlineSoftmax.blk (n := 16) ef) (OnlineSoftmax.blk (n := 16) xf) 16)
        (OnlineSoftmax.aSeq (bs := 512) (OnlineSoftmax.blk (n := 16) ef) (fun _ _ => 1) 16)
      = ∑ j : Fin 8192, Ideal.div (Ideal.exp (((ef j : ℝ) : EReal)
            - max ⊥ ((Finset.univ : Finset (Fin 8192)).fold max ⊥ fun j => ((ef j : ℝ) : EReal))))
          (0 + ∑ j' : Fin 8192, Ideal.exp (((ef j' : ℝ) : EReal)
            - max ⊥ ((Finset.univ : Finset (Fin 8192)).fold max ⊥ fun j => ((ef j : ℝ) : EReal)))) * ((xf j : ℝ) : EReal) :=
    OnlineSoftmax.online_eq_ref (bs := 512) 16 (by decide) ef xf
  have hmain : Ideal.div (OnlineSoftmax.aSeq (bs := 512) (OnlineSoftmax.blk (n := 16) ef) (OnlineSoftmax.blk (n := 16) xf) 16)
        (OnlineSoftmax.aSeq (bs := 512) (OnlineSoftmax.blk (n := 16) ef) (fun _ _ => 1) 16)
      = ∑ j : Fin 8192, Ideal.div (Cert.ReferenceIdeal.Hand.uR mk sc sr r j)
          (0 + ∑ j' : Fin 8192, Cert.ReferenceIdeal.Hand.uR mk sc sr r j') * xw (ValueIdx.ix2 j q) := by
    rw [h1, hL]
    exact Finset.sum_congr rfl fun j _ => by rw [hu j, hx j]
  rw [elu_agree, hmain]

theorem lrelu_agree (z : ℝ) :
    Cert.KernelIdeal.Hand.lreluM (z : EReal) = Cert.ReferenceIdeal.Hand.lreluW (z : EReal) := by
  obtain ⟨s, hs0, hs1, hs, hl⟩ := Cert.KernelIdeal.Hand.lreluM_coe
  rw [hl z]
  unfold Cert.ReferenceIdeal.Hand.lreluW
  rw [hs]
  by_cases h : 0 < z
  · rw [if_pos h, if_pos (EReal.coe_pos.2 h)]
  · rw [if_neg h, if_neg (fun h' => h (EReal.coe_pos.1 h')), EReal.coe_mul]

theorem lrelu_real (z : ℝ) : ∃ y : ℝ, Cert.KernelIdeal.Hand.lreluM (z : EReal) = (y : EReal) := by
  obtain ⟨s, -, -, -, hl⟩ := Cert.KernelIdeal.Hand.lreluM_coe
  exact ⟨_, hl z⟩

end Cert.Bridge

end
-- ==== Proof.KValueS.lean ====
import proofs.«416335_j89953795048031_3_alg».proof.Proof.KRowData
import proofs.«416335_j89953795048031_3_alg».proof.Proof.KOutEntry
import proofs.«416335_j89953795048031_3_alg».proof.Proof.KArr
import proofs.«416335_j89953795048031_3_alg».proof.Proof.KBridge
import proofs.«416335_j89953795048031_3_alg».proof.Proof.KBlockVal
import proofs.«416335_j89953795048031_3_alg».proof.Proof.KRow
import proofs.«416335_j89953795048031_3_alg».proof.Proof.RefRead
import proofs.«416335_j89953795048031_3_alg».proof.Proof.RefDefs

set_option maxRecDepth 16384

noncomputable section

open scoped BigOperators

namespace Cert.Bridge

open Idealize.ShloMosaic

variable (m : (ℓ : Loc Cert.KernelIdeal.nD Cert.KernelIdeal.τ Cert.KernelIdeal.sig) → Buf (Elt Ideal) ℓ)

theorem cmpi_agree (a : BitVec 32) : Scalar.cmpi .sgt a 0#32 = IntOp.cmpi .sgt a 0#32 := rfl

theorem xfam_lt (X : Fin 8192 → Fin 64 → ℝ) (q : Fin 64) :
    Cert.KernelIdeal.Hand.xfam X (⟨q.val, by omega⟩ : Fin 128)
      = OnlineSoftmax.blk (bs := 512) (n := 16) (fun j : Fin 8192 => X j q) := by
  unfold Cert.KernelIdeal.Hand.xfam
  rw [dif_pos (show (⟨q.val, by omega⟩ : Fin 128).val < 64 from q.isLt)]

theorem xfam_64 (X : Fin 8192 → Fin 64 → ℝ) :
    Cert.KernelIdeal.Hand.xfam X (⟨64, by omega⟩ : Fin 128) = fun _ _ => (1 : ℝ) := by
  unfold Cert.KernelIdeal.Hand.xfam
  rw [dif_neg (show ¬ (⟨64, by omega⟩ : Fin 128).val < 64 from Nat.lt_irrefl 64), if_pos rfl]

theorem rowOf_divmod (r : Fin 8192) :
    Cert.KernelIdeal.Hand.rowOf (⟨r.val / 1024, by have := r.isLt; omega⟩ : Fin 8)
      (⟨r.val % 1024, Nat.mod_lt _ (by decide)⟩ : Fin 1024) = r :=
  Fin.ext (by show 1024 * (r.val / 1024) + r.val % 1024 = r.val; omega)

section

variable (c : Dev Cert.KernelIdeal.nD) (XS XT : Fin 8192 → Fin 64 → ℝ) (S1 S2 T1 T2 : Fin 8192 → ℝ) (s φ : ℝ)

theorem he_src
    (hS1 : ∀ r, Cert.KernelIdeal.Hand.sS1 m c (ValueIdx.ix2 r (0 : Fin 1)) = ((S1 r : ℝ) : EReal))
    (hT2 : ∀ r, Cert.KernelIdeal.Hand.sT2 m c (ValueIdx.ix2 r (0 : Fin 1)) = ((T2 r : ℝ) : EReal))
    (hlre : ∀ z : ℝ, Cert.KernelIdeal.Hand.lreluM (z : EReal) = ((Cert.KernelIdeal.Hand.lre s z : ℝ) : EReal))
    (hφ : Ideal.ofBits .f32 0xD51184E7#32 = ((φ : ℝ) : EReal)) (r j : Fin 8192) :
    Cert.ReferenceIdeal.Hand.eR (Cert.ReferenceIdeal.Hand.maskOf (Cert.KernelIdeal.Hand.argA2 m c))
        (Cert.ReferenceIdeal.Hand.score
          (Cert.ReferenceIdeal.Hand.proj (Cert.KernelIdeal.Hand.argA0 m c) (Cert.KernelIdeal.Hand.argA3 m c))
          (Cert.ReferenceIdeal.Hand.a1 (Cert.KernelIdeal.Hand.argA5 m c)))
        (Cert.ReferenceIdeal.Hand.score
          (Cert.ReferenceIdeal.Hand.proj (Cert.KernelIdeal.Hand.argA1 m c) (Cert.KernelIdeal.Hand.argA4 m c))
          (Cert.ReferenceIdeal.Hand.a2 (Cert.KernelIdeal.Hand.argA5 m c))) r j
      = ((Cert.KernelIdeal.Hand.efS m c S1 T2 s φ r j : ℝ) : EReal) := by
  have e1 : Cert.ReferenceIdeal.Hand.score
        (Cert.ReferenceIdeal.Hand.proj (Cert.KernelIdeal.Hand.argA0 m c) (Cert.KernelIdeal.Hand.argA3 m c))
        (Cert.ReferenceIdeal.Hand.a1 (Cert.KernelIdeal.Hand.argA5 m c)) (ValueIdx.ix2 r (0 : Fin 1)) = ((S1 r : ℝ) : EReal) :=
    hS1 r
  have e2 : Cert.ReferenceIdeal.Hand.score
        (Cert.ReferenceIdeal.Hand.proj (Cert.KernelIdeal.Hand.argA1 m c) (Cert.KernelIdeal.Hand.argA4 m c))
        (Cert.ReferenceIdeal.Hand.a2 (Cert.KernelIdeal.Hand.argA5 m c)) (ValueIdx.ix2 j (0 : Fin 1)) = ((T2 j : ℝ) : EReal) :=
    hT2 j
  unfold Cert.ReferenceIdeal.Hand.eR Cert.KernelIdeal.Hand.efS
  rw [Cert.ReferenceIdeal.Hand.maskOf_apply, e1, e2]
  by_cases hm : Scalar.cmpi .sgt (Cert.KernelIdeal.Hand.argA2 m c (ValueIdx.ix2 r j)) 0#32 = 1#1
  · rw [if_pos (show IntOp.cmpi .sgt (Cert.KernelIdeal.Hand.argA2 m c (ValueIdx.ix2 r j)) 0#32 = 1#1 from hm), if_pos hm,
      ← EReal.coe_add, ← lrelu_agree, hlre]
  · rw [if_neg (show ¬ IntOp.cmpi .sgt (Cert.KernelIdeal.Hand.argA2 m c (ValueIdx.ix2 r j)) 0#32 = 1#1 from hm), if_neg hm, hφ]

theorem kernel_entry_src
    (hXS : ∀ j q, Cert.KernelIdeal.Hand.kProj (Cert.KernelIdeal.Hand.argA0 m c) (Cert.KernelIdeal.Hand.argA3 m c) (ValueIdx.ix2 j q) = ((XS j q : ℝ) : EReal))
    (hXT : ∀ j q, Cert.KernelIdeal.Hand.kProj (Cert.KernelIdeal.Hand.argA1 m c) (Cert.KernelIdeal.Hand.argA4 m c) (ValueIdx.ix2 j q) = ((XT j q : ℝ) : EReal))
    (hS1 : ∀ r, Cert.KernelIdeal.Hand.sS1 m c (ValueIdx.ix2 r (0 : Fin 1)) = ((S1 r : ℝ) : EReal))
    (hS2 : ∀ r, Cert.KernelIdeal.Hand.sS2 m c (ValueIdx.ix2 r (0 : Fin 1)) = ((S2 r : ℝ) : EReal))
    (hT1 : ∀ r, Cert.KernelIdeal.Hand.sT1 m c (ValueIdx.ix2 r (0 : Fin 1)) = ((T1 r : ℝ) : EReal))
    (hT2 : ∀ r, Cert.KernelIdeal.Hand.sT2 m c (ValueIdx.ix2 r (0 : Fin 1)) = ((T2 r : ℝ) : EReal))
    (hlre : ∀ z : ℝ, Cert.KernelIdeal.Hand.lreluM (z : EReal) = ((Cert.KernelIdeal.Hand.lre s z : ℝ) : EReal))
    (hφ : Ideal.ofBits .f32 0xD51184E7#32 = ((φ : ℝ) : EReal)) (I : Fin 8) (p : Fin 1024) (q : Fin 64) :
    Cert.KernelIdeal.Hand.outAt m c (Cert.KernelIdeal.Hand.pt I 15).val (Cert.KernelIdeal.Hand.pt I 15).isLt
        (ValueIdx.ix2 p (⟨q.val, by omega⟩ : Fin 128))
      = Cert.KernelIdeal.Hand.eluK
          (Ideal.div
            (OnlineSoftmax.aSeq (bs := 512)
              (OnlineSoftmax.blk (n := 16) (Cert.KernelIdeal.Hand.efS m c S1 T2 s φ (Cert.KernelIdeal.Hand.rowOf I p)))
              (OnlineSoftmax.blk (n := 16) (fun j : Fin 8192 => XS j q)) 16)
            (OnlineSoftmax.aSeq (bs := 512)
              (OnlineSoftmax.blk (n := 16) (Cert.KernelIdeal.Hand.efS m c S1 T2 s φ (Cert.KernelIdeal.Hand.rowOf I p)))
              (fun _ _ => 1) 16)
            + Cert.KernelIdeal.Hand.argA6 m c (ValueIdx.ix1 q)) := by
  have hacc := (Cert.KernelIdeal.Hand.row_accs m c XS XT S1 S2 T1 T2 s φ hXS hXT hS1 hS2 hT1 hT2 hlre hφ I p).1
  rw [Cert.KernelIdeal.Hand.out_entry_src m c I p q, hacc (⟨q.val, by omega⟩ : Fin 128), hacc (⟨64, by omega⟩ : Fin 128),
    xfam_lt, xfam_64]

end

theorem value_src (c : Dev Cert.KernelIdeal.nD)
    (h0 : ∀ i, ∃ x : ℝ, Cert.KernelIdeal.Hand.argA0 m c i = (x : EReal))
    (h1 : ∀ i, ∃ x : ℝ, Cert.KernelIdeal.Hand.argA1 m c i = (x : EReal))
    (h3 : ∀ i, ∃ x : ℝ, Cert.KernelIdeal.Hand.argA3 m c i = (x : EReal))
    (h4 : ∀ i, ∃ x : ℝ, Cert.KernelIdeal.Hand.argA4 m c i = (x : EReal))
    (h5 : ∀ i, ∃ x : ℝ, Cert.KernelIdeal.Hand.argA5 m c i = (x : EReal)) (r : Fin 8192) (q : Fin 64) :
    ((Cert.KernelIdeal.Hand.dats m 0 c).arrAt 10 Cert.KernelIdeal.cfg0.N : Cert.KernelIdeal.S8192x128.Idx → EReal)
        (ValueIdx.ix2 r (⟨q.val, by omega⟩ : Fin 128))
      = Cert.ReferenceIdeal.Hand.resSrc (Cert.KernelIdeal.Hand.argA0 m c) (Cert.KernelIdeal.Hand.argA1 m c)
          (Cert.KernelIdeal.Hand.argA2 m c) (Cert.KernelIdeal.Hand.argA3 m c) (Cert.KernelIdeal.Hand.argA4 m c)
          (Cert.KernelIdeal.Hand.argA5 m c) (Cert.KernelIdeal.Hand.argA6 m c) (ValueIdx.ix2 r q) := by
  obtain ⟨XS, XT, S1, S2, T1, T2, hXS, hXT, hS1, hS2, hT1, hT2⟩ :=
    Cert.KernelIdeal.Hand.reals_of_finite m c h0 h1 h3 h4 h5
  obtain ⟨s, -, -, -, hl⟩ := Cert.KernelIdeal.Hand.lreluM_coe
  have hlre : ∀ z : ℝ, Cert.KernelIdeal.Hand.lreluM (z : EReal) = ((Cert.KernelIdeal.Hand.lre s z : ℝ) : EReal) := hl
  obtain ⟨φ, hφ⟩ := OnlineSoftmax.fill_lit
  have hI : r.val / 1024 < 8 := by have := r.isLt; omega
  have hp : r.val % 1024 < 1024 := Nat.mod_lt _ (by decide)
  refine (Cert.KernelIdeal.Hand.arr18_apply m c r (⟨q.val, by omega⟩ : Fin 128)).trans ?_
  refine (show Cert.KernelIdeal.Hand.outAt m c (16 * (r.val / 1024) + 15) (Cert.KernelIdeal.Hand.last_lt r.val r.isLt)
        (ValueIdx.ix2 (⟨r.val % 1024, Nat.mod_lt _ (by decide)⟩ : Fin 1024) (⟨q.val, by omega⟩ : Fin 128))
      = Cert.KernelIdeal.Hand.outAt m c (Cert.KernelIdeal.Hand.pt ⟨r.val / 1024, hI⟩ 15).val
          (Cert.KernelIdeal.Hand.pt ⟨r.val / 1024, hI⟩ 15).isLt
          (ValueIdx.ix2 (⟨r.val % 1024, hp⟩ : Fin 1024) (⟨q.val, by omega⟩ : Fin 128)) from rfl).trans ?_
  refine (kernel_entry_src m c XS XT S1 S2 T1 T2 s φ hXS hXT hS1 hS2 hT1 hT2 hlre hφ ⟨r.val / 1024, hI⟩ ⟨r.val % 1024, hp⟩ q).trans ?_
  rw [rowOf_divmod r]
  unfold Cert.ReferenceIdeal.Hand.resSrc
  rw [Cert.ReferenceIdeal.Hand.outOf_apply]
  exact bridge_row (Cert.ReferenceIdeal.Hand.maskOf (Cert.KernelIdeal.Hand.argA2 m c))
    (Cert.ReferenceIdeal.Hand.score
      (Cert.ReferenceIdeal.Hand.proj (Cert.KernelIdeal.Hand.argA0 m c) (Cert.KernelIdeal.Hand.argA3 m c))
      (Cert.ReferenceIdeal.Hand.a1 (Cert.KernelIdeal.Hand.argA5 m c)))
    (Cert.ReferenceIdeal.Hand.score
      (Cert.ReferenceIdeal.Hand.proj (Cert.KernelIdeal.Hand.argA1 m c) (Cert.KernelIdeal.Hand.argA4 m c))
      (Cert.ReferenceIdeal.Hand.a2 (Cert.KernelIdeal.Hand.argA5 m c)))
    (Cert.ReferenceIdeal.Hand.proj (Cert.KernelIdeal.Hand.argA0 m c) (Cert.KernelIdeal.Hand.argA3 m c))
    (Cert.KernelIdeal.Hand.argA6 m c (ValueIdx.ix1 q)) r q
    (Cert.KernelIdeal.Hand.efS m c S1 T2 s φ r) (fun j => XS j q)
    (fun j => he_src m c S1 T2 s φ hS1 hT2 hlre hφ r j) (fun j => hXS j q)

end Cert.Bridge

end
-- ==== Proof.KValueT.lean ====
import proofs.«416335_j89953795048031_3_alg».proof.Proof.KRowData
import proofs.«416335_j89953795048031_3_alg».proof.Proof.KOutEntry
import proofs.«416335_j89953795048031_3_alg».proof.Proof.KArr
import proofs.«416335_j89953795048031_3_alg».proof.Proof.KBridge
import proofs.«416335_j89953795048031_3_alg».proof.Proof.KBlockVal
import proofs.«416335_j89953795048031_3_alg».proof.Proof.KRow
import proofs.«416335_j89953795048031_3_alg».proof.Proof.RefRead
import proofs.«416335_j89953795048031_3_alg».proof.Proof.RefDefs

set_option maxRecDepth 16384

noncomputable section

open scoped BigOperators

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)

theorem maskT_at (A2 : IVec Cert.ReferenceIdeal.S8192x8192 32) (r j : Fin 8192) :
    (transpose Cert.ReferenceIdeal.S8192x8192 [1, 0] (Cert.ReferenceIdeal.Hand.maskOf A2)
        Cert.ReferenceIdeal.Facts₀.transposes_S8192x8192_S8192x8192_1_0) (ValueIdx.ix2 r j)
      = Scalar.cmpi .sgt (A2 (ValueIdx.ix2 j r)) 0#32 :=
  (Cert.ReferenceIdeal.Hand.maskT_apply A2 r j).trans (Cert.ReferenceIdeal.Hand.maskOf_apply A2 j r)

theorem tgt_core (c : Dev Cert.KernelIdeal.nD) (r : Fin 8192) (q : Fin 64)
    (XT : Fin 8192 → Fin 64 → ℝ) (S2 T1 : Fin 8192 → ℝ) (s φ : ℝ) (ef : Fin 8192 → ℝ)
    (hXT : ∀ j q, Cert.KernelIdeal.Hand.kProj (Cert.KernelIdeal.Hand.argA1 m c) (Cert.KernelIdeal.Hand.argA4 m c) (ValueIdx.ix2 j q)
      = ((XT j q : ℝ) : EReal))
    (hS2 : ∀ j, Cert.KernelIdeal.Hand.kScore (Cert.KernelIdeal.Hand.kProj (Cert.KernelIdeal.Hand.argA0 m c) (Cert.KernelIdeal.Hand.argA3 m c))
        (Cert.KernelIdeal.Hand.kA2 (Cert.KernelIdeal.Hand.argA5 m c)) (ValueIdx.ix2 j (0 : Fin 1)) = ((S2 j : ℝ) : EReal))
    (hT1 : ∀ j, Cert.KernelIdeal.Hand.kScore (Cert.KernelIdeal.Hand.kProj (Cert.KernelIdeal.Hand.argA1 m c) (Cert.KernelIdeal.Hand.argA4 m c))
        (Cert.KernelIdeal.Hand.kA1 (Cert.KernelIdeal.Hand.argA5 m c)) (ValueIdx.ix2 j (0 : Fin 1)) = ((T1 j : ℝ) : EReal))
    (hlre : ∀ z : ℝ, Cert.KernelIdeal.Hand.lreluM (z : EReal) = ((if 0 < z then z else s * z : ℝ) : EReal))
    (hφ : Ideal.ofBits .f32 0xD51184E7#32 = ((φ : ℝ) : EReal))
    (hef : ∀ j, ef j = if Scalar.cmpi .sgt (Cert.KernelIdeal.Hand.argA2 m c (ValueIdx.ix2 j r)) 0#32 = 1#1
        then (if 0 < T1 r + S2 j then T1 r + S2 j else s * (T1 r + S2 j)) else φ) :
    Cert.KernelIdeal.Hand.eluK
        (Ideal.div (OnlineSoftmax.aSeq (bs := 512) (OnlineSoftmax.blk (n := 16) ef) (OnlineSoftmax.blk (n := 16) fun j => XT j q) 16)
          (OnlineSoftmax.aSeq (bs := 512) (OnlineSoftmax.blk (n := 16) ef) (fun _ _ => 1) 16)
          + Cert.KernelIdeal.Hand.argA7 m c (ValueIdx.ix1 q))
      = Cert.ReferenceIdeal.Hand.resTgt (F := Ideal) (Cert.KernelIdeal.Hand.argA0 m c) (Cert.KernelIdeal.Hand.argA1 m c)
          (Cert.KernelIdeal.Hand.argA2 m c) (Cert.KernelIdeal.Hand.argA3 m c) (Cert.KernelIdeal.Hand.argA4 m c)
          (Cert.KernelIdeal.Hand.argA5 m c) (Cert.KernelIdeal.Hand.argA7 m c) (ValueIdx.ix2 r q) := by
  refine Eq.trans ?_ (Cert.ReferenceIdeal.Hand.outOf_apply _ _ _ _ _ r q).symm
  refine bridge_row _ _ _ _ _ r q ef (fun j => XT j q) (fun j => ?_) (fun j => hXT j q)
  unfold Cert.ReferenceIdeal.Hand.eR
  rw [maskT_at, hef j]
  by_cases hm : Scalar.cmpi .sgt (Cert.KernelIdeal.Hand.argA2 m c (ValueIdx.ix2 j r)) 0#32 = 1#1
  · rw [if_pos hm, if_pos hm]
    refine Eq.trans (congrArg Cert.ReferenceIdeal.Hand.lreluW (congrArg₂ (· + ·) (hT1 r) (hS2 j))) ?_
    rw [← EReal.coe_add, ← lrelu_agree, hlre]
  · rw [if_neg hm, if_neg hm, hφ]

theorem value_tgt (c : Dev Cert.KernelIdeal.nD)
    (h0 : ∀ i, ∃ x : ℝ, Cert.KernelIdeal.Hand.argA0 m c i = (x : EReal))
    (h1 : ∀ i, ∃ x : ℝ, Cert.KernelIdeal.Hand.argA1 m c i = (x : EReal))
    (h3 : ∀ i, ∃ x : ℝ, Cert.KernelIdeal.Hand.argA3 m c i = (x : EReal))
    (h4 : ∀ i, ∃ x : ℝ, Cert.KernelIdeal.Hand.argA4 m c i = (x : EReal))
    (h5 : ∀ i, ∃ x : ℝ, Cert.KernelIdeal.Hand.argA5 m c i = (x : EReal))
    (r : Fin 8192) (q : Fin 64) :
    ((Cert.KernelIdeal.Hand.dats m 0 c).arrAt 10 Cert.KernelIdeal.cfg0.N : Cert.KernelIdeal.S8192x128.Idx → EReal)
        (ValueIdx.ix2 r (⟨q.val + 64, by omega⟩ : Fin 128))
      = Cert.ReferenceIdeal.Hand.resTgt (F := Ideal) (Cert.KernelIdeal.Hand.argA0 m c) (Cert.KernelIdeal.Hand.argA1 m c)
          (Cert.KernelIdeal.Hand.argA2 m c) (Cert.KernelIdeal.Hand.argA3 m c) (Cert.KernelIdeal.Hand.argA4 m c)
          (Cert.KernelIdeal.Hand.argA5 m c) (Cert.KernelIdeal.Hand.argA7 m c) (ValueIdx.ix2 r q) := by
  obtain ⟨XS, XT, S1, S2, T1, T2, hXS, hXT, hS1, hS2, hT1, hT2⟩ :=
    Cert.KernelIdeal.Hand.reals_of_finite m c h0 h1 h3 h4 h5
  obtain ⟨s, -, -, -, hl⟩ := Cert.KernelIdeal.Hand.lreluM_coe
  obtain ⟨φ, hφ⟩ := OnlineSoftmax.fill_lit
  have hlre : ∀ z : ℝ, Cert.KernelIdeal.Hand.lreluM (z : EReal) = ((Cert.KernelIdeal.Hand.lre s z : ℝ) : EReal) := hl
  have hI : r.val / 1024 < 8 := by have := r.isLt; omega
  have hp : r.val % 1024 < 1024 := Nat.mod_lt _ (by decide)
  have hrow : Cert.KernelIdeal.Hand.rowOf ⟨r.val / 1024, hI⟩ ⟨r.val % 1024, hp⟩ = r :=
    Fin.ext (by show 1024 * (r.val / 1024) + r.val % 1024 = r.val; omega)
  refine (Cert.KernelIdeal.Hand.arr18_apply m c r _).trans ?_
  refine (Cert.KernelIdeal.Hand.out_entry_tgt m c ⟨r.val / 1024, hI⟩ ⟨r.val % 1024, hp⟩ q).trans ?_
  have hacc := (Cert.KernelIdeal.Hand.row_accs m c XS XT S1 S2 T1 T2 s φ hXS hXT hS1 hS2 hT1 hT2 hlre hφ
    ⟨r.val / 1024, hI⟩ ⟨r.val % 1024, hp⟩).2
  have hx1 : Cert.KernelIdeal.Hand.xfam XT (⟨q.val, by omega⟩ : Fin 128) = OnlineSoftmax.blk (n := 16) (fun j => XT j q) := by
    unfold Cert.KernelIdeal.Hand.xfam
    rw [dif_pos q.isLt]
  have hx2 : Cert.KernelIdeal.Hand.xfam XT (⟨64, by omega⟩ : Fin 128) = fun _ _ => 1 := by
    unfold Cert.KernelIdeal.Hand.xfam
    rw [dif_neg (Nat.lt_irrefl 64), if_pos rfl]
  rw [hacc, hacc, hrow, hx1, hx2]
  exact tgt_core m c r q XT S2 T1 s φ (Cert.KernelIdeal.Hand.efT m c S2 T1 s φ r) hXT hS2 hT1 hl hφ (fun j => rfl)

end Cert.Bridge

end
-- ==== Proof.KAlg.lean ====
import proofs.«416335_j89953795048031_3_alg».proof.Proof.KFrame
import proofs.«416335_j89953795048031_3_alg».proof.Proof.KValueS
import proofs.«416335_j89953795048031_3_alg».proof.Proof.KValueT
import proofs.«416335_j89953795048031_3_alg».proof.Proof.KHost
import proofs.«416335_j89953795048031_3_alg».proof.Proof.PreFinite
import proofs.«416335_j89953795048031_3_alg».proof.Proof.RefDefs
import proofs.«416335_j89953795048031_3_alg».proof.Proof.Gen.ReferenceIdeal
import proofs.«416335_j89953795048031_3_alg».proof.Proof.Gen.Pre_finite_inputs
import proofs.«416335_j89953795048031_3_alg».proof.Defs
import Idealize.ShloMosaic.Lib.ValueIdx
import Idealize.ShloMosaic.Lib.ValueLayout

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Hand

theorem kernel_run (m : (ℓ : Loc Cert.KernelIdeal.nD Cert.KernelIdeal.τ Cert.KernelIdeal.sig) → Buf (Elt Ideal) ℓ)
    (ρ : Dev Cert.KernelIdeal.nD → PrngReg)
    (hpre : Cert.Pre_KernelIdeal (hPre_finite_inputs := Cert.Pre_finite_inputs.Gen.facts) m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v19)
            = Cert.ReferenceIdeal.Hand.resSrc (F := Ideal)
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5))
                (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_v20)
            = Cert.ReferenceIdeal.Hand.resTgt (F := Ideal)
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5))
                (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run (Cert.KernelIdeal.defs (F := Ideal)) _ _).mono (fun r h c => by
    obtain ⟨h0, h1, h3, h4, h5, -, -⟩ := Cert.PreFinite.finite_of_pre _ _ _ _ _ _ _ _ (hpre c)
    exact
    ⟨(h c (Proc.devRef .tc main_v19) (by decide)).trans ((final_v19 m c).trans (funext fun j => by
        obtain ⟨r, q, rfl⟩ : ∃ (r : Fin 8192) (q : Fin 64), j = ix2 r q := ⟨j 0, j 1, eq_ix2 j⟩
        refine (slice2_axis1_apply 0 _ _ r q (⟨q.val, by omega⟩ : Fin 128) (Nat.zero_add _).symm).trans ?_
        exact value_src m c h0 h1 h3 h4 h5 r q)),
     (h c (Proc.devRef .tc main_v20) (by decide)).trans ((final_v20 m c).trans (funext fun j => by
        obtain ⟨r, q, rfl⟩ : ∃ (r : Fin 8192) (q : Fin 64), j = ix2 r q := ⟨j 0, j 1, eq_ix2 j⟩
        refine (slice2_axis1_apply 64 _ _ r q (⟨q.val + 64, by omega⟩ : Fin 128) (Nat.add_comm _ _)).trans ?_
        exact value_tgt m c h0 h1 h3 h4 h5 r q)),
     (h c (Proc.devRef .tc main_arg0) (by decide)).trans (final_of_untouched m c main_arg0 (by decide) (by decide) (by decide)),
     (h c (Proc.devRef .tc main_arg1) (by decide)).trans (final_of_untouched m c main_arg1 (by decide) (by decide) (by decide)),
     (h c (Proc.devRef .tc main_arg2) (by decide)).trans (final_of_untouched m c main_arg2 (by decide) (by decide) (by decide)),
     (h c (Proc.devRef .tc main_arg3) (by decide)).trans (final_of_untouched m c main_arg3 (by decide) (by decide) (by decide)),
     (h c (Proc.devRef .tc main_arg4) (by decide)).trans (final_of_untouched m c main_arg4 (by decide) (by decide) (by decide)),
     (h c (Proc.devRef .tc main_arg5) (by decide)).trans (final_of_untouched m c main_arg5 (by decide) (by decide) (by decide)),
     (h c (Proc.devRef .tc main_arg6) (by decide)).trans (final_of_untouched m c main_arg6 (by decide) (by decide) (by decide)),
     (h c (Proc.devRef .tc main_arg7) (by decide)).trans (final_of_untouched m c main_arg7 (by decide) (by decide) (by decide))⟩)
    (run_main m ρ)

end Cert.Bridge

end
-- ==== Proof.lean ====
/-
  Graph attention in two branches. Row by row the kernel folds the columns block by block, carrying the running
  maximum M with Σ exp(e − M)·x and Σ exp(e − M); rescaling both by exp(M − M') at each block leaves, after the last
  block, the quotient the reference forms from the row's maximum, exponentials and sums taken over the whole row.
-/
import proofs.«416335_j89953795048031_3_alg».proof.Defs
import proofs.«416335_j89953795048031_3_alg».proof.Proof.Gen.Kernel
import proofs.«416335_j89953795048031_3_alg».proof.Proof.Gen.KernelIdeal
import proofs.«416335_j89953795048031_3_alg».proof.Proof.Gen.ReferenceIdeal
import proofs.«416335_j89953795048031_3_alg».proof.Proof.Gen.Pre_finite_inputs
import proofs.«416335_j89953795048031_3_alg».proof.Proof.BFrame
import proofs.«416335_j89953795048031_3_alg».proof.Proof.KFrame
import proofs.«416335_j89953795048031_3_alg».proof.Proof.RefRun
import proofs.«416335_j89953795048031_3_alg».proof.Proof.KAlg
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

theorem frame_reference : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2)
    (Cert.ReferenceIdeal.Hand.run (F := Ideal) m ρ)

/-- Entry by entry the online quotient is the softmax-weighted sum, for finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.Bridge.kernel_run m ρ hpre, ?_⟩
  refine (θ_run (Cert.ReferenceIdeal.defs (F := Ideal)) _ _).mono (fun _ h c => ⟨?_, ?_, (h c).2.2⟩)
    (Cert.ReferenceIdeal.Hand.run (F := Ideal) m' ρ')
  · rw [(h c).1, (hagree c).1, (hagree c).2.1, (hagree c).2.2.1, (hagree c).2.2.2.1, (hagree c).2.2.2.2.1, (hagree c).2.2.2.2.2.1, (hagree c).2.2.2.2.2.2.1]
  · rw [(h c).2.1, (hagree c).1, (hagree c).2.1, (hagree c).2.2.1, (hagree c).2.2.2.1, (hagree c).2.2.2.2.1, (hagree c).2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
